-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S_ : Shape := ⟨0, ![]⟩
abbrev S1024x4096 : Shape := ⟨2, ![1024, 4096]⟩
abbrev S4096 : Shape := ⟨1, ![4096]⟩
abbrev S4x4096x4096 : Shape := ⟨3, ![4, 4096, 4096]⟩
abbrev S4x4096 : Shape := ⟨2, ![4, 4096]⟩
abbrev S4096x1024 : Shape := ⟨2, ![4096, 1024]⟩
abbrev S1024 : Shape := ⟨1, ![1024]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  reducesTo_S_S_d : S_.ReducesTo [] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S4x4096 : S_.BroadcastsInDim S4x4096 (![] : Fin 0 → Fin S4x4096.rank)
  reducesTo_S4x4096_S_d0_1 : S4x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_v32 : IVec S_ 1) (main_v33 : FVec F S1024 .f32) : IVec S_ 1 :=
  let main_cst_12 : FVec F S_ .f32 := constant S_ .f32 0x7F800000#32
  let main_v34 : FVec F S1024 .f32 := broadcastInDim S1024 ![] bcast_S_S1024 main_cst_12
  let main_v35 : IVec S1024 1 := cmpf .olt main_v33 main_v34
  let main_c_13 : IVec S_ 1 := constantI S_ 1 1#1
  let main_v36 : IVec S_ 1 := (fun x v => Host.reduce IntOp.andi x v reducesTo_S1024_S_d0 h_S_) main_v35 main_c_13
  let main_v37 : IVec S_ 1 := andi main_v32 main_v36
  main_v37

def fn_part1 {F : FTy → Type} [FloatOps F] (main_arg4 : FVec F S4x4096x4096 .f32) (main_arg5 : FVec F S4x4096 .f32) (main_arg6 : FVec F S4096x1024 .f32) (main_arg7 : FVec F S1024 .f32) (main_v12 : IVec S_ 1) (main_v15 : IVec S4096 1) (main_c_5 : IVec S_ 1) : IVec S_ 1 :=
  let main_v16 : IVec S_ 1 := (fun x v => Host.reduce IntOp.andi x v reducesTo_S4096_S_d0 h_S_) main_v15 main_c_5
  let main_v17 : IVec S_ 1 := andi main_v12 main_v16
  let main_v18 : FVec F S4x4096x4096 .f32 := Host.absf main_arg4
  let main_cst_6 : FVec F S_ .f32 := constant S_ .f32 0x7F800000#32
  let main_v19 : FVec F S4x4096x4096 .f32 := broadcastInDim S4x4096x4096 ![] bcast_S_S4x4096x4096 main_cst_6
  let main_v20 : IVec S4x4096x4096 1 := cmpf .olt main_v18 main_v19
  let main_c_7 : IVec S_ 1 := constantI S_ 1 1#1
  let main_v21 : IVec S_ 1 := (fun x v => Host.reduce IntOp.andi x v reducesTo_S4x4096x4096_S_d0_1_2 h_S_) main_v20 main_c_7
  let main_v22 : IVec S_ 1 := andi main_v17 main_v21
  let main_v23 : FVec F S4x4096 .f32 := Host.absf main_arg5
  let main_cst_8 : FVec F S_ .f32 := constant S_ .f32 0x7F800000#32
  let main_v24 : FVec F S4x4096 .f32 := broadcastInDim S4x4096 ![] bcast_S_S4x4096 main_cst_8
  let main_v25 : IVec S4x4096 1 := cmpf .olt main_v23 main_v24
  let main_c_9 : IVec S_ 1 := constantI S_ 1 1#1
  let main_v26 : IVec S_ 1 := (fun x v => Host.reduce IntOp.andi x v reducesTo_S4x4096_S_d0_1 h_S_) main_v25 main_c_9
  let main_v27 : IVec S_ 1 := andi main_v22 main_v26
  let main_v28 : FVec F S4096x1024 .f32 := Host.absf main_arg6
  let main_cst_10 : FVec F S_ .f32 := constant S_ .f32 0x7F800000#32
  let main_v29 : FVec F S4096x1024 .f32 := broadcastInDim S4096x1024 ![] bcast_S_S4096x1024 main_cst_10
  let main_v30 : IVec S4096x1024 1 := cmpf .olt main_v28 main_v29
  let main_c_11 : IVec S_ 1 := constantI S_ 1 1#1
  let main_v31 : IVec S_ 1 := (fun x v => Host.reduce IntOp.andi x v reducesTo_S4096x1024_S_d0_1 h_S_) main_v30 main_c_11
  let main_v32 : IVec S_ 1 := andi main_v27 main_v31
  let main_v33 : FVec F S1024 .f32 := Host.absf main_arg7
  fn_part2 (F := F) main_v32 main_v33

def fn {F : FTy → Type} [FloatOps F] (main_arg0 : FVec F S4096x2048 .f32) (main_arg1 : FVec F S_ .f32) (main_arg2 : FVec F S1024x4096 .f32) (main_arg3 : FVec F S4096 .f32) (main_arg4 : FVec F S4x4096x4096 .f32) (main_arg5 : FVec F S4x4096 .f32) (main_arg6 : FVec F S4096x1024 .f32) (main_arg7 : FVec F S1024 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S1024x4096 .f32 := Host.absf main_arg2
  let main_cst_2 : FVec F S_ .f32 := constant S_ .f32 0x7F800000#32
  let main_v9 : FVec F S1024x4096 .f32 := broadcastInDim S1024x4096 ![] bcast_S_S1024x4096 main_cst_2
  let main_v10 : IVec S1024x4096 1 := cmpf .olt main_v8 main_v9
  let main_c_3 : IVec S_ 1 := constantI S_ 1 1#1
  let main_v11 : IVec S_ 1 := (fun x v => Host.reduce IntOp.andi x v reducesTo_S1024x4096_S_d0_1 h_S_) main_v10 main_c_3
  let main_v12 : IVec S_ 1 := andi main_v7 main_v11
  let main_v13 : FVec F S4096 .f32 := Host.absf main_arg3
  let main_cst_4 : FVec F S_ .f32 := constant S_ .f32 0x7F800000#32
  let main_v14 : FVec F S4096 .f32 := broadcastInDim S4096 ![] bcast_S_S4096 main_cst_4
  let main_v15 : IVec S4096 1 := cmpf .olt main_v13 main_v14
  let main_c_5 : IVec S_ 1 := constantI S_ 1 1#1
  fn_part1 (F := F) main_arg4 main_arg5 main_arg6 main_arg7 main_v12 main_v15 main_c_5
-- ==== Kernel.lean ====
abbrev S4096x2048 : Shape := ⟨2, ![4096, 2048]⟩
abbrev S_ : Shape := ⟨0, ![]⟩
abbrev S1024x4096 : Shape := ⟨2, ![1024, 4096]⟩
abbrev S4096 : Shape := ⟨1, ![4096]⟩
abbrev S4x4096x4096 : Shape := ⟨3, ![4, 4096, 4096]⟩
abbrev S4x4096 : Shape := ⟨2, ![4, 4096]⟩
abbrev S4096x1024 : Shape := ⟨2, ![4096, 1024]⟩
abbrev S1024 : Shape := ⟨1, ![1024]⟩
abbrev S4096x1024x2 : Shape := ⟨3, ![4096, 1024, 2]⟩
abbrev S4096x1024x1 : Shape := ⟨3, ![4096, 1024, 1]⟩
abbrev S1x4096 : Shape := ⟨2, ![1, 4096]⟩
abbrev S4096x4096 : Shape := ⟨2, ![4096, 4096]⟩
abbrev S1024x1024 : Shape := ⟨2, ![1024, 1024]⟩
abbrev S1x1024 : Shape := ⟨2, ![1, 1024]⟩
abbrev S1x4096x4096 : Shape := ⟨3, ![1, 4096, 4096]⟩

abbrev nBuf : Space → Nat
  | .hbm => 46
  | .vmem => 53
  | .smem => 0
  | _ => 0

abbrev bufTy : (tb : Table) → Fin (tcTables nBuf tb) → BufTy
  | .hbm, ⟨0, _⟩ => ⟨S4096x2048, .f32⟩
  | .hbm, ⟨1, _⟩ => ⟨S_, .f32⟩
  | .hbm, ⟨2, _⟩ => ⟨S1024x4096, .f32⟩
  | .hbm, ⟨3, _⟩ => ⟨S4096, .f32⟩
  | .hbm, ⟨4, _⟩ => ⟨S4x4096x4096, .f32⟩
  | .hbm, ⟨5, _⟩ => ⟨S4x4096, .f32⟩
  | .hbm, ⟨6, _⟩ => ⟨S4096x1024, .f32⟩
  | .hbm, ⟨7, _⟩ => ⟨S1024, .f32⟩
  | .hbm, ⟨8, _⟩ => ⟨S4096x1024x2, .f32⟩
  | .hbm, ⟨9, _⟩ => ⟨S4096x1024x1, .f32⟩
  | .hbm, ⟨10, _⟩ => ⟨S4096x1024, .f32⟩
  | .hbm, ⟨11, _⟩ => ⟨S4096x1024x1, .f32⟩
  | .hbm, ⟨12, _⟩ => ⟨S4096x1024, .f32⟩
  | .hbm, ⟨13, _⟩ => ⟨S1x4096, .f32⟩
  | .hbm, ⟨14, _⟩ => ⟨S4096x4096, .f32⟩
  | .hbm, ⟨15, _⟩ => ⟨S1x4096x4096, .f32⟩
  | .hbm, ⟨16, _⟩ => ⟨S4096x4096, .f32⟩
  | .hbm, ⟨17, _⟩ => ⟨S1x4096, .f32⟩
  | .hbm, ⟨18, _⟩ => ⟨S4096, .f32⟩
  | .hbm, ⟨19, _⟩ => ⟨S1x4096, .f32⟩
  | .hbm, ⟨20, _⟩ => ⟨S4096x4096, .f32⟩
  | .hbm, ⟨21, _⟩ => ⟨S1x4096x4096, .f32⟩
  | .hbm, ⟨22, _⟩ => ⟨S4096x4096, .f32⟩
  | .hbm, ⟨23, _⟩ => ⟨S1x4096, .f32⟩
  | .hbm, ⟨24, _⟩ => ⟨S4096, .f32⟩
  | .hbm, ⟨25, _⟩ => ⟨S1x4096, .f32⟩
  | .hbm, ⟨26, _⟩ => ⟨S4096x4096, .f32⟩
  | .hbm, ⟨27, _⟩ => ⟨S1x4096x4096, .f32⟩
  | .hbm, ⟨28, _⟩ => ⟨S4096x4096, .f32⟩
  | .hbm, ⟨29, _⟩ => ⟨S1x4096, .f32⟩
  | .hbm, ⟨30, _⟩ => ⟨S4096, .f32⟩
  | .hbm, ⟨31, _⟩ => ⟨S1x4096, .f32⟩
  | .hbm, ⟨32, _⟩ => ⟨S4096x4096, .f32⟩
  | .hbm, ⟨33, _⟩ => ⟨S1x4096x4096, .f32⟩
  | .hbm, ⟨34, _⟩ => ⟨S4096x4096, .f32⟩
  | .hbm, ⟨35, _⟩ => ⟨S1x4096, .f32⟩
  | .hbm, ⟨36, _⟩ => ⟨S4096, .f32⟩
  | .hbm, ⟨37, _⟩ => ⟨S1x4096, .f32⟩
  | .hbm, ⟨38, _⟩ => ⟨S4096x4096, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024x1, .f32⟩
  | .hbm, ⟨43, _⟩ => ⟨S4096x1024x1, .f32⟩
  | .hbm, ⟨44, _⟩ => ⟨S4096x1024x2, .f32⟩
  | .hbm, ⟨45, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1x1024, .f32⟩
  | .local _ .vmem, ⟨23, _⟩ => ⟨S1x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S1x1024, .f32⟩
  | .local _ .vmem, ⟨32, _⟩ => ⟨S1x1024, .f32⟩
  | .local _ .vmem, ⟨33, _⟩ => ⟨S1024x1024, .f32⟩
  | .local _ .vmem, ⟨34, _⟩ => ⟨S1024x1024, .f32⟩
  | .local _ .vmem, ⟨35, _⟩ => ⟨S1024x1024, .f32⟩
  | .local _ .vmem, ⟨36, _⟩ => ⟨S1024x1024, .f32⟩
  | .local _ .vmem, ⟨37, _⟩ => ⟨S1024x1024, .f32⟩
  | .local _ .vmem, ⟨38, _⟩ => ⟨S1024x1024, .f32⟩
  | .local _ .vmem, ⟨39, _⟩ => ⟨S1024x1024, .f32⟩
  | .local _ .vmem, ⟨40, _⟩ => ⟨S1x1024, .f32⟩
  | .local _ .vmem, ⟨41, _⟩ => ⟨S1x1024, .f32⟩
  | .local _ .vmem, ⟨42, _⟩ => ⟨S1024x1024, .f32⟩
  | .local _ .vmem, ⟨43, _⟩ => ⟨S1024x1024, .f32⟩
  | .local _ .vmem, ⟨44, _⟩ => ⟨S1024x1024, .f32⟩
  | .local _ .vmem, ⟨45, _⟩ => ⟨S1024x1024, .f32⟩
  | .local _ .vmem, ⟨46, _⟩ => ⟨S1024x1024, .f32⟩
  | .local _ .vmem, ⟨47, _⟩ => ⟨S1024x1024, .f32⟩
  | .local _ .vmem, ⟨48, _⟩ => ⟨S1024x1024, .f32⟩
  | .local _ .vmem, ⟨49, _⟩ => ⟨S1x1024, .f32⟩
  | .local _ .vmem, ⟨50, _⟩ => ⟨S1024x1024, .f32⟩
  | .local _ .vmem, ⟨51, _⟩ => ⟨S1024x1024, .f32⟩
  | .local _ .vmem, ⟨52, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_scratch0 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg3_1 : Ref sig .tc := ⟨.vmem, 51, rfl⟩
abbrev cc5_scratch0 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem3_1 : DmaSem sig := 46

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 4, 4], ![false, false, false]⟩

def k2_cond2 (i : grid2.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 4, 4], ![false, false, false]⟩

def k3_cond2 (i : grid3.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![4, 4, 4], ![false, false, false]⟩

def k4_cond2 (i : grid4.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![4, 1, 4], ![false, false, false]⟩

def k5_cond2 (i : grid5.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, true, false]

abbrev stage5_3 : Fin 2 → Memref sig .tc .vmem S1024x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

class Facts₀ : Prop where
  shapeCasts_S4096x2048_S4096x1024x2 : S4096x2048.ShapeCasts S4096x1024x2
  slices_S4096x1024x2_S4096x1024x1_0_0_0 : S4096x1024x2.Slices ![0, 0, 0] S4096x1024x1
  shapeCasts_S4096x1024x1_S4096x1024 : S4096x1024x1.ShapeCasts S4096x1024
  slices_S4096x1024x2_S4096x1024x1_0_0_1 : S4096x1024x2.Slices ![0, 0, 1] S4096x1024x1
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S4x4096x4096_S1x4096x4096_0_0_0 : S4x4096x4096.Slices ![0, 0, 0] S1x4096x4096
  shapeCasts_S1x4096x4096_S4096x4096 : S1x4096x4096.ShapeCasts S4096x4096
  slices_S4x4096_S1x4096_0_0 : S4x4096.Slices ![0, 0] S1x4096
  shapeCasts_S1x4096_S4096 : S1x4096.ShapeCasts S4096
  slices_S4x4096x4096_S1x4096x4096_1_0_0 : S4x4096x4096.Slices ![1, 0, 0] S1x4096x4096
  slices_S4x4096_S1x4096_1_0 : S4x4096.Slices ![1, 0] S1x4096
  slices_S4x4096x4096_S1x4096x4096_2_0_0 : S4x4096x4096.Slices ![2, 0, 0] S1x4096x4096
  slices_S4x4096_S1x4096_2_0 : S4x4096.Slices ![2, 0] S1x4096
  slices_S4x4096x4096_S1x4096x4096_3_0_0 : S4x4096x4096.Slices ![3, 0, 0] S1x4096x4096
  slices_S4x4096_S1x4096_3_0 : S4x4096.Slices ![3, 0] S1x4096
  shapeCasts_S1024_S1x1024 : S1024.ShapeCasts S1x1024
  bcast_S4096x1024_S4096x1024x1_0_1 : S4096x1024.BroadcastsInDim S4096x1024x1 (![0, 1] : Fin 2 → Fin S4096x1024x1.rank)
  concatenates_S4096x1024x1_S4096x1024x1_S4096x1024x2_d2 : Shape.Concatenates [S4096x1024x1, S4096x1024x1] S4096x1024x2 2
  shapeCasts_S4096x1024x2_S4096x2048 : S4096x1024x2.ShapeCasts S4096x2048
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .f32 = 32 ∨ (Rect.block (s := S1024x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .f32 = 32 ∨ (Rect.block (s := S4096x4096) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .f32 = 32 ∨ (Rect.block (s := S4096x4096) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x4096.size a
  hwx2_3 : ∀ i : grid2.Coords, EltTy.bits .f32 = 32 ∨ (Rect.block (s := S4096x4096) S1024x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x4096.size a
  hwx3_0 : ∀ i : grid3.Coords, EltTy.bits .f32 = 32 ∨ (Rect.block (s := S4096x4096) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x4096.size a
  hwx3_1 : ∀ i : grid3.Coords, EltTy.bits .f32 = 32 ∨ (Rect.block (s := S4096x4096) S1024x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x4096.size a
  hwx3_2 : ∀ i : grid3.Coords, EltTy.bits .f32 = 32 ∨ (Rect.block (s := S1x4096) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S4096x4096.size a
  hwx3_3 : ∀ i : grid3.Coords, EltTy.bits .f32 = 32 ∨ (Rect.block (s := S4096x4096) S1024x1024.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x4096.size a
  hwx4_0 : ∀ i : grid4.Coords, EltTy.bits .f32 = 32 ∨ (Rect.block (s := S4096x4096) S1024x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S4096x4096.size a
  hwx4_1 : ∀ i : grid4.Coords, EltTy.bits .f32 = 32 ∨ (Rect.block (s := S4096x4096) S1024x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x4096.size a
  hwx4_2 : ∀ i : grid4.Coords, EltTy.bits .f32 = 32 ∨ (Rect.block (s := S1x4096) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S4096x4096.size a
  hwx4_3 : ∀ i : grid4.Coords, EltTy.bits .f32 = 32 ∨ (Rect.block (s := S4096x4096) S1024x1024.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S4096x4096.size a
  hwx5_0 : ∀ i : grid5.Coords, EltTy.bits .f32 = 32 ∨ (Rect.block (s := S4096x4096) S1024x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S4096x1024.size a
  hwx5_1 : ∀ i : grid5.Coords, EltTy.bits .f32 = 32 ∨ (Rect.block (s := S4096x1024) S1024x1024.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x1024.size a
  hwx5_2 : ∀ i : grid5.Coords, EltTy.bits .f32 = 32 ∨ (Rect.block (s := S1x1024) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x1024.size a ≤ S4096x1024.size a
  hwx5_3 : ∀ i : grid5.Coords, EltTy.bits .f32 = 32 ∨ (Rect.block (s := S4096x1024) S1024x1024.size (cc5_transform_3 i) (hinb5_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v6) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v12) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v18) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v24) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v24) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S1024x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v29) S1x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v30) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v30) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S1024x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v31) S1x1024.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v32) S1024x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S4096x2048 : Shape := ⟨2, ![4096, 2048]⟩
abbrev S_ : Shape := ⟨0, ![]⟩
abbrev S1024x4096 : Shape := ⟨2, ![1024, 4096]⟩
abbrev S4096 : Shape := ⟨1, ![4096]⟩
abbrev S4x4096x4096 : Shape := ⟨3, ![4, 4096, 4096]⟩
abbrev S4x4096 : Shape := ⟨2, ![4, 4096]⟩
abbrev S4096x1024 : Shape := ⟨2, ![4096, 1024]⟩
abbrev S1024 : Shape := ⟨1, ![1024]⟩
abbrev S4096x1024x2 : Shape := ⟨3, ![4096, 1024, 2]⟩
abbrev S4096x1024x1 : Shape := ⟨3, ![4096, 1024, 1]⟩
abbrev S4096x4096 : Shape := ⟨2, ![4096, 4096]⟩
abbrev S1x4096 : Shape := ⟨2, ![1, 4096]⟩
abbrev S1x4096x4096 : Shape := ⟨3, ![1, 4096, 4096]⟩
abbrev S1x1024 : Shape := ⟨2, ![1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S_, .f32⟩
  | .hbm, ⟨2, _⟩ => ⟨S1024x4096, .f32⟩
  | .hbm, ⟨3, _⟩ => ⟨S4096, .f32⟩
  | .hbm, ⟨4, _⟩ => ⟨S4x4096x4096, .f32⟩
  | .hbm, ⟨5, _⟩ => ⟨S4x4096, .f32⟩
  | .hbm, ⟨6, _⟩ => ⟨S4096x1024, .f32⟩
  | .hbm, ⟨7, _⟩ => ⟨S1024, .f32⟩
  | .hbm, ⟨8, _⟩ => ⟨S4096x1024x2, .f32⟩
  | .hbm, ⟨9, _⟩ => ⟨S4096x1024x1, .f32⟩
  | .hbm, ⟨10, _⟩ => ⟨S4096x1024, .f32⟩
  | .hbm, ⟨11, _⟩ => ⟨S4096x1024x1, .f32⟩
  | .hbm, ⟨12, _⟩ => ⟨S4096x1024, .f32⟩
  | .hbm, ⟨13, _⟩ => ⟨S4096x4096, .f32⟩
  | .hbm, ⟨14, _⟩ => ⟨S1x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S1x4096x4096, .f32⟩
  | .hbm, ⟨21, _⟩ => ⟨S4096x4096, .f32⟩
  | .hbm, ⟨22, _⟩ => ⟨S4096x4096, .f32⟩
  | .hbm, ⟨23, _⟩ => ⟨S1x4096, .f32⟩
  | .hbm, ⟨24, _⟩ => ⟨S4096, .f32⟩
  | .hbm, ⟨25, _⟩ => ⟨S1x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S1x4096x4096, .f32⟩
  | .hbm, ⟨32, _⟩ => ⟨S4096x4096, .f32⟩
  | .hbm, ⟨33, _⟩ => ⟨S4096x4096, .f32⟩
  | .hbm, ⟨34, _⟩ => ⟨S1x4096, .f32⟩
  | .hbm, ⟨35, _⟩ => ⟨S4096, .f32⟩
  | .hbm, ⟨36, _⟩ => ⟨S1x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S1x4096x4096, .f32⟩
  | .hbm, ⟨43, _⟩ => ⟨S4096x4096, .f32⟩
  | .hbm, ⟨44, _⟩ => ⟨S4096x4096, .f32⟩
  | .hbm, ⟨45, _⟩ => ⟨S1x4096, .f32⟩
  | .hbm, ⟨46, _⟩ => ⟨S4096, .f32⟩
  | .hbm, ⟨47, _⟩ => ⟨S1x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S1x4096x4096, .f32⟩
  | .hbm, ⟨54, _⟩ => ⟨S4096x4096, .f32⟩
  | .hbm, ⟨55, _⟩ => ⟨S4096x4096, .f32⟩
  | .hbm, ⟨56, _⟩ => ⟨S1x4096, .f32⟩
  | .hbm, ⟨57, _⟩ => ⟨S4096, .f32⟩
  | .hbm, ⟨58, _⟩ => ⟨S1x4096, .f32⟩
  | .hbm, ⟨59, _⟩ => ⟨S4096x4096, .f32⟩
  | .hbm, ⟨60, _⟩ => ⟨S4096x4096, .f32⟩
  | .hbm, ⟨61, _⟩ => ⟨S_, .f32⟩
  | .hbm, ⟨62, _⟩ => ⟨S4096x4096, .f32⟩
  | .hbm, ⟨63, _⟩ => ⟨S4096x4096, .f32⟩
  | .hbm, ⟨64, _⟩ => ⟨S4096x1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024x1, .f32⟩
  | .hbm, ⟨70, _⟩ => ⟨S4096x1024x1, .f32⟩
  | .hbm, ⟨71, _⟩ => ⟨S4096x1024x2, .f32⟩
  | .hbm, ⟨72, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call1_cst : Ref sig .tc := ⟨.hbm, 28, rfl⟩
abbrev main_call1_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call2_cst : Ref sig .tc := ⟨.hbm, 39, rfl⟩
abbrev main_call2_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call3_cst : Ref sig .tc := ⟨.hbm, 50, rfl⟩
abbrev main_call3_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call4_cst : Ref sig .tc := ⟨.hbm, 61, rfl⟩
abbrev main_call4_v0 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]

class Facts₀ : Prop where
  shapeCasts_S4096x2048_S4096x1024x2 : S4096x2048.ShapeCasts S4096x1024x2
  slices_S4096x1024x2_S4096x1024x1_0_0_0 : S4096x1024x2.Slices ![0, 0, 0] S4096x1024x1
  shapeCasts_S4096x1024x1_S4096x1024 : S4096x1024x1.ShapeCasts S4096x1024
  slices_S4096x1024x2_S4096x1024x1_0_0_1 : S4096x1024x2.Slices ![0, 0, 1] S4096x1024x1
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  slices_S4x4096x4096_S1x4096x4096_0_0_0 : S4x4096x4096.Slices ![0, 0, 0] S1x4096x4096
  shapeCasts_S1x4096x4096_S4096x4096 : S1x4096x4096.ShapeCasts S4096x4096
  slices_S4x4096_S1x4096_0_0 : S4x4096.Slices ![0, 0] S1x4096
  shapeCasts_S1x4096_S4096 : S1x4096.ShapeCasts S4096
  slices_S4x4096x4096_S1x4096x4096_1_0_0 : S4x4096x4096.Slices ![1, 0, 0] S1x4096x4096
  slices_S4x4096_S1x4096_1_0 : S4x4096.Slices ![1, 0] S1x4096
  slices_S4x4096x4096_S1x4096x4096_2_0_0 : S4x4096x4096.Slices ![2, 0, 0] S1x4096x4096
  slices_S4x4096_S1x4096_2_0 : S4x4096.Slices ![2, 0] S1x4096
  slices_S4x4096x4096_S1x4096x4096_3_0_0 : S4x4096x4096.Slices ![3, 0, 0] S1x4096x4096
  slices_S4x4096_S1x4096_3_0 : S4x4096.Slices ![3, 0] S1x4096
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S4096x1024_S4096x1024x1_0_1 : S4096x1024.BroadcastsInDim S4096x1024x1 (![0, 1] : Fin 2 → Fin S4096x1024x1.rank)
  concatenates_S4096x1024x1_S4096x1024x1_S4096x1024x2_d2 : Shape.Concatenates [S4096x1024x1, S4096x1024x1] S4096x1024x2 2
  shapeCasts_S4096x1024x2_S4096x2048 : S4096x1024x2.ShapeCasts S4096x2048
  dot_S4096x1024_S1024x4096_S4096x4096_1_0_0_1_n_n_wf : DotDims.WF S4096x1024 S1024x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Kernel.Flow.Start.lean ====
import proofs.«134883_j40123584479654_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atLaunch : Dev nD → Valuation τ sig (Elt F) := fun c b => m (c, b)

end Cert.Kernel.Linear

end
-- ==== Proof.Kernel.Layer0.Setting.lean ====
import proofs.«134883_j40123584479654_1_alg».proof.Proof.Gen.Kernel.Launch
import proofs.«134883_j40123584479654_1_alg».proof.Proof.Gen.Kernel.Skeleton
import proofs.«134883_j40123584479654_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem found0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)
theorem found0_1_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)
theorem found0_2_of {c : Dev nD} (dat : Dat τ (Elt F) Unit ℕ (UR sig nD τ) ℕ cfg0 c) (hA : dat.A 2 = V c (Pipeline.arrRef spec0 2))
    (hafter : ∀ t, dat.after 2 t = tile0 V c 2 t) (t : Fin cfg0.N) (d) : dat.before 2 t d = tile0 V c 2 t :=
  (dat.before_in_eq_fetched 2 rfl (fun _ => rfl) (fun _ _ _ => rfl) (fun t => by rw [hafter]; unfold Dat.blockOf tile0; rw [hA]; try rfl) t d).trans
    (by unfold Dat.fetched Dat.blockOf tile0; rw [hA]; try rfl)

abbrev opens0 (i : grid0.Coords) : Prop := (Scalar.cmpi .ne (Scalar.extui (Scalar.cmpi .eq (BitVec.ofNat 32 (i 2).val) 0#32)) 0#32) = 1#1
theorem opens0_all : ∀ t : Fin cfg0.N, opens0 (grid0.coords t) :=
  (by decide +kernel : ∀ t : Fin grid0.N, opens0 (grid0.coords t))

abbrev closes0 (i : grid0.Coords) : Prop := k0_cond2 i = 1#1
theorem closes0_all : ∀ t : Fin cfg0.N, closes0 (grid0.coords t) :=
  (by decide +kernel : ∀ t : Fin grid0.N, closes0 (grid0.coords t))

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel

theorem live0_3 : ∀ t : Fin cfg0.N, cfg0.idle 3 (grid0.coords t) = false := by decide +kernel

abbrev lhsM0 (t : Fin cfg0.N) : Memref sig .tc .vmem S1024x1024 .f32 := win0_0.stage (cfg0.slots t 0)
abbrev lhsW0 (t : Fin cfg0.N) : (lhsM0 t).IsWhole := hstage0_0 ((cfg0.slots t 0).cast nbuf0_0)
abbrev rhsM0 (t : Fin cfg0.N) : Memref sig .tc .vmem S1024x1024 .f32 := win0_1.stage (cfg0.slots t 1)
abbrev rhsW0 (t : Fin cfg0.N) : (rhsM0 t).IsWhole := hstage0_1 ((cfg0.slots t 1).cast nbuf0_1)
abbrev biasM0 (t : Fin cfg0.N) : Memref sig .tc .vmem S1x1024 .f32 := win0_2.stage (cfg0.slots t 2)
abbrev biasW0 (t : Fin cfg0.N) : (biasM0 t).IsWhole := hstage0_2 ((cfg0.slots t 2).cast nbuf0_2)
abbrev outM0 (t : Fin cfg0.N) : Memref sig .tc .vmem S1024x1024 .f32 := win0_3.stage (cfg0.slots t 3)
abbrev outW0 (t : Fin cfg0.N) : (outM0 t).IsWhole := hstage0_3 ((cfg0.slots t 3).cast nbuf0_3)

abbrev accM0 : Memref sig .tc .vmem S1024x1024 .f32 := Memref.whole cc0_scratch0

def beside0 (c : Dev nD) : sProp 𝕄 :=
  iprop(Pipeline.scopedRestBut (Ix := Unit) (Name := ℕ) (U := UR sig nD τ) (Lvl := ℕ) (Val := Elt F) spec0 c [cc0_scratch0] ∗ (∃ r, prngReg c r))

theorem scoped0_eq (c : Dev nD) :
    (Pipeline.scopedRest (Ix := Unit) (Name := ℕ) (U := UR sig nD τ) (Lvl := ℕ) (Val := Elt F) spec0 c : sProp 𝕄)
      = iprop((∃ d, owns (c : Thread nD τ) accM0 fullShare d)
          ∗ Pipeline.scopedRestBut (Ix := Unit) (Name := ℕ) (U := UR sig nD τ) (Lvl := ℕ) (Val := Elt F) spec0 c [cc0_scratch0]) := by
  rw [scopedRest0_split]; simp only [accM0, owns_whole]; try rfl

end Cert.Kernel.Linear

end
-- ==== Proof.Kernel.Layer0.Steps.lean ====
import proofs.«134883_j40123584479654_1_alg».proof.Proof.Kernel.Layer0.Setting

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem origin0 : (![0, 0] : Fin S1024x1024.rank → ℕ) = fun _ => 0 := by
  funext a; fin_cases a <;> rfl
theorem originRow0 : (![0, 0] : Fin S1x1024.rank → ℕ) = fun _ => 0 := by
  funext a; fin_cases a <;> rfl

set_option maxHeartbeats 4000000 in
theorem stepWhole0 (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : opens0 i) (hc1 : closes0 i) (x0 x1 : Vec F S1024x1024 .f32) (x2 : Vec F S1x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 x0 x1 (k0_pay1 (F := F))) x2)
            ∗ owns (c : Thread nD τ) arg7 fullShare (k0_pay2 x0 x1 (k0_pay1 (F := F)))) -∗ K ⟨⟩))
      ⊢ wp frame (wpE (defs₀ (F := F)) Variants.none c none) E (cc0__linear_kernel i arg3 harg3 arg4 harg4 arg5 harg5 arg6 harg6 arg7 harg7) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, ⟨%ds0, %fs0, -, HS0⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_cons_self, View.mem_set_unit_zero origin0 inb_S1024x1024_S1024x1024_0_0 y⟩),
      View.canon_cons_unit_zero (S := S1024x1024) origin0]
    rw [View.readCov_unit_zero (S := S1024x1024) _ origin0]
    rw [View.readCov_eq_canon_ld _ _ _ (fun y => ⟨_, List.mem_cons_self, View.mem_set_unit_zero origin0 inb_S1024x1024_S1024x1024_0_0 y⟩),
      View.canon_cons_unit_zero (S := S1024x1024) origin0]
    simp only [View.readAt_eq_ld, harg3.read_unread, harg4.read_unread, harg5.read_unread,
      View.ld_unit_zero (S := S1024x1024) origin0, View.ld_unit_zero (S := S1x1024) originRow0]
  iexists _; isplitr
  swap; · iexact HS0
  ipureintro
  sl_unfold_words
  rw [View.read_writes_eq_canon _ _ _ (fun y => ⟨_, List.mem_cons_self, View.mem_set_unit_zero origin0 inb_S1024x1024_S1024x1024_0_0 y⟩),
    View.canon_cons_unit_zero (S := S1024x1024) origin0]
  rw [View.readCov_unit_zero (S := S1024x1024) _ origin0]
  simp only [View.readAt_eq_ld, harg3.read_unread, harg4.read_unread, View.ld_unit_zero (S := S1024x1024) origin0]

end Cert.Kernel.Linear

end
-- ==== Proof.Kernel.Layer0.Accum.lean ====
import proofs.«134883_j40123584479654_1_alg».proof.Proof.Kernel.Layer0.Steps

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def sumAt0 (c : Dev nD) (t : Fin cfg0.N) : Vec F S1024x1024 .f32 :=
  k0_pay2 (tile0 V c 0 t) (tile0 V c 1 t) (k0_pay1 (F := F))

def outAt0 (c : Dev nD) (t : Fin cfg0.N) : Vec F S1024x1024 .f32 :=
  k0_pay3 (sumAt0 V c t) (tile0 V c 2 t)

def keeps0 (c : Dev nD) : sProp 𝕄 :=
  iprop((∃ d, owns (c : Thread nD τ) accM0 fullShare d) ∗ beside0 (F := F) c)

def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => outAt0 V c t
  Φ _ := keeps0 (F := F) c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tile0 V c 0 t := by dsimp only [dat0]
theorem after0_1 (c : Dev nD) (t : Fin cfg0.N) : (dat0 V c).after 1 t = tile0 V c 1 t := by dsimp only [dat0]
theorem after0_2 (c : Dev nD) (t : Fin cfg0.N) : (dat0 V c).after 2 t = tile0 V c 2 t := by dsimp only [dat0]
theorem after0_3 (c : Dev nD) (t : Fin cfg0.N) : (dat0 V c).after 3 t = outAt0 V c t := by dsimp only [dat0]

theorem found0_0 (c : Dev nD) (t : Fin cfg0.N) (d) : (dat0 V c).before 0 t d = tile0 V c 0 t :=
  found0_0_of V (dat0 V c) (A_eq0 V c 0) (after0_0 V c) t d
theorem found0_1 (c : Dev nD) (t : Fin cfg0.N) (d) : (dat0 V c).before 1 t d = tile0 V c 1 t :=
  found0_1_of V (dat0 V c) (A_eq0 V c 1) (after0_1 V c) t d
theorem found0_2 (c : Dev nD) (t : Fin cfg0.N) (d) : (dat0 V c).before 2 t d = tile0 V c 2 t :=
  found0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (lhsM0 t) fullShare ((dat0 V c).before 0 t d))
    ∗ (∃ d, owns (c : Thread nD τ) (rhsM0 t) fullShare ((dat0 V c).before 1 t d))
    ∗ (∃ d, owns (c : Thread nD τ) (biasM0 t) fullShare ((dat0 V c).before 2 t d))
    ∗ (∃ d, owns (c : Thread nD τ) (outM0 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1, found0_2]
  rw [show (dat0 V c).owesAt () t.succ = (dat0 V c).owesAt () t.castSucc from rfl]
  rw [show (dat0 V c).Φ t.succ = keeps0 (F := F) c from rfl, show (dat0 V c).Φ t.castSucc = keeps0 (F := F) c from rfl]
  rw [show (dat0 V c).leavesExact 0 t = owns (c : Thread nD τ) (lhsM0 t) fullShare ((dat0 V c).after 0 t) from by
    unfold Dat.leavesExact; rw [live0_0 t], after0_0]
  rw [show (dat0 V c).leavesExact 1 t = owns (c : Thread nD τ) (rhsM0 t) fullShare ((dat0 V c).after 1 t) from by
    unfold Dat.leavesExact; rw [live0_1 t], after0_1]
  rw [show (dat0 V c).leavesExact 2 t = owns (c : Thread nD τ) (biasM0 t) fullShare ((dat0 V c).after 2 t) from by
    unfold Dat.leavesExact; rw [live0_2 t], after0_2]
  rw [show (dat0 V c).leavesExact 3 t = owns (c : Thread nD τ) (outM0 t) fullShare ((dat0 V c).after 3 t) from by
    unfold Dat.leavesExact; rw [live0_3 t], after0_3]
  unfold outAt0 sumAt0 keeps0
  iintro ⟨⟨HS, HB⟩, Ho, ⟨%d0, H0⟩, ⟨%d1, H1⟩, ⟨%d2, H2⟩, ⟨%d3, H3⟩⟩
  iapply (stepWhole0 c (grid0.coords t) _ _ _ _ _ _ _ _ _ _ (opens0_all t) (closes0_all t) (tile0 V c 0 t) (tile0 V c 1 t) (tile0 V c 2 t) Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HB]
  · isplitl [HS]; · iexists _; iexact HS
    iexact HB
  isplitl [Ho]; · iexact Ho
  isplitl [H0]; · iexact H0
  isplitl [H1]; · iexact H1
  isplitl [H2]; · iexact H2
  iexact H3

theorem obligation0 (c : Dev nD) : BodyObligation (dat0 (F := F) V c) (defs₀ (F := F)) Variants.none () Set.univ := fun t => by
  rw [bigSep_W0, bigSep_W0]
  exact sound_body0 V c t

theorem enter0 (c : Dev nD) :
    iprop((∃ r, prngReg c r) ∗ Pipeline.scopedRest (Ix := Unit) (Name := ℕ) (U := UR sig nD τ) (Lvl := ℕ) (Val := Elt F) spec0 c)
      ⊢ (dat0 V c).Φ 0 := by
  rw [show (dat0 V c).Φ 0 = keeps0 (F := F) c from rfl, scoped0_eq]
  unfold keeps0 beside0
  iintro ⟨Hp, HS, HR⟩
  isplitl [HS]; · iexact HS
  isplitl [HR]; · iexact HR
  iexact Hp

theorem leave0 (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = keeps0 (F := F) c from rfl, scoped0_eq]
  unfold keeps0 beside0
  iintro ⟨HS, HR, Hp⟩
  isplitl [Hp]; · iexact Hp
  isplitl [HS]; · iexact HS
  iexact HR

end Cert.Kernel.Linear

end
-- ==== Proof.Region.lean ====
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Linear

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : ℕ} {τ : Topo} {sig : RefSig} {F : FTy → Type} [FloatOps F] {Λ₀ : Labels}

local notation "𝕄" => MT nD τ sig Unit (Elt F) ℕ (UR sig nD τ) ℕ

section Past

variable {cfg : Cfg sig Λ₀} {c : Dev nD} (dat : Dat τ (Elt F) Unit ℕ (UR sig nD τ) ℕ cfg c) (into : Valuation τ sig (Elt F))

/-- The buffers after a call entered at `into`: its arrays as the call leaves them, every other buffer as it was. -/
def past : Valuation τ sig (Elt F) := Pipeline.withArrays cfg.spec c into fun w => dat.arrAt w cfg.N

theorem past_arr (hinj : Function.Injective (Pipeline.arrRef cfg.spec)) (w : Fin cfg.W) :
    past dat into (Proc.devRef .tc (Pipeline.arrRef cfg.spec w)) = dat.arrAt w cfg.N := by
  unfold past; exact Pipeline.withArrays_arr cfg.spec hinj c _ _ w

theorem past_of_ne (b : Ref sig .tc) (hb : ∀ w, Pipeline.arrRef cfg.spec w ≠ b) :
    past dat into (Proc.devRef .tc b) = into (Proc.devRef .tc b) := by
  unfold past; exact Pipeline.withArrays_of_ne cfg.spec c _ _ b hb

/-- A call keeps every reference that is not an output array of its own. -/
theorem past_keeps (hinj : Function.Injective (Pipeline.arrRef cfg.spec))
    (hA : ∀ w, dat.A w = into (Proc.devRef .tc (Pipeline.arrRef cfg.spec w))) (r : Ref sig .tc)
    (h : ∀ w, Pipeline.arrRef cfg.spec w = r → (cfg.win w).isOut = false) :
    past dat into (Proc.devRef .tc r) = into (Proc.devRef .tc r) := by
  by_cases hw : ∃ w, Pipeline.arrRef cfg.spec w = r
  · obtain ⟨w, rfl⟩ := hw
    exact (past_arr dat into hinj w).trans ((dat.arrAt_in w (h w rfl) _).trans (hA w))
  · exact past_of_ne dat into r fun w e => hw ⟨w, e⟩

end Past

section Call

variable {P : Type} [Fintype P] [DecidableEq P] (pcs : P → Pipeline.PCfg sig Λ₀ (Elt F)) (a : (p : P) → (pcs p).Adm)
  (pdats : (p : P) → (c : Dev nD) → Dat τ (Elt F) Unit ℕ (UR sig nD τ) ℕ (Pipeline.pin pcs a p) c)
  (defs₀ : Defs nD τ sig (Elt F) Λ₀) (L : GSem nD τ sig → Finset Unit) (lv : GSem nD τ sig → Unit → ℕ)

abbrev along (c : Dev nD) : sProp 𝕄 :=
  iprop((∃ r, prngReg c r) ∗ ∃ W, owes (c : Thread nD τ) (0 : CellTallies nD τ sig Unit) W)

set_option backward.isDefEq.respectTransparency.types false in
/-- A call as a segment of the run, from the body's obligation at every point and the layer's entry and exit. -/
def callOf (p : P) (hw : Pipeline.WinFacts (Pipeline.pin pcs a p).spec)
    (hpos : ∀ w : Fin (Pipeline.pin pcs a p).W, 0 < ((Pipeline.pin pcs a p).spec w).block.numel)
    (harr : ∀ w, ((Pipeline.pin pcs a p).spec w).arr.IsWhole)
    (hstage : ∀ (w : Fin (Pipeline.pin pcs a p).W) (s : Fin ((Pipeline.pin pcs a p).spec w).nbuf), (((Pipeline.pin pcs a p).spec w).stage s).IsWhole)
    (into : Dev nD → Valuation τ sig (Elt F))
    (hbody : ∀ c, BodyObligation (pdats p c) defs₀ Variants.none () Set.univ)
    (howed : ∀ c t, (pdats p c).owed t = 0) (hrec : ∀ c, (pdats p c).recorded 0 = Set.univ) (hq : ∀ c w, (pdats p c).q w = fullShare)
    (hA : ∀ c w, (pdats p c).A w = into c (Proc.devRef .tc (Pipeline.arrRef (Pipeline.pin pcs a p).spec w)))
    (hnotab : ∀ c, (BI.emp : sProp 𝕄) ⊢ Pipeline.prefHeld (pcs p).pre c (fun _ => fullShare) (a p).1)
    (henter : ∀ c, iprop((∃ r, prngReg c r) ∗ Pipeline.scopedRest (Ix := Unit) (Name := ℕ) (U := UR sig nD τ) (Lvl := ℕ) (Val := Elt F) (Pipeline.pin pcs a p).spec c)
      ⊢ (pdats p c).Φ 0)
    (hleave : ∀ c, (pdats p c).Φ (Fin.last (Pipeline.pin pcs a p).N)
      ⊢ iprop((∃ r, prngReg c r) ∗ Pipeline.scopedRest (Ix := Unit) (Name := ℕ) (U := UR sig nD τ) (Lvl := ℕ) (Val := Elt F) (Pipeline.pin pcs a p).spec c)) :
    Pipeline.RegionSeg pcs a pdats () defs₀ Variants.none L lv p where
  win := hw.to₀
  block_pos := hpos
  stage_whole := hstage
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (into c) ∗ along c)
  post c := iprop(StableHlo.held (c : Thread nD τ) (Pipeline.ucRefs τ sig) (past (pdats p c) (into c)) ∗ along c)
  X c := iprop(∃ r, prngReg c r)
  Y c := iprop(∃ r, prngReg c r)
  Z c := Pipeline.unscopedRest (Ix := Unit) (Name := ℕ) (U := UR sig nD τ) (Lvl := ℕ) (Pipeline.pin pcs a p).spec c (fun b => into c b)
  hentry c := by
    rw [Pipeline.ownSems0_none]
    have hsplit := Pipeline.arrays_of_unscopedBufs (p := p) pcs a pdats hw harr c
      ((pdats p c).share_full (hq c)) (fun b => into c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (hnotab c); iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    iintro ⟨Hp, -, Hr⟩
    iapply (henter c)
    isplitl [Hp]; · iexact Hp
    iexact Hr
  hout c := by
    rw [Pipeline.ownSems0_none]
    iintro HΦ
    ihave H := (hleave c) $$ HΦ
    icases H with ⟨Hp, Hr⟩
    isplitl [Hp]; · iexact Hp
    isplitr; · iempintro
    iexact Hr
  hexit c := by
    have hjoin := Pipeline.unscopedBufs_of_arrays (p := p) pcs a (Ix := Unit) (Name := ℕ) (U := UR sig nD τ) (Lvl := ℕ)
      hw harr c pdats ((pdats p c).share_full (hq c))
      (fun b => into c b) (fun b => past (pdats p c) (into c) b) ((pdats p c).arrAt · (Pipeline.pin pcs a p).N)
      (fun w => (past_arr (pdats p c) (into c) hw.arr_inj w).symm)
      (fun b hb => past_of_ne (pdats p c) (into c) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Call

end Cert.Linear

end
-- ==== Proof.Kernel.Flow.Stage0.lean ====
import proofs.«134883_j40123584479654_1_alg».proof.Proof.Kernel.Flow.Start
import proofs.«134883_j40123584479654_1_alg».proof.Proof.Kernel.Layer0.Accum
import proofs.«134883_j40123584479654_1_alg».proof.Proof.Region

set_option maxRecDepth 16384

noncomputable section

namespace Cert.Kernel.Linear

open Cert.Kernel Cert.Kernel.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev into0 : Dev nD → Valuation τ sig (Elt F) := fun c => StableHlo.after hostOps0 (atLaunch m c)
abbrev entry0 : (c : Dev nD) → (b : Ref sig .tc) → Buf (Elt F) ((c : Thread nD τ).loc b) := fun c b => into0 m c b

def past0 (c : Dev nD) : Valuation τ sig (Elt F) := past (dat0 (entry0 m) c) (into0 m c)

theorem past0_arr (c : Dev nD) (w : Fin cfg0.W) :
    past0 m c (Proc.devRef .tc (Pipeline.arrRef spec0 w)) = (dat0 (entry0 m) c).arrAt w cfg0.N :=
  past_arr _ _ launch0.win.arr_inj w

theorem into0_keeps (c : Dev nD) (r : Ref sig .tc) (h : r ∉ hostOps0_W) : into0 m c r = atLaunch m c r :=
  StableHlo.after_of_writes_sub hostOps0 _ hostOps0_writes h

theorem past0_keeps (c : Dev nD) (r : Ref sig .tc) (h : ∀ w, Pipeline.arrRef spec0 w = r → (cfg0.win w).isOut = false) :
    past0 m c r = into0 m c r :=
  past_keeps _ _ launch0.win.arr_inj (A_eq0 (entry0 m) c) r h

end Cert.Kernel.Linear

end
-- ==== Proof.Kernel.Layer1.Setting.lean ====
import proofs.«134883_j40123584479654_1_alg».proof.Proof.Gen.Kernel.Launch
import proofs.«134883_j40123584479654_1_alg».proof.Proof.Gen.Kernel.Skeleton
import proofs.«134883_j40123584479654_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev opens1 (i : grid1.Coords) : Prop := (Scalar.cmpi .ne (Scalar.extui (Scalar.cmpi .eq (BitVec.ofNat 32 (i 2).val) 0#32)) 0#32) = 1#1
theorem opens1_iff : ∀ t : Fin cfg1.N, opens1 (grid1.coords t) ↔ t.val % 4 = 0 :=
  (by decide +kernel : ∀ t : Fin grid1.N, opens1 (grid1.coords t) ↔ t.val % 4 = 0)

abbrev closes1 (i : grid1.Coords) : Prop := k1_cond2 i = 1#1
theorem closes1_iff : ∀ t : Fin cfg1.N, closes1 (grid1.coords t) ↔ t.val % 4 = 3 :=
  (by decide +kernel : ∀ t : Fin grid1.N, closes1 (grid1.coords t) ↔ t.val % 4 = 3)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel

theorem rests1 : ∀ t : Fin cfg1.N, ¬closes1 (grid1.coords t) → cfg1.idle 3 (grid1.coords t) = true := by decide +kernel
theorem unflushed1 : ∀ t : Fin cfg1.N, ¬closes1 (grid1.coords t) → (cfg1.win 3).flush t = false := by decide +kernel

theorem live1_3 : ∀ t : Fin cfg1.N, closes1 (grid1.coords t) → cfg1.idle 3 (grid1.coords t) = false := by decide +kernel

abbrev lhsM1 (t : Fin cfg1.N) : Memref sig .tc .vmem S1024x1024 .f32 := win1_0.stage (cfg1.slots t 0)
abbrev lhsW1 (t : Fin cfg1.N) : (lhsM1 t).IsWhole := hstage1_0 ((cfg1.slots t 0).cast nbuf1_0)
abbrev rhsM1 (t : Fin cfg1.N) : Memref sig .tc .vmem S1024x1024 .f32 := win1_1.stage (cfg1.slots t 1)
abbrev rhsW1 (t : Fin cfg1.N) : (rhsM1 t).IsWhole := hstage1_1 ((cfg1.slots t 1).cast nbuf1_1)
abbrev biasM1 (t : Fin cfg1.N) : Memref sig .tc .vmem S1x1024 .f32 := win1_2.stage (cfg1.slots t 2)
abbrev biasW1 (t : Fin cfg1.N) : (biasM1 t).IsWhole := hstage1_2 ((cfg1.slots t 2).cast nbuf1_2)
abbrev outM1 (t : Fin cfg1.N) : Memref sig .tc .vmem S1024x1024 .f32 := win1_3.stage (cfg1.slots t 3)
abbrev outW1 (t : Fin cfg1.N) : (outM1 t).IsWhole := hstage1_3 ((cfg1.slots t 3).cast nbuf1_3)

abbrev accM1 : Memref sig .tc .vmem S1024x1024 .f32 := Memref.whole cc1_scratch0

def beside1 (c : Dev nD) : sProp 𝕄 :=
  iprop(Pipeline.scopedRestBut (Ix := Unit) (Name := ℕ) (U := UR sig nD τ) (Lvl := ℕ) (Val := Elt F) spec1 c [cc1_scratch0] ∗ (∃ r, prngReg c r))

theorem scoped1_eq (c : Dev nD) :
    (Pipeline.scopedRest (Ix := Unit) (Name := ℕ) (U := UR sig nD τ) (Lvl := ℕ) (Val := Elt F) spec1 c : sProp 𝕄)
      = iprop((∃ d, owns (c : Thread nD τ) accM1 fullShare d)
          ∗ Pipeline.scopedRestBut (Ix := Unit) (Name := ℕ) (U := UR sig nD τ) (Lvl := ℕ) (Val := Elt F) spec1 c [cc1_scratch0]) := by
  rw [scopedRest1_split]; simp only [accM1, owns_whole]; try rfl

end Cert.Kernel.Linear

end
-- ==== Proof.Kernel.Layer1.Steps.lean ====
import proofs.«134883_j40123584479654_1_alg».proof.Proof.Kernel.Layer1.Setting

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem origin1 : (![0, 0] : Fin S1024x1024.rank → ℕ) = fun _ => 0 := by
  funext a; fin_cases a <;> rfl
theorem originRow1 : (![0, 0] : Fin S1x1024.rank → ℕ) = fun _ => 0 := by
  funext a; fin_cases a <;> rfl

variable (c : Dev nD) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)

set_option maxHeartbeats 4000000 in
theorem stepOpen1 (hc0 : opens1 i) (hc1 : ¬closes1 i) (x0 x1 : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1
            ∗ owns (c : Thread nD τ) arg7 fullShare (k1_pay2 x0 x1 (k1_pay1 (F := F)))) -∗ K ⟨⟩))
      ⊢ wp frame (wpE (defs₀ (F := F)) Variants.none c none) E (cc1__linear_kernel i arg3 harg3 arg4 harg4 arg5 harg5 arg6 harg6 arg7 harg7) K := by
  simp only [cc1__linear_kernel_eq_skeleton]; unfold cc1__linear_kernel_skel
  unfold owns
  iintro ⟨⟨%f0, %hf0, H0⟩, ⟨%f1, %hf1, H1⟩, ⟨%ds0, %fs0, -, HS0⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_cons_self, View.mem_set_unit_zero origin1 inb_S1024x1024_S1024x1024_0_0 y⟩),
    View.canon_cons_unit_zero (S := S1024x1024) origin1]
  rw [View.readCov_unit_zero (S := S1024x1024) _ origin1]
  simp only [View.readAt_eq_ld, harg3.read_unread, harg4.read_unread, View.ld_unit_zero (S := S1024x1024) origin1]

set_option maxHeartbeats 4000000 in
theorem stepOn1 (hc0 : ¬opens1 i) (hc1 : ¬closes1 i) (x0 x1 a : Vec F S1024x1024 .f32) (E : Set ℕ) (K : PUnit → sProp 𝕄) :
    iprop(owns (c : Thread nD τ) arg3 fullShare x0 ∗ owns (c : Thread nD τ) arg4 fullShare x1 ∗ owns (c : Thread nD τ) arg7 fullShare a
        ∗ (iprop(owns (c : Thread nD τ) arg3 fullShare x0 ∗ owns (c : Thread nD τ) arg4 fullShare x1
            ∗ owns (c : Thread nD τ) arg7 fullShare (k1_pay2 x0 x1 a)) -∗ K ⟨⟩))
      ⊢ wp frame (wpE (defs₀ (F := F)) Variants.none c none) E (cc1__linear_kernel i arg3 harg3 arg4 harg4 arg5 harg5 arg6 harg6 arg7 harg7) K := by
  simp only [cc1__linear_kernel_eq_skeleton]; unfold cc1__linear_kernel_skel
  unfold owns
  iintro ⟨⟨%f0, %hf0, H0⟩, ⟨%f1, %hf1, H1⟩, ⟨%fs0, %hfs0, HS0⟩, Hk⟩
  obtain rfl := harg3.eq_unread hf0; obtain rfl := harg4.eq_unread hf1; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_cons_self, View.mem_set_unit_zero origin1 inb_S1024x1024_S1024x1024_0_0 y⟩),
    View.canon_cons_unit_zero (S := S1024x1024) origin1]
  simp only [View.readAt_eq_ld, harg3.read_unread, harg4.read_unread, harg7.read_unread, View.ld_unit_zero (S := S1024x1024) origin1]

set_option maxHeartbeats 4000000 in
theorem stepClose1 (hc0 : ¬opens1 i) (hc1 : closes1 i) (x0 x1 a : Vec F S1024x1024 .f32) (x2 : Vec F S1x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare a
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 a) x2)
            ∗ owns (c : Thread nD τ) arg7 fullShare (k1_pay2 x0 x1 a)) -∗ K ⟨⟩))
      ⊢ wp frame (wpE (defs₀ (F := F)) Variants.none c none) E (cc1__linear_kernel i arg3 harg3 arg4 harg4 arg5 harg5 arg6 harg6 arg7 harg7) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg3.eq_unread hf0; obtain rfl := harg4.eq_unread hf1; obtain rfl := harg5.eq_unread hf2; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_cons_self, View.mem_set_unit_zero origin1 inb_S1024x1024_S1024x1024_0_0 y⟩),
      View.canon_cons_unit_zero (S := S1024x1024) origin1]
    rw [View.readCov_unit_zero (S := S1024x1024) _ origin1]
    simp only [View.readAt_eq_ld, harg3.read_unread, harg4.read_unread, harg5.read_unread, harg7.read_unread,
      View.ld_unit_zero (S := S1024x1024) origin1, View.ld_unit_zero (S := S1x1024) originRow1]
  iexists _; isplitr
  swap; · iexact HS0
  ipureintro
  sl_unfold_words
  rw [View.read_writes_eq_canon _ _ _ (fun y => ⟨_, List.mem_cons_self, View.mem_set_unit_zero origin1 inb_S1024x1024_S1024x1024_0_0 y⟩),
    View.canon_cons_unit_zero (S := S1024x1024) origin1]
  simp only [View.readAt_eq_ld, harg3.read_unread, harg4.read_unread, harg7.read_unread, View.ld_unit_zero (S := S1024x1024) origin1]

end Cert.Kernel.Linear

end
-- ==== Proof.Accumulate.lean ====
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Linear

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : ℕ} {τ : Topo} {sig : RefSig} {F : FTy → Type} [FloatOps F] {Λ₀ : Labels}

local notation "𝕄" => MT nD τ sig Unit (Elt F) ℕ (UR sig nD τ) ℕ

section Sum

variable {α : Type} {N : ℕ} (x y : Fin N → α) (zero : α) (step : α → α → α → α)

/-- The running sum after position `n`: it starts afresh at every fourth position. -/
def sumAt : (n : ℕ) → n < N → α
  | 0, hn => step (x ⟨0, hn⟩) (y ⟨0, hn⟩) zero
  | n + 1, hn =>
    if (n + 1) % 4 = 0 then step (x ⟨n + 1, hn⟩) (y ⟨n + 1, hn⟩) zero
    else step (x ⟨n + 1, hn⟩) (y ⟨n + 1, hn⟩) (sumAt n (Nat.lt_of_succ_lt hn))

theorem sumAt_open (t : Fin N) (h0 : t.val % 4 = 0) :
    sumAt x y zero step t.val t.isLt = step (x t) (y t) zero := by
  obtain ⟨n, hn⟩ := t
  cases n with
  | zero => rfl
  | succ n => exact if_pos h0

theorem sumAt_on (t : Fin N) (h0 : ¬t.val % 4 = 0) :
    sumAt x y zero step t.val t.isLt
      = step (x t) (y t) (sumAt x y zero step (t.val - 1) (Nat.lt_of_le_of_lt (Nat.sub_le _ _) t.isLt)) := by
  obtain ⟨n, hn⟩ := t
  cases n with
  | zero => exact absurd (Nat.zero_mod _) h0
  | succ n => exact if_neg h0

/-- At one entry: if every step of a group of four adds its own term to what it is given, and the cleared tile is
    zero there, then the running sum is the sum of the group's terms met so far. -/
theorem sumAt_groups {ι M : Type} [AddCommMonoid M] (x y : Fin N → ι → M) (zero : ι → M)
    (step : (ι → M) → (ι → M) → (ι → M) → ι → M) (i : ι) (g : ℕ → M) (hzero : zero i = 0) (n : ℕ) :
    ∀ (hn : n < N), (∀ (k : ℕ) (hk : k < N), k / 4 = n / 4 → ∀ a, step (x ⟨k, hk⟩) (y ⟨k, hk⟩) a i = a i + g (k % 4)) →
      sumAt x y zero step n hn i = ∑ k ∈ Finset.range (n % 4 + 1), g k := by
  induction n using Nat.strong_induction_on with
  | _ n ih =>
    intro hn hstep
    by_cases h0 : n % 4 = 0
    · rw [congrFun (sumAt_open x y zero step ⟨n, hn⟩ h0) i, hstep n hn rfl, hzero, zero_add, h0, Finset.sum_range_one]
    · have e : (n - 1) % 4 + 1 = n % 4 := by omega
      have hih := ih (n - 1) (by omega) (Nat.lt_of_le_of_lt (Nat.sub_le _ _) hn)
        (fun k hk hg a => hstep k hk (by omega) a)
      rw [e] at hih
      rw [congrFun (sumAt_on x y zero step ⟨n, hn⟩ h0) i, hstep n hn rfl, Finset.sum_range_succ]
      exact congrArg (· + g (n % 4)) hih

end Sum

section Keeps

variable {S : Shape} {N : ℕ} (c : Dev nD) (acc : Memref sig .tc .vmem S .f32) (s : (n : ℕ) → n < N → Vec F S .f32)

/-- Before position `n` the scratch holds what the position before left (anything before the first). -/
def keeps (rest : sProp 𝕄) : (n : ℕ) → n ≤ N → sProp 𝕄
  | 0, _ => iprop((∃ d, owns (c : Thread nD τ) acc fullShare d) ∗ rest)
  | n + 1, hn => iprop(owns (c : Thread nD τ) acc fullShare (s n hn) ∗ rest)

theorem keeps_pos (rest : sProp 𝕄) (n : ℕ) (h : n ≤ N) (hz : n ≠ 0) :
    keeps c acc s rest n h = iprop(owns (c : Thread nD τ) acc fullShare (s (n - 1) (by omega)) ∗ rest) := by
  cases n with
  | zero => exact absurd rfl hz
  | succ n => rfl

theorem keeps_any (rest : sProp 𝕄) (n : ℕ) (h : n ≤ N) :
    keeps c acc s rest n h ⊢ iprop((∃ d, owns (c : Thread nD τ) acc fullShare d) ∗ rest) := by
  cases n with
  | zero => exact BI.Entails.refl _
  | succ n =>
    show iprop(owns (c : Thread nD τ) acc fullShare (s n h) ∗ rest) ⊢ _
    iintro ⟨HS, HB⟩
    isplitl [HS]; · iexists _; iexact HS
    iexact HB

end Keeps

section Point

variable {S R : Shape} {N : ℕ} (defs₀ : Defs nD τ sig (Elt F) Λ₀) (c : Dev nD)
  (prog : Prog (TpuEff nD τ sig (Elt F) Λ₀ .tc) PUnit)
  (lhsM rhsM outM accM : Memref sig .tc .vmem S .f32) (biasM : Memref sig .tc .vmem R .f32)
  (x y : Fin N → Vec F S .f32) (b : Vec F R .f32) (zero : Vec F S .f32)
  (step : Vec F S .f32 → Vec F S .f32 → Vec F S .f32 → Vec F S .f32)
  (finish : Vec F S .f32 → Vec F R .f32 → Vec F S .f32) (t : Fin N)

/-- One point of the grid: by its position in its group of four the body opens the sum, adds to it, or adds and
    stores the finished tile. -/
theorem sound_point {D0 D1 D2 D3 : Type} (B3 : D3 → Vec F S .f32) (rest Ho Q3 : sProp 𝕄)
    (hrest : ¬t.val % 4 = 3 → Q3 = iprop(∃ d, owns (c : Thread nD τ) outM fullShare (B3 d)))
    (hstore : t.val % 4 = 3 → Q3 = owns (c : Thread nD τ) outM fullShare (finish (sumAt x y zero step t.val t.isLt) b))
    (hopen : t.val % 4 = 0 → ∀ K : PUnit → sProp 𝕄,
      iprop(owns (c : Thread nD τ) lhsM fullShare (x t) ∗ owns (c : Thread nD τ) rhsM fullShare (y t)
          ∗ (∃ d, owns (c : Thread nD τ) accM fullShare d)
          ∗ (iprop(owns (c : Thread nD τ) lhsM fullShare (x t) ∗ owns (c : Thread nD τ) rhsM fullShare (y t)
              ∗ owns (c : Thread nD τ) accM fullShare (step (x t) (y t) zero)) -∗ K ⟨⟩))
        ⊢ wp frame (wpE defs₀ Variants.none c none) Set.univ prog K)
    (hon : ¬t.val % 4 = 0 → ¬t.val % 4 = 3 → ∀ (a : Vec F S .f32) (K : PUnit → sProp 𝕄),
      iprop(owns (c : Thread nD τ) lhsM fullShare (x t) ∗ owns (c : Thread nD τ) rhsM fullShare (y t)
          ∗ owns (c : Thread nD τ) accM fullShare a
          ∗ (iprop(owns (c : Thread nD τ) lhsM fullShare (x t) ∗ owns (c : Thread nD τ) rhsM fullShare (y t)
              ∗ owns (c : Thread nD τ) accM fullShare (step (x t) (y t) a)) -∗ K ⟨⟩))
        ⊢ wp frame (wpE defs₀ Variants.none c none) Set.univ prog K)
    (hclose : ¬t.val % 4 = 0 → t.val % 4 = 3 → ∀ (a : Vec F S .f32) (K : PUnit → sProp 𝕄),
      iprop(owns (c : Thread nD τ) lhsM fullShare (x t) ∗ owns (c : Thread nD τ) rhsM fullShare (y t)
          ∗ owns (c : Thread nD τ) biasM fullShare b ∗ (∃ d, owns (c : Thread nD τ) outM fullShare d)
          ∗ owns (c : Thread nD τ) accM fullShare a
          ∗ (iprop(owns (c : Thread nD τ) lhsM fullShare (x t) ∗ owns (c : Thread nD τ) rhsM fullShare (y t)
              ∗ owns (c : Thread nD τ) biasM fullShare b
              ∗ owns (c : Thread nD τ) outM fullShare (finish (step (x t) (y t) a) b)
              ∗ owns (c : Thread nD τ) accM fullShare (step (x t) (y t) a)) -∗ K ⟨⟩))
        ⊢ wp frame (wpE defs₀ Variants.none c none) Set.univ prog K) :
    iprop(keeps c accM (sumAt x y zero step) rest t.val (Nat.le_of_lt t.isLt) ∗ Ho
        ∗ (∃ _ : D0, owns (c : Thread nD τ) lhsM fullShare (x t)) ∗ (∃ _ : D1, owns (c : Thread nD τ) rhsM fullShare (y t))
        ∗ (∃ _ : D2, owns (c : Thread nD τ) biasM fullShare b) ∗ (∃ d : D3, owns (c : Thread nD τ) outM fullShare (B3 d)))
      ⊢ wp frame (wpE defs₀ Variants.none c none) Set.univ prog fun _ =>
          iprop(iprop(owns (c : Thread nD τ) accM fullShare (sumAt x y zero step t.val t.isLt) ∗ rest) ∗ Ho
            ∗ owns (c : Thread nD τ) lhsM fullShare (x t) ∗ owns (c : Thread nD τ) rhsM fullShare (y t)
            ∗ owns (c : Thread nD τ) biasM fullShare b ∗ Q3) := by
  by_cases h0 : t.val % 4 = 0
  · have h1 : ¬t.val % 4 = 3 := by omega
    rw [hrest h1, sumAt_open x y zero step t h0]
    iintro ⟨HΦ, Ho, ⟨%d0, H0⟩, ⟨%d1, H1⟩, ⟨%d2, H2⟩, ⟨%d3, H3⟩⟩
    ihave HΦ' := (keeps_any c accM (sumAt x y zero step) rest t.val (Nat.le_of_lt t.isLt)) $$ HΦ
    icases HΦ' with ⟨HS, HB⟩
    iapply (hopen h0 _)
    isplitl [H0]; · iexact H0
    isplitl [H1]; · iexact H1
    isplitl [HS]; · iexact HS
    iintro ⟨H0, H1, HS⟩
    isplitl [HS HB]
    · isplitl [HS]; · iexact HS
      iexact HB
    isplitl [Ho]; · iexact Ho
    isplitl [H0]; · iexact H0
    isplitl [H1]; · iexact H1
    isplitl [H2]; · iexact H2
    iexists _; iexact H3
  · have hz : t.val ≠ 0 := fun e => h0 (by rw [e])
    rw [keeps_pos c accM (sumAt x y zero step) rest _ _ hz, sumAt_on x y zero step t h0]
    by_cases h1 : t.val % 4 = 3
    · rw [hstore h1, sumAt_on x y zero step t h0]
      iintro ⟨⟨HS, HB⟩, Ho, ⟨%d0, H0⟩, ⟨%d1, H1⟩, ⟨%d2, H2⟩, ⟨%d3, H3⟩⟩
      iapply (hclose h0 h1 _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HB]
      · isplitl [HS]; · iexact HS
        iexact HB
      isplitl [Ho]; · iexact Ho
      isplitl [H0]; · iexact H0
      isplitl [H1]; · iexact H1
      isplitl [H2]; · iexact H2
      iexact H3
    · rw [hrest h1]
      iintro ⟨⟨HS, HB⟩, Ho, ⟨%d0, H0⟩, ⟨%d1, H1⟩, ⟨%d2, H2⟩, ⟨%d3, H3⟩⟩
      iapply (hon h0 h1 _ _)
      isplitl [H0]; · iexact H0
      isplitl [H1]; · iexact H1
      isplitl [HS]; · iexact HS
      iintro ⟨H0, H1, HS⟩
      isplitl [HS HB]
      · isplitl [HS]; · iexact HS
        iexact HB
      isplitl [Ho]; · iexact Ho
      isplitl [H0]; · iexact H0
      isplitl [H1]; · iexact H1
      isplitl [H2]; · iexact H2
      iexists _; iexact H3

end Point

section Body

variable {cfg : Cfg sig Λ₀} {c : Dev nD} (dat : Dat τ (Elt F) Unit ℕ (UR sig nD τ) ℕ cfg c) (t : Fin cfg.N)

theorem leavesExact_live (w : Fin cfg.W) (h : cfg.idle w (cfg.grid.coords t) = false) :
    dat.leavesExact w t = owns (c : Thread nD τ) ((cfg.win w).stage (cfg.slots t w)) fullShare (dat.after w t) := by
  unfold Dat.leavesExact; rw [h]

/-- The body's precondition and postcondition at a point, for a call of four windows. -/
def bodyPre (w0 w1 w2 w3 : Fin cfg.W) : sProp 𝕄 :=
  iprop(dat.Φ t.castSucc ∗ dat.owesAt () t.castSucc
    ∗ (∃ d, owns (c : Thread nD τ) ((cfg.win w0).stage (cfg.slots t w0)) fullShare (dat.before w0 t d))
    ∗ (∃ d, owns (c : Thread nD τ) ((cfg.win w1).stage (cfg.slots t w1)) fullShare (dat.before w1 t d))
    ∗ (∃ d, owns (c : Thread nD τ) ((cfg.win w2).stage (cfg.slots t w2)) fullShare (dat.before w2 t d))
    ∗ (∃ d, owns (c : Thread nD τ) ((cfg.win w3).stage (cfg.slots t w3)) fullShare (dat.before w3 t d)))

def bodyPost (w0 w1 w2 w3 : Fin cfg.W) : sProp 𝕄 :=
  iprop(dat.Φ t.succ ∗ dat.owesAt () t.succ
    ∗ dat.leavesExact w0 t ∗ dat.leavesExact w1 t ∗ dat.leavesExact w2 t ∗ dat.leavesExact w3 t)

end Body

section Ends

variable {S : Shape} {N : ℕ} (c : Dev nD) (acc : Memref sig .tc .vmem S .f32) (s : (n : ℕ) → n < N → Vec F S .f32)

theorem enter_of (others reg : sProp 𝕄) :
    iprop(reg ∗ (∃ d, owns (c : Thread nD τ) acc fullShare d) ∗ others) ⊢ keeps c acc s iprop(others ∗ reg) 0 (Nat.zero_le _) := by
  show _ ⊢ iprop((∃ d, owns (c : Thread nD τ) acc fullShare d) ∗ others ∗ reg)
  iintro ⟨Hp, HS, HR⟩
  isplitl [HS]; · iexact HS
  isplitl [HR]; · iexact HR
  iexact Hp

theorem leave_of (others reg : sProp 𝕄) (n : ℕ) (h : n ≤ N) :
    keeps c acc s iprop(others ∗ reg) n h ⊢ iprop(reg ∗ (∃ d, owns (c : Thread nD τ) acc fullShare d) ∗ others) := by
  refine (keeps_any c acc s _ n h).trans ?_
  iintro ⟨HS, HR, Hp⟩
  isplitl [Hp]; · iexact Hp
  isplitl [HS]; · iexact HS
  iexact HR

end Ends

end Cert.Linear

end
-- ==== Proof.Kernel.Layer1.Accum.lean ====
import proofs.«134883_j40123584479654_1_alg».proof.Proof.Kernel.Layer1.Setting
import proofs.«134883_j40123584479654_1_alg».proof.Proof.Kernel.Layer1.Steps
import proofs.«134883_j40123584479654_1_alg».proof.Proof.Accumulate

set_option maxRecDepth 16384

noncomputable section

namespace Cert.Kernel.Linear

open Cert.Kernel Cert.Kernel.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev sumAt1 (c : Dev nD) : (n : ℕ) → n < cfg1.N → Vec F S1024x1024 .f32 :=
  sumAt (α := Vec F S1024x1024 .f32) (N := cfg1.N) (fun t => tile1 V c 0 t) (fun t => tile1 V c 1 t) (k1_pay1 (F := F)) k1_pay2

def outAt1 (c : Dev nD) (t : Fin cfg1.N) : Vec F S1024x1024 .f32 :=
  k1_pay3 (sumAt1 V c t.val t.isLt) (tile1 V c 2 t)

abbrev keeps1 (c : Dev nD) : (n : ℕ) → n ≤ cfg1.N → sProp 𝕄 :=
  keeps c accM1 (sumAt1 V c) (beside1 (F := F) c)

def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => outAt1 V c t
  Φ t := keeps1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem keeps1_castSucc (c : Dev nD) (t : Fin cfg1.N) :
    (dat1 V c).Φ t.castSucc = keeps1 V c t.val (Nat.le_of_lt t.isLt) := by
  dsimp only [dat1]; simp only [Fin.coe_castSucc]

theorem after1_0 (c : Dev nD) (t : Fin cfg1.N) : (dat1 V c).after 0 t = tile1 V c 0 t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = tile1 V c 2 t := by dsimp only [dat1]
theorem after1_3 (c : Dev nD) (t : Fin cfg1.N) : (dat1 V c).after 3 t = outAt1 V c t := by dsimp only [dat1]

theorem found1_0 (c : Dev nD) (t : Fin cfg1.N) (d) : (dat1 V c).before 0 t d = tile1 V c 0 t :=
  ((dat1 V c).before_in_eq_fetched 0 rfl (fun _ => rfl) (fun _ _ _ => rfl)
    (fun t => by rw [after1_0]; unfold Dat.blockOf tile1; rw [A_eq1]; try rfl) t d).trans
    (by unfold Dat.fetched Dat.blockOf tile1; rw [A_eq1]; try rfl)
theorem found1_1 (c : Dev nD) (t : Fin cfg1.N) (d) : (dat1 V c).before 1 t d = tile1 V c 1 t :=
  ((dat1 V c).before_in_eq_fetched 1 rfl (fun _ => rfl) (fun _ _ _ => rfl)
    (fun t => by rw [after1_1]; unfold Dat.blockOf tile1; rw [A_eq1]; try rfl) t d).trans
    (by unfold Dat.fetched Dat.blockOf tile1; rw [A_eq1]; try rfl)
theorem found1_2 (c : Dev nD) (t : Fin cfg1.N) (d) : (dat1 V c).before 2 t d = tile1 V c 2 t :=
  ((dat1 V c).before_in_eq_fetched 2 rfl (fun _ => rfl) (fun _ _ _ => rfl)
    (fun t => by rw [after1_2]; unfold Dat.blockOf tile1; rw [A_eq1]; try rfl) t d).trans
    (by unfold Dat.fetched Dat.blockOf tile1; rw [A_eq1]; try rfl)

theorem sound_body1 (c : Dev nD) (t : Fin cfg1.N) :
    bodyPre (dat1 V c) t 0 1 2 3
      ⊢ wp frame (wpE (defs₀ (F := F)) Variants.none c none) Set.univ (bodyAt1 t) (fun _ => bodyPost (dat1 V c) t 0 1 2 3) := by
  unfold bodyPre bodyPost bodyAt1
  simp only [found1_0, found1_1, found1_2]
  rw [show (dat1 V c).owesAt () t.succ = (dat1 V c).owesAt () t.castSucc from rfl,
    show (dat1 V c).Φ t.succ = iprop(owns (c : Thread nD τ) accM1 fullShare (sumAt1 V c t.val t.isLt) ∗ beside1 (F := F) c) from rfl,
    leavesExact_live _ t 0 (live1_0 t), leavesExact_live _ t 1 (live1_1 t), leavesExact_live _ t 2 (live1_2 t),
    after1_0, after1_1, after1_2, keeps1_castSucc V c t]
  have hnc : ¬t.val % 4 = 3 → ¬closes1 (grid1.coords t) := fun h1 h => h1 ((closes1_iff t).mp h)
  have hno : ¬t.val % 4 = 0 → ¬opens1 (grid1.coords t) := fun h0 h => h0 ((opens1_iff t).mp h)
  exact sound_point (defs₀ (F := F)) c _ (lhsM1 t) (rhsM1 t) (outM1 t) accM1 (biasM1 t)
    (fun t => tile1 V c 0 t) (fun t => tile1 V c 1 t) (tile1 V c 2 t) (k1_pay1 (F := F)) k1_pay2 k1_pay3 t
    (fun d => (dat1 V c).before 3 t d) (beside1 (F := F) c) ((dat1 V c).owesAt () t.castSucc) ((dat1 V c).leavesExact 3 t)
    (fun h1 => Dat.leavesExact_idle (dat1 V c) 3 t (rests1 t (hnc h1)) (unflushed1 t (hnc h1)))
    (fun h1 => (leavesExact_live _ t 3 (live1_3 t ((closes1_iff t).mpr h1))).trans (by rw [after1_3]; rfl))
    (fun h0 K => stepOpen1 c (grid1.coords t) (lhsM1 t) (lhsW1 t) (rhsM1 t) (rhsW1 t) (biasM1 t) (biasW1 t) (outM1 t) (outW1 t) accM1 (Memref.isWhole_whole _) ((opens1_iff t).mpr h0) (hnc (by omega)) _ _ Set.univ K)
    (fun h0 h1 a K => stepOn1 c (grid1.coords t) (lhsM1 t) (lhsW1 t) (rhsM1 t) (rhsW1 t) (biasM1 t) (biasW1 t) (outM1 t) (outW1 t) accM1 (Memref.isWhole_whole _) (hno h0) (hnc h1) _ _ a Set.univ K)
    (fun h0 h1 a K => stepClose1 c (grid1.coords t) (lhsM1 t) (lhsW1 t) (rhsM1 t) (rhsW1 t) (biasM1 t) (biasW1 t) (outM1 t) (outW1 t) accM1 (Memref.isWhole_whole _) (hno h0) ((closes1_iff t).mpr h1) _ _ a _ Set.univ K)

theorem obligation1 (c : Dev nD) : BodyObligation (dat1 (F := F) V c) (defs₀ (F := F)) Variants.none () Set.univ := fun t => by
  rw [bigSep_W1, bigSep_W1]
  exact sound_body1 V c t

theorem enter1 (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [scoped1_eq]
  exact enter_of c accM1 (sumAt1 V c) _ _

theorem leave1 (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [scoped1_eq]
  exact leave_of c accM1 (sumAt1 V c) _ _ cfg1.N (Nat.le_refl _)

end Cert.Kernel.Linear

end
-- ==== Proof.Kernel.Flow.Stage1.lean ====
import proofs.«134883_j40123584479654_1_alg».proof.Proof.Kernel.Flow.Stage0
import proofs.«134883_j40123584479654_1_alg».proof.Proof.Kernel.Layer1.Accum
import proofs.«134883_j40123584479654_1_alg».proof.Proof.Region

set_option maxRecDepth 16384

noncomputable section

namespace Cert.Kernel.Linear

open Cert.Kernel Cert.Kernel.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev into1 : Dev nD → Valuation τ sig (Elt F) := fun c => StableHlo.after hostOps1 (past0 m c)
abbrev entry1 : (c : Dev nD) → (b : Ref sig .tc) → Buf (Elt F) ((c : Thread nD τ).loc b) := fun c b => into1 m c b

def past1 (c : Dev nD) : Valuation τ sig (Elt F) := past (dat1 (entry1 m) c) (into1 m c)

theorem past1_arr (c : Dev nD) (w : Fin cfg1.W) :
    past1 m c (Proc.devRef .tc (Pipeline.arrRef spec1 w)) = (dat1 (entry1 m) c).arrAt w cfg1.N :=
  past_arr _ _ launch1.win.arr_inj w

theorem into1_keeps (c : Dev nD) (r : Ref sig .tc) (h : r ∉ hostOps1_W) : into1 m c r = past0 m c r :=
  StableHlo.after_of_writes_sub hostOps1 _ hostOps1_writes h

theorem past1_keeps (c : Dev nD) (r : Ref sig .tc) (h : ∀ w, Pipeline.arrRef spec1 w = r → (cfg1.win w).isOut = false) :
    past1 m c r = into1 m c r :=
  past_keeps _ _ launch1.win.arr_inj (A_eq1 (entry1 m) c) r h

end Cert.Kernel.Linear

end
-- ==== Proof.Kernel.Layer2.Setting.lean ====
import proofs.«134883_j40123584479654_1_alg».proof.Proof.Gen.Kernel.Launch
import proofs.«134883_j40123584479654_1_alg».proof.Proof.Gen.Kernel.Skeleton
import proofs.«134883_j40123584479654_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev opens2 (i : grid2.Coords) : Prop := (Scalar.cmpi .ne (Scalar.extui (Scalar.cmpi .eq (BitVec.ofNat 32 (i 2).val) 0#32)) 0#32) = 1#1
theorem opens2_iff : ∀ t : Fin cfg2.N, opens2 (grid2.coords t) ↔ t.val % 4 = 0 :=
  (by decide +kernel : ∀ t : Fin grid2.N, opens2 (grid2.coords t) ↔ t.val % 4 = 0)

abbrev closes2 (i : grid2.Coords) : Prop := k2_cond2 i = 1#1
theorem closes2_iff : ∀ t : Fin cfg2.N, closes2 (grid2.coords t) ↔ t.val % 4 = 3 :=
  (by decide +kernel : ∀ t : Fin grid2.N, closes2 (grid2.coords t) ↔ t.val % 4 = 3)

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel

theorem rests2 : ∀ t : Fin cfg2.N, ¬closes2 (grid2.coords t) → cfg2.idle 3 (grid2.coords t) = true := by decide +kernel
theorem unflushed2 : ∀ t : Fin cfg2.N, ¬closes2 (grid2.coords t) → (cfg2.win 3).flush t = false := by decide +kernel

theorem live2_3 : ∀ t : Fin cfg2.N, closes2 (grid2.coords t) → cfg2.idle 3 (grid2.coords t) = false := by decide +kernel

abbrev lhsM2 (t : Fin cfg2.N) : Memref sig .tc .vmem S1024x1024 .f32 := win2_0.stage (cfg2.slots t 0)
abbrev lhsW2 (t : Fin cfg2.N) : (lhsM2 t).IsWhole := hstage2_0 ((cfg2.slots t 0).cast nbuf2_0)
abbrev rhsM2 (t : Fin cfg2.N) : Memref sig .tc .vmem S1024x1024 .f32 := win2_1.stage (cfg2.slots t 1)
abbrev rhsW2 (t : Fin cfg2.N) : (rhsM2 t).IsWhole := hstage2_1 ((cfg2.slots t 1).cast nbuf2_1)
abbrev biasM2 (t : Fin cfg2.N) : Memref sig .tc .vmem S1x1024 .f32 := win2_2.stage (cfg2.slots t 2)
abbrev biasW2 (t : Fin cfg2.N) : (biasM2 t).IsWhole := hstage2_2 ((cfg2.slots t 2).cast nbuf2_2)
abbrev outM2 (t : Fin cfg2.N) : Memref sig .tc .vmem S1024x1024 .f32 := win2_3.stage (cfg2.slots t 3)
abbrev outW2 (t : Fin cfg2.N) : (outM2 t).IsWhole := hstage2_3 ((cfg2.slots t 3).cast nbuf2_3)

abbrev accM2 : Memref sig .tc .vmem S1024x1024 .f32 := Memref.whole cc2_scratch0

def beside2 (c : Dev nD) : sProp 𝕄 :=
  iprop(Pipeline.scopedRestBut (Ix := Unit) (Name := ℕ) (U := UR sig nD τ) (Lvl := ℕ) (Val := Elt F) spec2 c [cc2_scratch0] ∗ (∃ r, prngReg c r))

theorem scoped2_eq (c : Dev nD) :
    (Pipeline.scopedRest (Ix := Unit) (Name := ℕ) (U := UR sig nD τ) (Lvl := ℕ) (Val := Elt F) spec2 c : sProp 𝕄)
      = iprop((∃ d, owns (c : Thread nD τ) accM2 fullShare d)
          ∗ Pipeline.scopedRestBut (Ix := Unit) (Name := ℕ) (U := UR sig nD τ) (Lvl := ℕ) (Val := Elt F) spec2 c [cc2_scratch0]) := by
  rw [scopedRest2_split]; simp only [accM2, owns_whole]; try rfl

end Cert.Kernel.Linear

end
-- ==== Proof.Kernel.Layer2.Accum.lean ====
import proofs.«134883_j40123584479654_1_alg».proof.Proof.Kernel.Layer2.Setting
import proofs.«134883_j40123584479654_1_alg».proof.Proof.Kernel.Layer1.Steps
import proofs.«134883_j40123584479654_1_alg».proof.Proof.Accumulate

set_option maxRecDepth 16384

noncomputable section

namespace Cert.Kernel.Linear

open Cert.Kernel Cert.Kernel.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev sumAt2 (c : Dev nD) : (n : ℕ) → n < cfg2.N → Vec F S1024x1024 .f32 :=
  sumAt (α := Vec F S1024x1024 .f32) (N := cfg2.N) (fun t => tile2 V c 0 t) (fun t => tile2 V c 1 t) (k1_pay1 (F := F)) k1_pay2

def outAt2 (c : Dev nD) (t : Fin cfg2.N) : Vec F S1024x1024 .f32 :=
  k1_pay3 (sumAt2 V c t.val t.isLt) (tile2 V c 2 t)

abbrev keeps2 (c : Dev nD) : (n : ℕ) → n ≤ cfg2.N → sProp 𝕄 :=
  keeps c accM2 (sumAt2 V c) (beside2 (F := F) c)

def dat2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => tile2 V c 2 t
    | ⟨3, _⟩ => outAt2 V c t
  Φ t := keeps2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem keeps2_castSucc (c : Dev nD) (t : Fin cfg2.N) :
    (dat2 V c).Φ t.castSucc = keeps2 V c t.val (Nat.le_of_lt t.isLt) := by
  dsimp only [dat2]; simp only [Fin.coe_castSucc]

theorem after2_0 (c : Dev nD) (t : Fin cfg2.N) : (dat2 V c).after 0 t = tile2 V c 0 t := by dsimp only [dat2]
theorem after2_1 (c : Dev nD) (t : Fin cfg2.N) : (dat2 V c).after 1 t = tile2 V c 1 t := by dsimp only [dat2]
theorem after2_2 (c : Dev nD) (t : Fin cfg2.N) : (dat2 V c).after 2 t = tile2 V c 2 t := by dsimp only [dat2]
theorem after2_3 (c : Dev nD) (t : Fin cfg2.N) : (dat2 V c).after 3 t = outAt2 V c t := by dsimp only [dat2]

theorem found2_0 (c : Dev nD) (t : Fin cfg2.N) (d) : (dat2 V c).before 0 t d = tile2 V c 0 t :=
  ((dat2 V c).before_in_eq_fetched 0 rfl (fun _ => rfl) (fun _ _ _ => rfl)
    (fun t => by rw [after2_0]; unfold Dat.blockOf tile2; rw [A_eq2]; try rfl) t d).trans
    (by unfold Dat.fetched Dat.blockOf tile2; rw [A_eq2]; try rfl)
theorem found2_1 (c : Dev nD) (t : Fin cfg2.N) (d) : (dat2 V c).before 1 t d = tile2 V c 1 t :=
  ((dat2 V c).before_in_eq_fetched 1 rfl (fun _ => rfl) (fun _ _ _ => rfl)
    (fun t => by rw [after2_1]; unfold Dat.blockOf tile2; rw [A_eq2]; try rfl) t d).trans
    (by unfold Dat.fetched Dat.blockOf tile2; rw [A_eq2]; try rfl)
theorem found2_2 (c : Dev nD) (t : Fin cfg2.N) (d) : (dat2 V c).before 2 t d = tile2 V c 2 t :=
  ((dat2 V c).before_in_eq_fetched 2 rfl (fun _ => rfl) (fun _ _ _ => rfl)
    (fun t => by rw [after2_2]; unfold Dat.blockOf tile2; rw [A_eq2]; try rfl) t d).trans
    (by unfold Dat.fetched Dat.blockOf tile2; rw [A_eq2]; try rfl)

theorem sound_body2 (c : Dev nD) (t : Fin cfg2.N) :
    bodyPre (dat2 V c) t 0 1 2 3
      ⊢ wp frame (wpE (defs₀ (F := F)) Variants.none c none) Set.univ (bodyAt2 t) (fun _ => bodyPost (dat2 V c) t 0 1 2 3) := by
  unfold bodyPre bodyPost bodyAt2
  simp only [found2_0, found2_1, found2_2]
  rw [show (dat2 V c).owesAt () t.succ = (dat2 V c).owesAt () t.castSucc from rfl,
    show (dat2 V c).Φ t.succ = iprop(owns (c : Thread nD τ) accM2 fullShare (sumAt2 V c t.val t.isLt) ∗ beside2 (F := F) c) from rfl,
    leavesExact_live _ t 0 (live2_0 t), leavesExact_live _ t 1 (live2_1 t), leavesExact_live _ t 2 (live2_2 t),
    after2_0, after2_1, after2_2, keeps2_castSucc V c t]
  have hnc : ¬t.val % 4 = 3 → ¬closes2 (grid2.coords t) := fun h1 h => h1 ((closes2_iff t).mp h)
  have hno : ¬t.val % 4 = 0 → ¬opens2 (grid2.coords t) := fun h0 h => h0 ((opens2_iff t).mp h)
  exact sound_point (defs₀ (F := F)) c _ (lhsM2 t) (rhsM2 t) (outM2 t) accM2 (biasM2 t)
    (fun t => tile2 V c 0 t) (fun t => tile2 V c 1 t) (tile2 V c 2 t) (k1_pay1 (F := F)) k1_pay2 k1_pay3 t
    (fun d => (dat2 V c).before 3 t d) (beside2 (F := F) c) ((dat2 V c).owesAt () t.castSucc) ((dat2 V c).leavesExact 3 t)
    (fun h1 => Dat.leavesExact_idle (dat2 V c) 3 t (rests2 t (hnc h1)) (unflushed2 t (hnc h1)))
    (fun h1 => (leavesExact_live _ t 3 (live2_3 t ((closes2_iff t).mpr h1))).trans (by rw [after2_3]; rfl))
    (fun h0 K => stepOpen1 c (grid2.coords t) (lhsM2 t) (lhsW2 t) (rhsM2 t) (rhsW2 t) (biasM2 t) (biasW2 t) (outM2 t) (outW2 t) accM2 (Memref.isWhole_whole _) ((opens2_iff t).mpr h0) (hnc (by omega)) _ _ Set.univ K)
    (fun h0 h1 a K => stepOn1 c (grid2.coords t) (lhsM2 t) (lhsW2 t) (rhsM2 t) (rhsW2 t) (biasM2 t) (biasW2 t) (outM2 t) (outW2 t) accM2 (Memref.isWhole_whole _) (hno h0) (hnc h1) _ _ a Set.univ K)
    (fun h0 h1 a K => stepClose1 c (grid2.coords t) (lhsM2 t) (lhsW2 t) (rhsM2 t) (rhsW2 t) (biasM2 t) (biasW2 t) (outM2 t) (outW2 t) accM2 (Memref.isWhole_whole _) (hno h0) ((closes2_iff t).mpr h1) _ _ a _ Set.univ K)

theorem obligation2 (c : Dev nD) : BodyObligation (dat2 (F := F) V c) (defs₀ (F := F)) Variants.none () Set.univ := fun t => by
  rw [bigSep_W2, bigSep_W2]
  exact sound_body2 V c t

theorem enter2 (c : Dev nD) :
    iprop((∃ r, prngReg c r) ∗ Pipeline.scopedRest (Ix := Unit) (Name := ℕ) (U := UR sig nD τ) (Lvl := ℕ) (Val := Elt F) spec2 c)
      ⊢ (dat2 V c).Φ 0 := by
  rw [scoped2_eq]
  exact enter_of c accM2 (sumAt2 V c) _ _

theorem leave2 (c : Dev nD) :
    (dat2 V c).Φ (Fin.last cfg2.N)
      ⊢ iprop((∃ r, prngReg c r) ∗ Pipeline.scopedRest (Ix := Unit) (Name := ℕ) (U := UR sig nD τ) (Lvl := ℕ) (Val := Elt F) spec2 c) := by
  rw [scoped2_eq]
  exact leave_of c accM2 (sumAt2 V c) _ _ cfg2.N (Nat.le_refl _)

end Cert.Kernel.Linear

end
-- ==== Proof.Kernel.Flow.Stage2.lean ====
import proofs.«134883_j40123584479654_1_alg».proof.Proof.Kernel.Flow.Stage1
import proofs.«134883_j40123584479654_1_alg».proof.Proof.Kernel.Layer2.Accum
import proofs.«134883_j40123584479654_1_alg».proof.Proof.Region

set_option maxRecDepth 16384

noncomputable section

namespace Cert.Kernel.Linear

open Cert.Kernel Cert.Kernel.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev into2 : Dev nD → Valuation τ sig (Elt F) := fun c => StableHlo.after hostOps2 (past1 m c)
abbrev entry2 : (c : Dev nD) → (b : Ref sig .tc) → Buf (Elt F) ((c : Thread nD τ).loc b) := fun c b => into2 m c b

def past2 (c : Dev nD) : Valuation τ sig (Elt F) := past (dat2 (entry2 m) c) (into2 m c)

theorem past2_arr (c : Dev nD) (w : Fin cfg2.W) :
    past2 m c (Proc.devRef .tc (Pipeline.arrRef spec2 w)) = (dat2 (entry2 m) c).arrAt w cfg2.N :=
  past_arr _ _ launch2.win.arr_inj w

theorem into2_keeps (c : Dev nD) (r : Ref sig .tc) (h : r ∉ hostOps2_W) : into2 m c r = past1 m c r :=
  StableHlo.after_of_writes_sub hostOps2 _ hostOps2_writes h

theorem past2_keeps (c : Dev nD) (r : Ref sig .tc) (h : ∀ w, Pipeline.arrRef spec2 w = r → (cfg2.win w).isOut = false) :
    past2 m c r = into2 m c r :=
  past_keeps _ _ launch2.win.arr_inj (A_eq2 (entry2 m) c) r h

end Cert.Kernel.Linear

end
-- ==== Proof.Kernel.Layer3.Setting.lean ====
import proofs.«134883_j40123584479654_1_alg».proof.Proof.Gen.Kernel.Launch
import proofs.«134883_j40123584479654_1_alg».proof.Proof.Gen.Kernel.Skeleton
import proofs.«134883_j40123584479654_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def tile3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev opens3 (i : grid3.Coords) : Prop := (Scalar.cmpi .ne (Scalar.extui (Scalar.cmpi .eq (BitVec.ofNat 32 (i 2).val) 0#32)) 0#32) = 1#1
theorem opens3_iff : ∀ t : Fin cfg3.N, opens3 (grid3.coords t) ↔ t.val % 4 = 0 :=
  (by decide +kernel : ∀ t : Fin grid3.N, opens3 (grid3.coords t) ↔ t.val % 4 = 0)

abbrev closes3 (i : grid3.Coords) : Prop := k3_cond2 i = 1#1
theorem closes3_iff : ∀ t : Fin cfg3.N, closes3 (grid3.coords t) ↔ t.val % 4 = 3 :=
  (by decide +kernel : ∀ t : Fin grid3.N, closes3 (grid3.coords t) ↔ t.val % 4 = 3)

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel

theorem rests3 : ∀ t : Fin cfg3.N, ¬closes3 (grid3.coords t) → cfg3.idle 3 (grid3.coords t) = true := by decide +kernel
theorem unflushed3 : ∀ t : Fin cfg3.N, ¬closes3 (grid3.coords t) → (cfg3.win 3).flush t = false := by decide +kernel

theorem live3_3 : ∀ t : Fin cfg3.N, closes3 (grid3.coords t) → cfg3.idle 3 (grid3.coords t) = false := by decide +kernel

abbrev lhsM3 (t : Fin cfg3.N) : Memref sig .tc .vmem S1024x1024 .f32 := win3_0.stage (cfg3.slots t 0)
abbrev lhsW3 (t : Fin cfg3.N) : (lhsM3 t).IsWhole := hstage3_0 ((cfg3.slots t 0).cast nbuf3_0)
abbrev rhsM3 (t : Fin cfg3.N) : Memref sig .tc .vmem S1024x1024 .f32 := win3_1.stage (cfg3.slots t 1)
abbrev rhsW3 (t : Fin cfg3.N) : (rhsM3 t).IsWhole := hstage3_1 ((cfg3.slots t 1).cast nbuf3_1)
abbrev biasM3 (t : Fin cfg3.N) : Memref sig .tc .vmem S1x1024 .f32 := win3_2.stage (cfg3.slots t 2)
abbrev biasW3 (t : Fin cfg3.N) : (biasM3 t).IsWhole := hstage3_2 ((cfg3.slots t 2).cast nbuf3_2)
abbrev outM3 (t : Fin cfg3.N) : Memref sig .tc .vmem S1024x1024 .f32 := win3_3.stage (cfg3.slots t 3)
abbrev outW3 (t : Fin cfg3.N) : (outM3 t).IsWhole := hstage3_3 ((cfg3.slots t 3).cast nbuf3_3)

abbrev accM3 : Memref sig .tc .vmem S1024x1024 .f32 := Memref.whole cc3_scratch0

def beside3 (c : Dev nD) : sProp 𝕄 :=
  iprop(Pipeline.scopedRestBut (Ix := Unit) (Name := ℕ) (U := UR sig nD τ) (Lvl := ℕ) (Val := Elt F) spec3 c [cc3_scratch0] ∗ (∃ r, prngReg c r))

theorem scoped3_eq (c : Dev nD) :
    (Pipeline.scopedRest (Ix := Unit) (Name := ℕ) (U := UR sig nD τ) (Lvl := ℕ) (Val := Elt F) spec3 c : sProp 𝕄)
      = iprop((∃ d, owns (c : Thread nD τ) accM3 fullShare d)
          ∗ Pipeline.scopedRestBut (Ix := Unit) (Name := ℕ) (U := UR sig nD τ) (Lvl := ℕ) (Val := Elt F) spec3 c [cc3_scratch0]) := by
  rw [scopedRest3_split]; simp only [accM3, owns_whole]; try rfl

end Cert.Kernel.Linear

end
-- ==== Proof.Kernel.Layer3.Accum.lean ====
import proofs.«134883_j40123584479654_1_alg».proof.Proof.Kernel.Layer3.Setting
import proofs.«134883_j40123584479654_1_alg».proof.Proof.Kernel.Layer1.Steps
import proofs.«134883_j40123584479654_1_alg».proof.Proof.Accumulate

set_option maxRecDepth 16384

noncomputable section

namespace Cert.Kernel.Linear

open Cert.Kernel Cert.Kernel.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev sumAt3 (c : Dev nD) : (n : ℕ) → n < cfg3.N → Vec F S1024x1024 .f32 :=
  sumAt (α := Vec F S1024x1024 .f32) (N := cfg3.N) (fun t => tile3 V c 0 t) (fun t => tile3 V c 1 t) (k1_pay1 (F := F)) k1_pay2

def outAt3 (c : Dev nD) (t : Fin cfg3.N) : Vec F S1024x1024 .f32 :=
  k1_pay3 (sumAt3 V c t.val t.isLt) (tile3 V c 2 t)

abbrev keeps3 (c : Dev nD) : (n : ℕ) → n ≤ cfg3.N → sProp 𝕄 :=
  keeps c accM3 (sumAt3 V c) (beside3 (F := F) c)

def dat3 (c : Dev nD) : Dat τ (Elt F) Unit ℕ (UR sig nD τ) ℕ cfg3 c where
  A w := V c (Pipeline.arrRef spec3 w)
  after w t := match w with
    | ⟨0, _⟩ => tile3 V c 0 t
    | ⟨1, _⟩ => tile3 V c 1 t
    | ⟨2, _⟩ => tile3 V c 2 t
    | ⟨3, _⟩ => outAt3 V c t
  Φ t := keeps3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem keeps3_castSucc (c : Dev nD) (t : Fin cfg3.N) :
    (dat3 V c).Φ t.castSucc = keeps3 V c t.val (Nat.le_of_lt t.isLt) := by
  dsimp only [dat3]; simp only [Fin.coe_castSucc]

theorem after3_0 (c : Dev nD) (t : Fin cfg3.N) : (dat3 V c).after 0 t = tile3 V c 0 t := by dsimp only [dat3]
theorem after3_1 (c : Dev nD) (t : Fin cfg3.N) : (dat3 V c).after 1 t = tile3 V c 1 t := by dsimp only [dat3]
theorem after3_2 (c : Dev nD) (t : Fin cfg3.N) : (dat3 V c).after 2 t = tile3 V c 2 t := by dsimp only [dat3]
theorem after3_3 (c : Dev nD) (t : Fin cfg3.N) : (dat3 V c).after 3 t = outAt3 V c t := by dsimp only [dat3]

theorem found3_0 (c : Dev nD) (t : Fin cfg3.N) (d) : (dat3 V c).before 0 t d = tile3 V c 0 t :=
  ((dat3 V c).before_in_eq_fetched 0 rfl (fun _ => rfl) (fun _ _ _ => rfl)
    (fun t => by rw [after3_0]; unfold Dat.blockOf tile3; rw [A_eq3]; try rfl) t d).trans
    (by unfold Dat.fetched Dat.blockOf tile3; rw [A_eq3]; try rfl)
theorem found3_1 (c : Dev nD) (t : Fin cfg3.N) (d) : (dat3 V c).before 1 t d = tile3 V c 1 t :=
  ((dat3 V c).before_in_eq_fetched 1 rfl (fun _ => rfl) (fun _ _ _ => rfl)
    (fun t => by rw [after3_1]; unfold Dat.blockOf tile3; rw [A_eq3]; try rfl) t d).trans
    (by unfold Dat.fetched Dat.blockOf tile3; rw [A_eq3]; try rfl)
theorem found3_2 (c : Dev nD) (t : Fin cfg3.N) (d) : (dat3 V c).before 2 t d = tile3 V c 2 t :=
  ((dat3 V c).before_in_eq_fetched 2 rfl (fun _ => rfl) (fun _ _ _ => rfl)
    (fun t => by rw [after3_2]; unfold Dat.blockOf tile3; rw [A_eq3]; try rfl) t d).trans
    (by unfold Dat.fetched Dat.blockOf tile3; rw [A_eq3]; try rfl)

theorem sound_body3 (c : Dev nD) (t : Fin cfg3.N) :
    bodyPre (dat3 V c) t 0 1 2 3
      ⊢ wp frame (wpE (defs₀ (F := F)) Variants.none c none) Set.univ (bodyAt3 t) (fun _ => bodyPost (dat3 V c) t 0 1 2 3) := by
  unfold bodyPre bodyPost bodyAt3
  simp only [found3_0, found3_1, found3_2]
  rw [show (dat3 V c).owesAt () t.succ = (dat3 V c).owesAt () t.castSucc from rfl,
    show (dat3 V c).Φ t.succ = iprop(owns (c : Thread nD τ) accM3 fullShare (sumAt3 V c t.val t.isLt) ∗ beside3 (F := F) c) from rfl,
    leavesExact_live _ t 0 (live3_0 t), leavesExact_live _ t 1 (live3_1 t), leavesExact_live _ t 2 (live3_2 t),
    after3_0, after3_1, after3_2, keeps3_castSucc V c t]
  have hnc : ¬t.val % 4 = 3 → ¬closes3 (grid3.coords t) := fun h1 h => h1 ((closes3_iff t).mp h)
  have hno : ¬t.val % 4 = 0 → ¬opens3 (grid3.coords t) := fun h0 h => h0 ((opens3_iff t).mp h)
  exact sound_point (defs₀ (F := F)) c _ (lhsM3 t) (rhsM3 t) (outM3 t) accM3 (biasM3 t)
    (fun t => tile3 V c 0 t) (fun t => tile3 V c 1 t) (tile3 V c 2 t) (k1_pay1 (F := F)) k1_pay2 k1_pay3 t
    (fun d => (dat3 V c).before 3 t d) (beside3 (F := F) c) ((dat3 V c).owesAt () t.castSucc) ((dat3 V c).leavesExact 3 t)
    (fun h1 => Dat.leavesExact_idle (dat3 V c) 3 t (rests3 t (hnc h1)) (unflushed3 t (hnc h1)))
    (fun h1 => (leavesExact_live _ t 3 (live3_3 t ((closes3_iff t).mpr h1))).trans (by rw [after3_3]; rfl))
    (fun h0 K => stepOpen1 c (grid3.coords t) (lhsM3 t) (lhsW3 t) (rhsM3 t) (rhsW3 t) (biasM3 t) (biasW3 t) (outM3 t) (outW3 t) accM3 (Memref.isWhole_whole _) ((opens3_iff t).mpr h0) (hnc (by omega)) _ _ Set.univ K)
    (fun h0 h1 a K => stepOn1 c (grid3.coords t) (lhsM3 t) (lhsW3 t) (rhsM3 t) (rhsW3 t) (biasM3 t) (biasW3 t) (outM3 t) (outW3 t) accM3 (Memref.isWhole_whole _) (hno h0) (hnc h1) _ _ a Set.univ K)
    (fun h0 h1 a K => stepClose1 c (grid3.coords t) (lhsM3 t) (lhsW3 t) (rhsM3 t) (rhsW3 t) (biasM3 t) (biasW3 t) (outM3 t) (outW3 t) accM3 (Memref.isWhole_whole _) (hno h0) ((closes3_iff t).mpr h1) _ _ a _ Set.univ K)

theorem obligation3 (c : Dev nD) : BodyObligation (dat3 (F := F) V c) (defs₀ (F := F)) Variants.none () Set.univ := fun t => by
  rw [bigSep_W3, bigSep_W3]
  exact sound_body3 V c t

theorem enter3 (c : Dev nD) :
    iprop((∃ r, prngReg c r) ∗ Pipeline.scopedRest (Ix := Unit) (Name := ℕ) (U := UR sig nD τ) (Lvl := ℕ) (Val := Elt F) spec3 c)
      ⊢ (dat3 V c).Φ 0 := by
  rw [scoped3_eq]
  exact enter_of c accM3 (sumAt3 V c) _ _

theorem leave3 (c : Dev nD) :
    (dat3 V c).Φ (Fin.last cfg3.N)
      ⊢ iprop((∃ r, prngReg c r) ∗ Pipeline.scopedRest (Ix := Unit) (Name := ℕ) (U := UR sig nD τ) (Lvl := ℕ) (Val := Elt F) spec3 c) := by
  rw [scoped3_eq]
  exact leave_of c accM3 (sumAt3 V c) _ _ cfg3.N (Nat.le_refl _)

end Cert.Kernel.Linear

end
-- ==== Proof.Kernel.Flow.Stage3.lean ====
import proofs.«134883_j40123584479654_1_alg».proof.Proof.Kernel.Flow.Stage2
import proofs.«134883_j40123584479654_1_alg».proof.Proof.Kernel.Layer3.Accum
import proofs.«134883_j40123584479654_1_alg».proof.Proof.Region

set_option maxRecDepth 16384

noncomputable section

namespace Cert.Kernel.Linear

open Cert.Kernel Cert.Kernel.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev into3 : Dev nD → Valuation τ sig (Elt F) := fun c => StableHlo.after hostOps3 (past2 m c)
abbrev entry3 : (c : Dev nD) → (b : Ref sig .tc) → Buf (Elt F) ((c : Thread nD τ).loc b) := fun c b => into3 m c b

def past3 (c : Dev nD) : Valuation τ sig (Elt F) := past (dat3 (entry3 m) c) (into3 m c)

theorem past3_arr (c : Dev nD) (w : Fin cfg3.W) :
    past3 m c (Proc.devRef .tc (Pipeline.arrRef spec3 w)) = (dat3 (entry3 m) c).arrAt w cfg3.N :=
  past_arr _ _ launch3.win.arr_inj w

theorem into3_keeps (c : Dev nD) (r : Ref sig .tc) (h : r ∉ hostOps3_W) : into3 m c r = past2 m c r :=
  StableHlo.after_of_writes_sub hostOps3 _ hostOps3_writes h

theorem past3_keeps (c : Dev nD) (r : Ref sig .tc) (h : ∀ w, Pipeline.arrRef spec3 w = r → (cfg3.win w).isOut = false) :
    past3 m c r = into3 m c r :=
  past_keeps _ _ launch3.win.arr_inj (A_eq3 (entry3 m) c) r h

end Cert.Kernel.Linear

end
-- ==== Proof.Kernel.Layer4.Setting.lean ====
import proofs.«134883_j40123584479654_1_alg».proof.Proof.Gen.Kernel.Launch
import proofs.«134883_j40123584479654_1_alg».proof.Proof.Gen.Kernel.Skeleton
import proofs.«134883_j40123584479654_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def tile4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev opens4 (i : grid4.Coords) : Prop := (Scalar.cmpi .ne (Scalar.extui (Scalar.cmpi .eq (BitVec.ofNat 32 (i 2).val) 0#32)) 0#32) = 1#1
theorem opens4_iff : ∀ t : Fin cfg4.N, opens4 (grid4.coords t) ↔ t.val % 4 = 0 :=
  (by decide +kernel : ∀ t : Fin grid4.N, opens4 (grid4.coords t) ↔ t.val % 4 = 0)

abbrev closes4 (i : grid4.Coords) : Prop := k4_cond2 i = 1#1
theorem closes4_iff : ∀ t : Fin cfg4.N, closes4 (grid4.coords t) ↔ t.val % 4 = 3 :=
  (by decide +kernel : ∀ t : Fin grid4.N, closes4 (grid4.coords t) ↔ t.val % 4 = 3)

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel

theorem rests4 : ∀ t : Fin cfg4.N, ¬closes4 (grid4.coords t) → cfg4.idle 3 (grid4.coords t) = true := by decide +kernel
theorem unflushed4 : ∀ t : Fin cfg4.N, ¬closes4 (grid4.coords t) → (cfg4.win 3).flush t = false := by decide +kernel

theorem live4_3 : ∀ t : Fin cfg4.N, closes4 (grid4.coords t) → cfg4.idle 3 (grid4.coords t) = false := by decide +kernel

abbrev lhsM4 (t : Fin cfg4.N) : Memref sig .tc .vmem S1024x1024 .f32 := win4_0.stage (cfg4.slots t 0)
abbrev lhsW4 (t : Fin cfg4.N) : (lhsM4 t).IsWhole := hstage4_0 ((cfg4.slots t 0).cast nbuf4_0)
abbrev rhsM4 (t : Fin cfg4.N) : Memref sig .tc .vmem S1024x1024 .f32 := win4_1.stage (cfg4.slots t 1)
abbrev rhsW4 (t : Fin cfg4.N) : (rhsM4 t).IsWhole := hstage4_1 ((cfg4.slots t 1).cast nbuf4_1)
abbrev biasM4 (t : Fin cfg4.N) : Memref sig .tc .vmem S1x1024 .f32 := win4_2.stage (cfg4.slots t 2)
abbrev biasW4 (t : Fin cfg4.N) : (biasM4 t).IsWhole := hstage4_2 ((cfg4.slots t 2).cast nbuf4_2)
abbrev outM4 (t : Fin cfg4.N) : Memref sig .tc .vmem S1024x1024 .f32 := win4_3.stage (cfg4.slots t 3)
abbrev outW4 (t : Fin cfg4.N) : (outM4 t).IsWhole := hstage4_3 ((cfg4.slots t 3).cast nbuf4_3)

abbrev accM4 : Memref sig .tc .vmem S1024x1024 .f32 := Memref.whole cc4_scratch0

def beside4 (c : Dev nD) : sProp 𝕄 :=
  iprop(Pipeline.scopedRestBut (Ix := Unit) (Name := ℕ) (U := UR sig nD τ) (Lvl := ℕ) (Val := Elt F) spec4 c [cc4_scratch0] ∗ (∃ r, prngReg c r))

theorem scoped4_eq (c : Dev nD) :
    (Pipeline.scopedRest (Ix := Unit) (Name := ℕ) (U := UR sig nD τ) (Lvl := ℕ) (Val := Elt F) spec4 c : sProp 𝕄)
      = iprop((∃ d, owns (c : Thread nD τ) accM4 fullShare d)
          ∗ Pipeline.scopedRestBut (Ix := Unit) (Name := ℕ) (U := UR sig nD τ) (Lvl := ℕ) (Val := Elt F) spec4 c [cc4_scratch0]) := by
  rw [scopedRest4_split]; simp only [accM4, owns_whole]; try rfl

end Cert.Kernel.Linear

end
-- ==== Proof.Kernel.Layer4.Accum.lean ====
import proofs.«134883_j40123584479654_1_alg».proof.Proof.Kernel.Layer4.Setting
import proofs.«134883_j40123584479654_1_alg».proof.Proof.Kernel.Layer1.Steps
import proofs.«134883_j40123584479654_1_alg».proof.Proof.Accumulate

set_option maxRecDepth 16384

noncomputable section

namespace Cert.Kernel.Linear

open Cert.Kernel Cert.Kernel.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev sumAt4 (c : Dev nD) : (n : ℕ) → n < cfg4.N → Vec F S1024x1024 .f32 :=
  sumAt (α := Vec F S1024x1024 .f32) (N := cfg4.N) (fun t => tile4 V c 0 t) (fun t => tile4 V c 1 t) (k1_pay1 (F := F)) k1_pay2

def outAt4 (c : Dev nD) (t : Fin cfg4.N) : Vec F S1024x1024 .f32 :=
  k1_pay3 (sumAt4 V c t.val t.isLt) (tile4 V c 2 t)

abbrev keeps4 (c : Dev nD) : (n : ℕ) → n ≤ cfg4.N → sProp 𝕄 :=
  keeps c accM4 (sumAt4 V c) (beside4 (F := F) c)

def dat4 (c : Dev nD) : Dat τ (Elt F) Unit ℕ (UR sig nD τ) ℕ cfg4 c where
  A w := V c (Pipeline.arrRef spec4 w)
  after w t := match w with
    | ⟨0, _⟩ => tile4 V c 0 t
    | ⟨1, _⟩ => tile4 V c 1 t
    | ⟨2, _⟩ => tile4 V c 2 t
    | ⟨3, _⟩ => outAt4 V c t
  Φ t := keeps4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem keeps4_castSucc (c : Dev nD) (t : Fin cfg4.N) :
    (dat4 V c).Φ t.castSucc = keeps4 V c t.val (Nat.le_of_lt t.isLt) := by
  dsimp only [dat4]; simp only [Fin.coe_castSucc]

theorem after4_0 (c : Dev nD) (t : Fin cfg4.N) : (dat4 V c).after 0 t = tile4 V c 0 t := by dsimp only [dat4]
theorem after4_1 (c : Dev nD) (t : Fin cfg4.N) : (dat4 V c).after 1 t = tile4 V c 1 t := by dsimp only [dat4]
theorem after4_2 (c : Dev nD) (t : Fin cfg4.N) : (dat4 V c).after 2 t = tile4 V c 2 t := by dsimp only [dat4]
theorem after4_3 (c : Dev nD) (t : Fin cfg4.N) : (dat4 V c).after 3 t = outAt4 V c t := by dsimp only [dat4]

theorem found4_0 (c : Dev nD) (t : Fin cfg4.N) (d) : (dat4 V c).before 0 t d = tile4 V c 0 t :=
  ((dat4 V c).before_in_eq_fetched 0 rfl (fun _ => rfl) (fun _ _ _ => rfl)
    (fun t => by rw [after4_0]; unfold Dat.blockOf tile4; rw [A_eq4]; try rfl) t d).trans
    (by unfold Dat.fetched Dat.blockOf tile4; rw [A_eq4]; try rfl)
theorem found4_1 (c : Dev nD) (t : Fin cfg4.N) (d) : (dat4 V c).before 1 t d = tile4 V c 1 t :=
  ((dat4 V c).before_in_eq_fetched 1 rfl (fun _ => rfl) (fun _ _ _ => rfl)
    (fun t => by rw [after4_1]; unfold Dat.blockOf tile4; rw [A_eq4]; try rfl) t d).trans
    (by unfold Dat.fetched Dat.blockOf tile4; rw [A_eq4]; try rfl)
theorem found4_2 (c : Dev nD) (t : Fin cfg4.N) (d) : (dat4 V c).before 2 t d = tile4 V c 2 t :=
  ((dat4 V c).before_in_eq_fetched 2 rfl (fun _ => rfl) (fun _ _ _ => rfl)
    (fun t => by rw [after4_2]; unfold Dat.blockOf tile4; rw [A_eq4]; try rfl) t d).trans
    (by unfold Dat.fetched Dat.blockOf tile4; rw [A_eq4]; try rfl)

theorem sound_body4 (c : Dev nD) (t : Fin cfg4.N) :
    bodyPre (dat4 V c) t 0 1 2 3
      ⊢ wp frame (wpE (defs₀ (F := F)) Variants.none c none) Set.univ (bodyAt4 t) (fun _ => bodyPost (dat4 V c) t 0 1 2 3) := by
  unfold bodyPre bodyPost bodyAt4
  simp only [found4_0, found4_1, found4_2]
  rw [show (dat4 V c).owesAt () t.succ = (dat4 V c).owesAt () t.castSucc from rfl,
    show (dat4 V c).Φ t.succ = iprop(owns (c : Thread nD τ) accM4 fullShare (sumAt4 V c t.val t.isLt) ∗ beside4 (F := F) c) from rfl,
    leavesExact_live _ t 0 (live4_0 t), leavesExact_live _ t 1 (live4_1 t), leavesExact_live _ t 2 (live4_2 t),
    after4_0, after4_1, after4_2, keeps4_castSucc V c t]
  have hnc : ¬t.val % 4 = 3 → ¬closes4 (grid4.coords t) := fun h1 h => h1 ((closes4_iff t).mp h)
  have hno : ¬t.val % 4 = 0 → ¬opens4 (grid4.coords t) := fun h0 h => h0 ((opens4_iff t).mp h)
  exact sound_point (defs₀ (F := F)) c _ (lhsM4 t) (rhsM4 t) (outM4 t) accM4 (biasM4 t)
    (fun t => tile4 V c 0 t) (fun t => tile4 V c 1 t) (tile4 V c 2 t) (k1_pay1 (F := F)) k1_pay2 k1_pay3 t
    (fun d => (dat4 V c).before 3 t d) (beside4 (F := F) c) ((dat4 V c).owesAt () t.castSucc) ((dat4 V c).leavesExact 3 t)
    (fun h1 => Dat.leavesExact_idle (dat4 V c) 3 t (rests4 t (hnc h1)) (unflushed4 t (hnc h1)))
    (fun h1 => (leavesExact_live _ t 3 (live4_3 t ((closes4_iff t).mpr h1))).trans (by rw [after4_3]; rfl))
    (fun h0 K => stepOpen1 c (grid4.coords t) (lhsM4 t) (lhsW4 t) (rhsM4 t) (rhsW4 t) (biasM4 t) (biasW4 t) (outM4 t) (outW4 t) accM4 (Memref.isWhole_whole _) ((opens4_iff t).mpr h0) (hnc (by omega)) _ _ Set.univ K)
    (fun h0 h1 a K => stepOn1 c (grid4.coords t) (lhsM4 t) (lhsW4 t) (rhsM4 t) (rhsW4 t) (biasM4 t) (biasW4 t) (outM4 t) (outW4 t) accM4 (Memref.isWhole_whole _) (hno h0) (hnc h1) _ _ a Set.univ K)
    (fun h0 h1 a K => stepClose1 c (grid4.coords t) (lhsM4 t) (lhsW4 t) (rhsM4 t) (rhsW4 t) (biasM4 t) (biasW4 t) (outM4 t) (outW4 t) accM4 (Memref.isWhole_whole _) (hno h0) ((closes4_iff t).mpr h1) _ _ a _ Set.univ K)

theorem obligation4 (c : Dev nD) : BodyObligation (dat4 (F := F) V c) (defs₀ (F := F)) Variants.none () Set.univ := fun t => by
  rw [bigSep_W4, bigSep_W4]
  exact sound_body4 V c t

theorem enter4 (c : Dev nD) :
    iprop((∃ r, prngReg c r) ∗ Pipeline.scopedRest (Ix := Unit) (Name := ℕ) (U := UR sig nD τ) (Lvl := ℕ) (Val := Elt F) spec4 c)
      ⊢ (dat4 V c).Φ 0 := by
  rw [scoped4_eq]
  exact enter_of c accM4 (sumAt4 V c) _ _

theorem leave4 (c : Dev nD) :
    (dat4 V c).Φ (Fin.last cfg4.N)
      ⊢ iprop((∃ r, prngReg c r) ∗ Pipeline.scopedRest (Ix := Unit) (Name := ℕ) (U := UR sig nD τ) (Lvl := ℕ) (Val := Elt F) spec4 c) := by
  rw [scoped4_eq]
  exact leave_of c accM4 (sumAt4 V c) _ _ cfg4.N (Nat.le_refl _)

end Cert.Kernel.Linear

end
-- ==== Proof.Kernel.Flow.Stage4.lean ====
import proofs.«134883_j40123584479654_1_alg».proof.Proof.Kernel.Flow.Stage3
import proofs.«134883_j40123584479654_1_alg».proof.Proof.Kernel.Layer4.Accum
import proofs.«134883_j40123584479654_1_alg».proof.Proof.Region

set_option maxRecDepth 16384

noncomputable section

namespace Cert.Kernel.Linear

open Cert.Kernel Cert.Kernel.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev into4 : Dev nD → Valuation τ sig (Elt F) := fun c => StableHlo.after hostOps4 (past3 m c)
abbrev entry4 : (c : Dev nD) → (b : Ref sig .tc) → Buf (Elt F) ((c : Thread nD τ).loc b) := fun c b => into4 m c b

def past4 (c : Dev nD) : Valuation τ sig (Elt F) := past (dat4 (entry4 m) c) (into4 m c)

theorem past4_arr (c : Dev nD) (w : Fin cfg4.W) :
    past4 m c (Proc.devRef .tc (Pipeline.arrRef spec4 w)) = (dat4 (entry4 m) c).arrAt w cfg4.N :=
  past_arr _ _ launch4.win.arr_inj w

theorem into4_keeps (c : Dev nD) (r : Ref sig .tc) (h : r ∉ hostOps4_W) : into4 m c r = past3 m c r :=
  StableHlo.after_of_writes_sub hostOps4 _ hostOps4_writes h

theorem past4_keeps (c : Dev nD) (r : Ref sig .tc) (h : ∀ w, Pipeline.arrRef spec4 w = r → (cfg4.win w).isOut = false) :
    past4 m c r = into4 m c r :=
  past_keeps _ _ launch4.win.arr_inj (A_eq4 (entry4 m) c) r h

end Cert.Kernel.Linear

end
-- ==== Proof.Kernel.Layer5.Setting.lean ====
import proofs.«134883_j40123584479654_1_alg».proof.Proof.Gen.Kernel.Launch
import proofs.«134883_j40123584479654_1_alg».proof.Proof.Gen.Kernel.Skeleton
import proofs.«134883_j40123584479654_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def tile5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev opens5 (i : grid5.Coords) : Prop := (Scalar.cmpi .ne (Scalar.extui (Scalar.cmpi .eq (BitVec.ofNat 32 (i 2).val) 0#32)) 0#32) = 1#1
theorem opens5_iff : ∀ t : Fin cfg5.N, opens5 (grid5.coords t) ↔ t.val % 4 = 0 :=
  (by decide +kernel : ∀ t : Fin grid5.N, opens5 (grid5.coords t) ↔ t.val % 4 = 0)

abbrev closes5 (i : grid5.Coords) : Prop := k5_cond2 i = 1#1
theorem closes5_iff : ∀ t : Fin cfg5.N, closes5 (grid5.coords t) ↔ t.val % 4 = 3 :=
  (by decide +kernel : ∀ t : Fin grid5.N, closes5 (grid5.coords t) ↔ t.val % 4 = 3)

theorem live5_0 : ∀ t : Fin cfg5.N, cfg5.idle 0 (grid5.coords t) = false := by decide +kernel
theorem live5_1 : ∀ t : Fin cfg5.N, cfg5.idle 1 (grid5.coords t) = false := by decide +kernel
theorem live5_2 : ∀ t : Fin cfg5.N, cfg5.idle 2 (grid5.coords t) = false := by decide +kernel

theorem rests5 : ∀ t : Fin cfg5.N, ¬closes5 (grid5.coords t) → cfg5.idle 3 (grid5.coords t) = true := by decide +kernel
theorem unflushed5 : ∀ t : Fin cfg5.N, ¬closes5 (grid5.coords t) → (cfg5.win 3).flush t = false := by decide +kernel

theorem live5_3 : ∀ t : Fin cfg5.N, closes5 (grid5.coords t) → cfg5.idle 3 (grid5.coords t) = false := by decide +kernel

abbrev lhsM5 (t : Fin cfg5.N) : Memref sig .tc .vmem S1024x1024 .f32 := win5_0.stage (cfg5.slots t 0)
abbrev lhsW5 (t : Fin cfg5.N) : (lhsM5 t).IsWhole := hstage5_0 ((cfg5.slots t 0).cast nbuf5_0)
abbrev rhsM5 (t : Fin cfg5.N) : Memref sig .tc .vmem S1024x1024 .f32 := win5_1.stage (cfg5.slots t 1)
abbrev rhsW5 (t : Fin cfg5.N) : (rhsM5 t).IsWhole := hstage5_1 ((cfg5.slots t 1).cast nbuf5_1)
abbrev biasM5 (t : Fin cfg5.N) : Memref sig .tc .vmem S1x1024 .f32 := win5_2.stage (cfg5.slots t 2)
abbrev biasW5 (t : Fin cfg5.N) : (biasM5 t).IsWhole := hstage5_2 ((cfg5.slots t 2).cast nbuf5_2)
abbrev outM5 (t : Fin cfg5.N) : Memref sig .tc .vmem S1024x1024 .f32 := win5_3.stage (cfg5.slots t 3)
abbrev outW5 (t : Fin cfg5.N) : (outM5 t).IsWhole := hstage5_3 ((cfg5.slots t 3).cast nbuf5_3)

abbrev accM5 : Memref sig .tc .vmem S1024x1024 .f32 := Memref.whole cc5_scratch0

def beside5 (c : Dev nD) : sProp 𝕄 :=
  iprop(Pipeline.scopedRestBut (Ix := Unit) (Name := ℕ) (U := UR sig nD τ) (Lvl := ℕ) (Val := Elt F) spec5 c [cc5_scratch0] ∗ (∃ r, prngReg c r))

theorem scoped5_eq (c : Dev nD) :
    (Pipeline.scopedRest (Ix := Unit) (Name := ℕ) (U := UR sig nD τ) (Lvl := ℕ) (Val := Elt F) spec5 c : sProp 𝕄)
      = iprop((∃ d, owns (c : Thread nD τ) accM5 fullShare d)
          ∗ Pipeline.scopedRestBut (Ix := Unit) (Name := ℕ) (U := UR sig nD τ) (Lvl := ℕ) (Val := Elt F) spec5 c [cc5_scratch0]) := by
  rw [scopedRest5_split]; simp only [accM5, owns_whole]; try rfl

end Cert.Kernel.Linear

end
-- ==== Proof.Kernel.Layer5.Steps.lean ====
import proofs.«134883_j40123584479654_1_alg».proof.Proof.Kernel.Layer5.Setting

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem origin5 : (![0, 0] : Fin S1024x1024.rank → ℕ) = fun _ => 0 := by
  funext a; fin_cases a <;> rfl
theorem originRow5 : (![0, 0] : Fin S1x1024.rank → ℕ) = fun _ => 0 := by
  funext a; fin_cases a <;> rfl

variable (c : Dev nD) (i : grid5.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)

set_option maxHeartbeats 4000000 in
theorem stepOpen5 (hc0 : opens5 i) (hc1 : ¬closes5 i) (x0 x1 : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1
            ∗ owns (c : Thread nD τ) arg7 fullShare (k5_pay2 x0 x1 (k5_pay1 (F := F)))) -∗ K ⟨⟩))
      ⊢ wp frame (wpE (defs₀ (F := F)) Variants.none c none) E (cc5__linear_kernel i arg3 harg3 arg4 harg4 arg5 harg5 arg6 harg6 arg7 harg7) K := by
  simp only [cc5__linear_kernel_eq_skeleton]; unfold cc5__linear_kernel_skel
  unfold owns
  iintro ⟨⟨%f0, %hf0, H0⟩, ⟨%f1, %hf1, H1⟩, ⟨%ds0, %fs0, -, HS0⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_cons_self, View.mem_set_unit_zero origin5 inb_S1024x1024_S1024x1024_0_0 y⟩),
    View.canon_cons_unit_zero (S := S1024x1024) origin5]
  rw [View.readCov_unit_zero (S := S1024x1024) _ origin5]
  simp only [View.readAt_eq_ld, harg3.read_unread, harg4.read_unread, View.ld_unit_zero (S := S1024x1024) origin5]

set_option maxHeartbeats 4000000 in
theorem stepOn5 (hc0 : ¬opens5 i) (hc1 : ¬closes5 i) (x0 x1 a : Vec F S1024x1024 .f32) (E : Set ℕ) (K : PUnit → sProp 𝕄) :
    iprop(owns (c : Thread nD τ) arg3 fullShare x0 ∗ owns (c : Thread nD τ) arg4 fullShare x1 ∗ owns (c : Thread nD τ) arg7 fullShare a
        ∗ (iprop(owns (c : Thread nD τ) arg3 fullShare x0 ∗ owns (c : Thread nD τ) arg4 fullShare x1
            ∗ owns (c : Thread nD τ) arg7 fullShare (k5_pay2 x0 x1 a)) -∗ K ⟨⟩))
      ⊢ wp frame (wpE (defs₀ (F := F)) Variants.none c none) E (cc5__linear_kernel i arg3 harg3 arg4 harg4 arg5 harg5 arg6 harg6 arg7 harg7) K := by
  simp only [cc5__linear_kernel_eq_skeleton]; unfold cc5__linear_kernel_skel
  unfold owns
  iintro ⟨⟨%f0, %hf0, H0⟩, ⟨%f1, %hf1, H1⟩, ⟨%fs0, %hfs0, HS0⟩, Hk⟩
  obtain rfl := harg3.eq_unread hf0; obtain rfl := harg4.eq_unread hf1; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_cons_self, View.mem_set_unit_zero origin5 inb_S1024x1024_S1024x1024_0_0 y⟩),
    View.canon_cons_unit_zero (S := S1024x1024) origin5]
  simp only [View.readAt_eq_ld, harg3.read_unread, harg4.read_unread, harg7.read_unread, View.ld_unit_zero (S := S1024x1024) origin5]

set_option maxHeartbeats 4000000 in
theorem stepClose5 (hc0 : ¬opens5 i) (hc1 : closes5 i) (x0 x1 a : Vec F S1024x1024 .f32) (x2 : Vec F S1x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare a
        ∗ (iprop(owns (c : Thread nD τ) arg3 fullShare x0 ∗ owns (c : Thread nD τ) arg4 fullShare x1 ∗ owns (c : Thread nD τ) arg5 fullShare x2
            ∗ owns (c : Thread nD τ) arg6 fullShare (k5_pay3 (k5_pay2 x0 x1 a) x2)
            ∗ owns (c : Thread nD τ) arg7 fullShare (k5_pay2 x0 x1 a)) -∗ K ⟨⟩))
      ⊢ wp frame (wpE (defs₀ (F := F)) Variants.none c none) E (cc5__linear_kernel i arg3 harg3 arg4 harg4 arg5 harg5 arg6 harg6 arg7 harg7) K := by
  simp only [cc5__linear_kernel_eq_skeleton]; unfold cc5__linear_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg3.eq_unread hf0; obtain rfl := harg4.eq_unread hf1; obtain rfl := harg5.eq_unread hf2; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_cons_self, View.mem_set_unit_zero origin5 inb_S1024x1024_S1024x1024_0_0 y⟩),
      View.canon_cons_unit_zero (S := S1024x1024) origin5]
    rw [View.readCov_unit_zero (S := S1024x1024) _ origin5]
    simp only [View.readAt_eq_ld, harg3.read_unread, harg4.read_unread, harg5.read_unread, harg7.read_unread,
      View.ld_unit_zero (S := S1024x1024) origin5, View.ld_unit_zero (S := S1x1024) originRow5]
  iexists _; isplitr
  swap; · iexact HS0
  ipureintro
  sl_unfold_words
  rw [View.read_writes_eq_canon _ _ _ (fun y => ⟨_, List.mem_cons_self, View.mem_set_unit_zero origin5 inb_S1024x1024_S1024x1024_0_0 y⟩),
    View.canon_cons_unit_zero (S := S1024x1024) origin5]
  simp only [View.readAt_eq_ld, harg3.read_unread, harg4.read_unread, harg7.read_unread, View.ld_unit_zero (S := S1024x1024) origin5]

end Cert.Kernel.Linear

end
-- ==== Proof.Kernel.Layer5.Accum.lean ====
import proofs.«134883_j40123584479654_1_alg».proof.Proof.Kernel.Layer5.Setting
import proofs.«134883_j40123584479654_1_alg».proof.Proof.Kernel.Layer5.Steps
import proofs.«134883_j40123584479654_1_alg».proof.Proof.Accumulate

set_option maxRecDepth 16384

noncomputable section

namespace Cert.Kernel.Linear

open Cert.Kernel Cert.Kernel.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev sumAt5 (c : Dev nD) : (n : ℕ) → n < cfg5.N → Vec F S1024x1024 .f32 :=
  sumAt (α := Vec F S1024x1024 .f32) (N := cfg5.N) (fun t => tile5 V c 0 t) (fun t => tile5 V c 1 t) (k5_pay1 (F := F)) k5_pay2

def outAt5 (c : Dev nD) (t : Fin cfg5.N) : Vec F S1024x1024 .f32 :=
  k5_pay3 (sumAt5 V c t.val t.isLt) (tile5 V c 2 t)

abbrev keeps5 (c : Dev nD) : (n : ℕ) → n ≤ cfg5.N → sProp 𝕄 :=
  keeps c accM5 (sumAt5 V c) (beside5 (F := F) c)

def dat5 (c : Dev nD) : Dat τ (Elt F) Unit ℕ (UR sig nD τ) ℕ cfg5 c where
  A w := V c (Pipeline.arrRef spec5 w)
  after w t := match w with
    | ⟨0, _⟩ => tile5 V c 0 t
    | ⟨1, _⟩ => tile5 V c 1 t
    | ⟨2, _⟩ => tile5 V c 2 t
    | ⟨3, _⟩ => outAt5 V c t
  Φ t := keeps5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem keeps5_castSucc (c : Dev nD) (t : Fin cfg5.N) :
    (dat5 V c).Φ t.castSucc = keeps5 V c t.val (Nat.le_of_lt t.isLt) := by
  dsimp only [dat5]; simp only [Fin.coe_castSucc]

theorem after5_0 (c : Dev nD) (t : Fin cfg5.N) : (dat5 V c).after 0 t = tile5 V c 0 t := by dsimp only [dat5]
theorem after5_1 (c : Dev nD) (t : Fin cfg5.N) : (dat5 V c).after 1 t = tile5 V c 1 t := by dsimp only [dat5]
theorem after5_2 (c : Dev nD) (t : Fin cfg5.N) : (dat5 V c).after 2 t = tile5 V c 2 t := by dsimp only [dat5]
theorem after5_3 (c : Dev nD) (t : Fin cfg5.N) : (dat5 V c).after 3 t = outAt5 V c t := by dsimp only [dat5]

theorem found5_0 (c : Dev nD) (t : Fin cfg5.N) (d) : (dat5 V c).before 0 t d = tile5 V c 0 t :=
  ((dat5 V c).before_in_eq_fetched 0 rfl (fun _ => rfl) (fun _ _ _ => rfl)
    (fun t => by rw [after5_0]; unfold Dat.blockOf tile5; rw [A_eq5]; try rfl) t d).trans
    (by unfold Dat.fetched Dat.blockOf tile5; rw [A_eq5]; try rfl)
theorem found5_1 (c : Dev nD) (t : Fin cfg5.N) (d) : (dat5 V c).before 1 t d = tile5 V c 1 t :=
  ((dat5 V c).before_in_eq_fetched 1 rfl (fun _ => rfl) (fun _ _ _ => rfl)
    (fun t => by rw [after5_1]; unfold Dat.blockOf tile5; rw [A_eq5]; try rfl) t d).trans
    (by unfold Dat.fetched Dat.blockOf tile5; rw [A_eq5]; try rfl)
theorem found5_2 (c : Dev nD) (t : Fin cfg5.N) (d) : (dat5 V c).before 2 t d = tile5 V c 2 t :=
  ((dat5 V c).before_in_eq_fetched 2 rfl (fun _ => rfl) (fun _ _ _ => rfl)
    (fun t => by rw [after5_2]; unfold Dat.blockOf tile5; rw [A_eq5]; try rfl) t d).trans
    (by unfold Dat.fetched Dat.blockOf tile5; rw [A_eq5]; try rfl)

theorem sound_body5 (c : Dev nD) (t : Fin cfg5.N) :
    bodyPre (dat5 V c) t 0 1 2 3
      ⊢ wp frame (wpE (defs₀ (F := F)) Variants.none c none) Set.univ (bodyAt5 t) (fun _ => bodyPost (dat5 V c) t 0 1 2 3) := by
  unfold bodyPre bodyPost bodyAt5
  simp only [found5_0, found5_1, found5_2]
  rw [show (dat5 V c).owesAt () t.succ = (dat5 V c).owesAt () t.castSucc from rfl,
    show (dat5 V c).Φ t.succ = iprop(owns (c : Thread nD τ) accM5 fullShare (sumAt5 V c t.val t.isLt) ∗ beside5 (F := F) c) from rfl,
    leavesExact_live _ t 0 (live5_0 t), leavesExact_live _ t 1 (live5_1 t), leavesExact_live _ t 2 (live5_2 t),
    after5_0, after5_1, after5_2, keeps5_castSucc V c t]
  have hnc : ¬t.val % 4 = 3 → ¬closes5 (grid5.coords t) := fun h1 h => h1 ((closes5_iff t).mp h)
  have hno : ¬t.val % 4 = 0 → ¬opens5 (grid5.coords t) := fun h0 h => h0 ((opens5_iff t).mp h)
  exact sound_point (defs₀ (F := F)) c _ (lhsM5 t) (rhsM5 t) (outM5 t) accM5 (biasM5 t)
    (fun t => tile5 V c 0 t) (fun t => tile5 V c 1 t) (tile5 V c 2 t) (k5_pay1 (F := F)) k5_pay2 k5_pay3 t
    (fun d => (dat5 V c).before 3 t d) (beside5 (F := F) c) ((dat5 V c).owesAt () t.castSucc) ((dat5 V c).leavesExact 3 t)
    (fun h1 => Dat.leavesExact_idle (dat5 V c) 3 t (rests5 t (hnc h1)) (unflushed5 t (hnc h1)))
    (fun h1 => (leavesExact_live _ t 3 (live5_3 t ((closes5_iff t).mpr h1))).trans (by rw [after5_3]; rfl))
    (fun h0 K => stepOpen5 c (grid5.coords t) (lhsM5 t) (lhsW5 t) (rhsM5 t) (rhsW5 t) (biasM5 t) (biasW5 t) (outM5 t) (outW5 t) accM5 (Memref.isWhole_whole _) ((opens5_iff t).mpr h0) (hnc (by omega)) _ _ Set.univ K)
    (fun h0 h1 a K => stepOn5 c (grid5.coords t) (lhsM5 t) (lhsW5 t) (rhsM5 t) (rhsW5 t) (biasM5 t) (biasW5 t) (outM5 t) (outW5 t) accM5 (Memref.isWhole_whole _) (hno h0) (hnc h1) _ _ a Set.univ K)
    (fun h0 h1 a K => stepClose5 c (grid5.coords t) (lhsM5 t) (lhsW5 t) (rhsM5 t) (rhsW5 t) (biasM5 t) (biasW5 t) (outM5 t) (outW5 t) accM5 (Memref.isWhole_whole _) (hno h0) ((closes5_iff t).mpr h1) _ _ a _ Set.univ K)

theorem obligation5 (c : Dev nD) : BodyObligation (dat5 (F := F) V c) (defs₀ (F := F)) Variants.none () Set.univ := fun t => by
  rw [bigSep_W5, bigSep_W5]
  exact sound_body5 V c t

theorem enter5 (c : Dev nD) :
    iprop((∃ r, prngReg c r) ∗ Pipeline.scopedRest (Ix := Unit) (Name := ℕ) (U := UR sig nD τ) (Lvl := ℕ) (Val := Elt F) spec5 c)
      ⊢ (dat5 V c).Φ 0 := by
  rw [scoped5_eq]
  exact enter_of c accM5 (sumAt5 V c) _ _

theorem leave5 (c : Dev nD) :
    (dat5 V c).Φ (Fin.last cfg5.N)
      ⊢ iprop((∃ r, prngReg c r) ∗ Pipeline.scopedRest (Ix := Unit) (Name := ℕ) (U := UR sig nD τ) (Lvl := ℕ) (Val := Elt F) spec5 c) := by
  rw [scoped5_eq]
  exact leave_of c accM5 (sumAt5 V c) _ _ cfg5.N (Nat.le_refl _)

end Cert.Kernel.Linear

end
-- ==== Proof.Kernel.Flow.Stage5.lean ====
import proofs.«134883_j40123584479654_1_alg».proof.Proof.Kernel.Flow.Stage4
import proofs.«134883_j40123584479654_1_alg».proof.Proof.Kernel.Layer5.Accum
import proofs.«134883_j40123584479654_1_alg».proof.Proof.Region

set_option maxRecDepth 16384

noncomputable section

namespace Cert.Kernel.Linear

open Cert.Kernel Cert.Kernel.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev into5 : Dev nD → Valuation τ sig (Elt F) := fun c => StableHlo.after hostOps5 (past4 m c)
abbrev entry5 : (c : Dev nD) → (b : Ref sig .tc) → Buf (Elt F) ((c : Thread nD τ).loc b) := fun c b => into5 m c b

def past5 (c : Dev nD) : Valuation τ sig (Elt F) := past (dat5 (entry5 m) c) (into5 m c)

theorem past5_arr (c : Dev nD) (w : Fin cfg5.W) :
    past5 m c (Proc.devRef .tc (Pipeline.arrRef spec5 w)) = (dat5 (entry5 m) c).arrAt w cfg5.N :=
  past_arr _ _ launch5.win.arr_inj w

theorem into5_keeps (c : Dev nD) (r : Ref sig .tc) (h : r ∉ hostOps5_W) : into5 m c r = past4 m c r :=
  StableHlo.after_of_writes_sub hostOps5 _ hostOps5_writes h

theorem past5_keeps (c : Dev nD) (r : Ref sig .tc) (h : ∀ w, Pipeline.arrRef spec5 w = r → (cfg5.win w).isOut = false) :
    past5 m c r = into5 m c r :=
  past_keeps _ _ launch5.win.arr_inj (A_eq5 (entry5 m) c) r h

end Cert.Kernel.Linear

end
-- ==== Proof.Kernel.Flow.Data.lean ====
import proofs.«134883_j40123584479654_1_alg».proof.Proof.Kernel.Flow.Stage5

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

abbrev atEnd : Dev nD → Valuation τ sig (Elt F) := fun c => StableHlo.after hostOps6 (past5 m c)
theorem atEnd_keeps (c : Dev nD) (r : Ref sig .tc) (h : r ∉ hostOps6_W) : atEnd m c r = past5 m c r :=
  StableHlo.after_of_writes_sub hostOps6 _ hostOps6_writes h

def pdats : (p : Fin 6) → (c : Dev nD) → Dat τ (Elt F) Unit ℕ (UR sig nD τ) ℕ (Pipeline.pin (pcfgs (F := F)) (adm (F := F)) p) c
  | ⟨0, _⟩ => fun c => dat0 (entry0 m) c
  | ⟨1, _⟩ => fun c => dat1 (entry1 m) c
  | ⟨2, _⟩ => fun c => dat2 (entry2 m) c
  | ⟨3, _⟩ => fun c => dat3 (entry3 m) c
  | ⟨4, _⟩ => fun c => dat4 (entry4 m) c
  | ⟨5, _⟩ => fun c => dat5 (entry5 m) c

abbrev 𝒱₀ : Variants := Variants.none

abbrev L : GSem nD τ sig → Finset Unit := fun _ => ∅
abbrev lv : GSem nD τ sig → Unit → ℕ := fun _ _ => 0

abbrev beside (c : Dev nD) : sProp 𝕄 := iprop((∃ r, prngReg c r) ∗ ∃ W, owes (c : Thread nD τ) (0 : CellTallies nD τ sig Unit) W)

abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev atReturn (c : Dev nD) : sProp 𝕄 := iprop(StableHlo.held (c : Thread nD τ) (Pipeline.ucRefs τ sig) (atEnd m c) ∗ ∃ r, prngReg c r)

end Cert.Kernel.Linear

end
-- ==== Proof.Kernel.Flow.Calls.lean ====
import proofs.«134883_j40123584479654_1_alg».proof.Proof.Kernel.Flow.Data

set_option maxRecDepth 16384

noncomputable section

namespace Cert.Kernel.Linear

open Cert.Kernel Cert.Kernel.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem noTables {p : Fin 6} (c : Dev nD) :
    (BI.emp : sProp 𝕄) ⊢ Pipeline.prefHeld (pcfgs (F := F) p).pre c (fun _ => fullShare) (adm (F := F) p).1 := by
  unfold Pipeline.prefHeld; rw [show (Finset.univ : Finset (Fin 0)) = ∅ from rfl, BI.bigSep_empty]

set_option backward.isDefEq.respectTransparency.types false in
def call0 : Pipeline.RegionSeg (pcfgs (F := F)) (adm (F := F)) (pdats m) () defs₀ 𝒱₀ L lv 0 :=
  callOf pcfgs adm (pdats m) defs₀ L lv 0 launch0.win launch0.block_pos launch0.arr_whole launch0.stage_whole (into0 m)
    (obligation0 (entry0 m)) (fun _ _ => rfl) (fun _ => rfl) (fun _ _ => rfl) (A_eq0 (entry0 m)) noTables
    (enter0 (entry0 m)) (leave0 (entry0 m))

set_option backward.isDefEq.respectTransparency.types false in
def call1 : Pipeline.RegionSeg (pcfgs (F := F)) (adm (F := F)) (pdats m) () defs₀ 𝒱₀ L lv 1 :=
  callOf pcfgs adm (pdats m) defs₀ L lv 1 launch1.win launch1.block_pos launch1.arr_whole launch1.stage_whole (into1 m)
    (obligation1 (entry1 m)) (fun _ _ => rfl) (fun _ => rfl) (fun _ _ => rfl) (A_eq1 (entry1 m)) noTables
    (enter1 (entry1 m)) (leave1 (entry1 m))

set_option backward.isDefEq.respectTransparency.types false in
def call2 : Pipeline.RegionSeg (pcfgs (F := F)) (adm (F := F)) (pdats m) () defs₀ 𝒱₀ L lv 2 :=
  callOf pcfgs adm (pdats m) defs₀ L lv 2 launch2.win launch2.block_pos launch2.arr_whole launch2.stage_whole (into2 m)
    (obligation2 (entry2 m)) (fun _ _ => rfl) (fun _ => rfl) (fun _ _ => rfl) (A_eq2 (entry2 m)) noTables
    (enter2 (entry2 m)) (leave2 (entry2 m))

set_option backward.isDefEq.respectTransparency.types false in
def call3 : Pipeline.RegionSeg (pcfgs (F := F)) (adm (F := F)) (pdats m) () defs₀ 𝒱₀ L lv 3 :=
  callOf pcfgs adm (pdats m) defs₀ L lv 3 launch3.win launch3.block_pos launch3.arr_whole launch3.stage_whole (into3 m)
    (obligation3 (entry3 m)) (fun _ _ => rfl) (fun _ => rfl) (fun _ _ => rfl) (A_eq3 (entry3 m)) noTables
    (enter3 (entry3 m)) (leave3 (entry3 m))

set_option backward.isDefEq.respectTransparency.types false in
def call4 : Pipeline.RegionSeg (pcfgs (F := F)) (adm (F := F)) (pdats m) () defs₀ 𝒱₀ L lv 4 :=
  callOf pcfgs adm (pdats m) defs₀ L lv 4 launch4.win launch4.block_pos launch4.arr_whole launch4.stage_whole (into4 m)
    (obligation4 (entry4 m)) (fun _ _ => rfl) (fun _ => rfl) (fun _ _ => rfl) (A_eq4 (entry4 m)) noTables
    (enter4 (entry4 m)) (leave4 (entry4 m))

set_option backward.isDefEq.respectTransparency.types false in
def call5 : Pipeline.RegionSeg (pcfgs (F := F)) (adm (F := F)) (pdats m) () defs₀ 𝒱₀ L lv 5 :=
  callOf pcfgs adm (pdats m) defs₀ L lv 5 launch5.win launch5.block_pos launch5.arr_whole launch5.stage_whole (into5 m)
    (obligation5 (entry5 m)) (fun _ _ => rfl) (fun _ => rfl) (fun _ _ => rfl) (A_eq5 (entry5 m)) noTables
    (enter5 (entry5 m)) (leave5 (entry5 m))

end Cert.Kernel.Linear

end
-- ==== Proof.Kernel.Flow.Run.lean ====
import proofs.«134883_j40123584479654_1_alg».proof.Proof.Kernel.Flow.Calls

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

abbrev segments : List (Pipeline.Seg (pcfgs (F := F)) (adm (F := F)) (pdats m) () defs₀ 𝒱₀ L lv) :=
  [ .host (stretch hostOps0 hostOps0_sub hostOps0_fresh (atLaunch m)),
    .region (call0 m),
    .host (stretch hostOps1 hostOps1_sub hostOps1_fresh (past0 m)),
    .region (call1 m),
    .host (stretch hostOps2 hostOps2_sub hostOps2_fresh (past1 m)),
    .region (call2 m),
    .host (stretch hostOps3 hostOps3_sub hostOps3_fresh (past2 m)),
    .region (call3 m),
    .host (stretch hostOps4 hostOps4_sub hostOps4_fresh (past3 m)),
    .region (call4 m),
    .host (stretch hostOps5 hostOps5_sub hostOps5_fresh (past4 m)),
    .region (call5 m),
    .host (stretch hostOps6 hostOps6_sub hostOps6_fresh (past5 m)) ]

theorem main_is_segments (c : Dev nD) : main (F := F) c = Pipeline.Seg.run (segments m) := (main_chain c).trans (by chain_rfl)

set_option backward.isDefEq.respectTransparency.types false in
theorem run_to_end : θ_run defs (onTc (τ := τ) (main (F := F))) ⟨m, fun _ => 0, ρ⟩ (fun r => ∀ c : Dev nD,
      ∀ b ∈ Pipeline.ucRefs τ sig, r.2.mem (((c : Thread nD τ)).1, b) = atEnd m c b) :=
  Pipeline.θ_run_regions_kit (pcfgs (F := F)) (adm (F := F)) (pdats m) () cellOf_inj emb₁ defs₀ 𝒱₀ L lv m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ beside c)) (Tₙ := atReturn m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (atEnd m c) ∗ beside c)
          ⊢ iprop(atReturn m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m c b)
    (hfin := fun c s' => by
      iintro ⟨⟨Hh, -⟩, HSI⟩
      unfold StableHlo.held
      imodintro
      iapply (pointsTo_read_all (Pipeline.ucRefs τ sig) (fun b => (((c : Thread nD τ)).1, b)) (atEnd m c) s')
      isplitl [Hh] <;> iassumption)
    (hQ := fun s h => h)

def Untouched (r : Ref sig .tc) : Prop :=
  r ∉ hostOps0_W ∧ r ∉ hostOps1_W ∧ r ∉ hostOps2_W ∧ r ∉ hostOps3_W ∧ r ∉ hostOps4_W ∧ r ∉ hostOps5_W ∧ r ∉ hostOps6_W
  ∧ (∀ w, Pipeline.arrRef spec0 w = r → (cfg0.win w).isOut = false)
  ∧ (∀ w, Pipeline.arrRef spec1 w = r → (cfg1.win w).isOut = false)
  ∧ (∀ w, Pipeline.arrRef spec2 w = r → (cfg2.win w).isOut = false)
  ∧ (∀ w, Pipeline.arrRef spec3 w = r → (cfg3.win w).isOut = false)
  ∧ (∀ w, Pipeline.arrRef spec4 w = r → (cfg4.win w).isOut = false)
  ∧ (∀ w, Pipeline.arrRef spec5 w = r → (cfg5.win w).isOut = false)

theorem atEnd_of_untouched (c : Dev nD) (r : Ref sig .tc) (h : Untouched r) :
    atEnd m c (Proc.devRef .tc r) = m ((c : Thread nD τ).loc r) := by
  obtain ⟨h0, h1, h2, h3, h4, h5, h6, k0, k1, k2, k3, k4, k5⟩ := h
  calc atEnd m c (Proc.devRef .tc r)
    _ = past5 m c r := atEnd_keeps m c r h6
    _ = into5 m c r := past5_keeps m c r k5
    _ = past4 m c r := into5_keeps m c r h5
    _ = into4 m c r := past4_keeps m c r k4
    _ = past3 m c r := into4_keeps m c r h4
    _ = into3 m c r := past3_keeps m c r k3
    _ = past2 m c r := into3_keeps m c r h3
    _ = into2 m c r := past2_keeps m c r k2
    _ = past1 m c r := into2_keeps m c r h2
    _ = into1 m c r := past1_keeps m c r k1
    _ = past0 m c r := into1_keeps m c r h1
    _ = into0 m c r := past0_keeps m c r k0
    _ = atLaunch m c r := into0_keeps m c r h0
    _ = m ((c : Thread nD τ).loc r) := rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (atEnd_of_untouched m c main_arg0 (by unfold Untouched; decide)),
     (h c _ (mem_uc main_arg1 (by decide))).trans (atEnd_of_untouched m c main_arg1 (by unfold Untouched; decide)),
     (h c _ (mem_uc main_arg2 (by decide))).trans (atEnd_of_untouched m c main_arg2 (by unfold Untouched; decide)),
     (h c _ (mem_uc main_arg3 (by decide))).trans (atEnd_of_untouched m c main_arg3 (by unfold Untouched; decide)),
     (h c _ (mem_uc main_arg4 (by decide))).trans (atEnd_of_untouched m c main_arg4 (by unfold Untouched; decide)),
     (h c _ (mem_uc main_arg5 (by decide))).trans (atEnd_of_untouched m c main_arg5 (by unfold Untouched; decide)),
     (h c _ (mem_uc main_arg6 (by decide))).trans (atEnd_of_untouched m c main_arg6 (by unfold Untouched; decide)),
     (h c _ (mem_uc main_arg7 (by decide))).trans (atEnd_of_untouched m c main_arg7 (by unfold Untouched; decide))⟩) (run_to_end m ρ)

end Cert.Kernel.Linear

end
-- ==== Proof.KernelIdeal.Flow.Start.lean ====
import proofs.«134883_j40123584479654_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atLaunch : Dev nD → Valuation τ sig (Elt F) := fun c b => m (c, b)

end Cert.KernelIdeal.Linear

end
-- ==== Proof.KernelIdeal.Layer0.Setting.lean ====
import proofs.«134883_j40123584479654_1_alg».proof.Proof.Gen.KernelIdeal.Launch
import proofs.«134883_j40123584479654_1_alg».proof.Proof.Gen.KernelIdeal.Skeleton
import proofs.«134883_j40123584479654_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem found0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)
theorem found0_1_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)
theorem found0_2_of {c : Dev nD} (dat : Dat τ (Elt F) Unit ℕ (UR sig nD τ) ℕ cfg0 c) (hA : dat.A 2 = V c (Pipeline.arrRef spec0 2))
    (hafter : ∀ t, dat.after 2 t = tile0 V c 2 t) (t : Fin cfg0.N) (d) : dat.before 2 t d = tile0 V c 2 t :=
  (dat.before_in_eq_fetched 2 rfl (fun _ => rfl) (fun _ _ _ => rfl) (fun t => by rw [hafter]; unfold Dat.blockOf tile0; rw [hA]; try rfl) t d).trans
    (by unfold Dat.fetched Dat.blockOf tile0; rw [hA]; try rfl)

abbrev opens0 (i : grid0.Coords) : Prop := (Scalar.cmpi .ne (Scalar.extui (Scalar.cmpi .eq (BitVec.ofNat 32 (i 2).val) 0#32)) 0#32) = 1#1
theorem opens0_all : ∀ t : Fin cfg0.N, opens0 (grid0.coords t) :=
  (by decide +kernel : ∀ t : Fin grid0.N, opens0 (grid0.coords t))

abbrev closes0 (i : grid0.Coords) : Prop := k0_cond2 i = 1#1
theorem closes0_all : ∀ t : Fin cfg0.N, closes0 (grid0.coords t) :=
  (by decide +kernel : ∀ t : Fin grid0.N, closes0 (grid0.coords t))

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel

theorem live0_3 : ∀ t : Fin cfg0.N, cfg0.idle 3 (grid0.coords t) = false := by decide +kernel

abbrev lhsM0 (t : Fin cfg0.N) : Memref sig .tc .vmem S1024x1024 .f32 := win0_0.stage (cfg0.slots t 0)
abbrev lhsW0 (t : Fin cfg0.N) : (lhsM0 t).IsWhole := hstage0_0 ((cfg0.slots t 0).cast nbuf0_0)
abbrev rhsM0 (t : Fin cfg0.N) : Memref sig .tc .vmem S1024x1024 .f32 := win0_1.stage (cfg0.slots t 1)
abbrev rhsW0 (t : Fin cfg0.N) : (rhsM0 t).IsWhole := hstage0_1 ((cfg0.slots t 1).cast nbuf0_1)
abbrev biasM0 (t : Fin cfg0.N) : Memref sig .tc .vmem S1x1024 .f32 := win0_2.stage (cfg0.slots t 2)
abbrev biasW0 (t : Fin cfg0.N) : (biasM0 t).IsWhole := hstage0_2 ((cfg0.slots t 2).cast nbuf0_2)
abbrev outM0 (t : Fin cfg0.N) : Memref sig .tc .vmem S1024x1024 .f32 := win0_3.stage (cfg0.slots t 3)
abbrev outW0 (t : Fin cfg0.N) : (outM0 t).IsWhole := hstage0_3 ((cfg0.slots t 3).cast nbuf0_3)

abbrev accM0 : Memref sig .tc .vmem S1024x1024 .f32 := Memref.whole cc0_scratch0

def beside0 (c : Dev nD) : sProp 𝕄 :=
  iprop(Pipeline.scopedRestBut (Ix := Unit) (Name := ℕ) (U := UR sig nD τ) (Lvl := ℕ) (Val := Elt F) spec0 c [cc0_scratch0] ∗ (∃ r, prngReg c r))

theorem scoped0_eq (c : Dev nD) :
    (Pipeline.scopedRest (Ix := Unit) (Name := ℕ) (U := UR sig nD τ) (Lvl := ℕ) (Val := Elt F) spec0 c : sProp 𝕄)
      = iprop((∃ d, owns (c : Thread nD τ) accM0 fullShare d)
          ∗ Pipeline.scopedRestBut (Ix := Unit) (Name := ℕ) (U := UR sig nD τ) (Lvl := ℕ) (Val := Elt F) spec0 c [cc0_scratch0]) := by
  rw [scopedRest0_split]; simp only [accM0, owns_whole]; try rfl

end Cert.KernelIdeal.Linear

end
-- ==== Proof.KernelIdeal.Layer0.Steps.lean ====
import proofs.«134883_j40123584479654_1_alg».proof.Proof.KernelIdeal.Layer0.Setting

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem origin0 : (![0, 0] : Fin S1024x1024.rank → ℕ) = fun _ => 0 := by
  funext a; fin_cases a <;> rfl
theorem originRow0 : (![0, 0] : Fin S1x1024.rank → ℕ) = fun _ => 0 := by
  funext a; fin_cases a <;> rfl

set_option maxHeartbeats 4000000 in
theorem stepWhole0 (c : Dev nD) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : opens0 i) (hc1 : closes0 i) (x0 x1 : Vec F S1024x1024 .f32) (x2 : Vec F S1x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 x0 x1 (k0_pay1 (F := F))) x2)
            ∗ owns (c : Thread nD τ) arg7 fullShare (k0_pay2 x0 x1 (k0_pay1 (F := F)))) -∗ K ⟨⟩))
      ⊢ wp frame (wpE (defs₀ (F := F)) Variants.none c none) E (cc0__linear_kernel i arg3 harg3 arg4 harg4 arg5 harg5 arg6 harg6 arg7 harg7) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, ⟨%ds0, %fs0, -, HS0⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_cons_self, View.mem_set_unit_zero origin0 inb_S1024x1024_S1024x1024_0_0 y⟩),
      View.canon_cons_unit_zero (S := S1024x1024) origin0]
    rw [View.readCov_unit_zero (S := S1024x1024) _ origin0]
    rw [View.readCov_eq_canon_ld _ _ _ (fun y => ⟨_, List.mem_cons_self, View.mem_set_unit_zero origin0 inb_S1024x1024_S1024x1024_0_0 y⟩),
      View.canon_cons_unit_zero (S := S1024x1024) origin0]
    simp only [View.readAt_eq_ld, harg3.read_unread, harg4.read_unread, harg5.read_unread,
      View.ld_unit_zero (S := S1024x1024) origin0, View.ld_unit_zero (S := S1x1024) originRow0]
  iexists _; isplitr
  swap; · iexact HS0
  ipureintro
  sl_unfold_words
  rw [View.read_writes_eq_canon _ _ _ (fun y => ⟨_, List.mem_cons_self, View.mem_set_unit_zero origin0 inb_S1024x1024_S1024x1024_0_0 y⟩),
    View.canon_cons_unit_zero (S := S1024x1024) origin0]
  rw [View.readCov_unit_zero (S := S1024x1024) _ origin0]
  simp only [View.readAt_eq_ld, harg3.read_unread, harg4.read_unread, View.ld_unit_zero (S := S1024x1024) origin0]

end Cert.KernelIdeal.Linear

end
-- ==== Proof.KernelIdeal.Layer0.Accum.lean ====
import proofs.«134883_j40123584479654_1_alg».proof.Proof.KernelIdeal.Layer0.Steps

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def sumAt0 (c : Dev nD) (t : Fin cfg0.N) : Vec F S1024x1024 .f32 :=
  k0_pay2 (tile0 V c 0 t) (tile0 V c 1 t) (k0_pay1 (F := F))

def outAt0 (c : Dev nD) (t : Fin cfg0.N) : Vec F S1024x1024 .f32 :=
  k0_pay3 (sumAt0 V c t) (tile0 V c 2 t)

def keeps0 (c : Dev nD) : sProp 𝕄 :=
  iprop((∃ d, owns (c : Thread nD τ) accM0 fullShare d) ∗ beside0 (F := F) c)

def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => outAt0 V c t
  Φ _ := keeps0 (F := F) c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tile0 V c 0 t := by dsimp only [dat0]
theorem after0_1 (c : Dev nD) (t : Fin cfg0.N) : (dat0 V c).after 1 t = tile0 V c 1 t := by dsimp only [dat0]
theorem after0_2 (c : Dev nD) (t : Fin cfg0.N) : (dat0 V c).after 2 t = tile0 V c 2 t := by dsimp only [dat0]
theorem after0_3 (c : Dev nD) (t : Fin cfg0.N) : (dat0 V c).after 3 t = outAt0 V c t := by dsimp only [dat0]

theorem found0_0 (c : Dev nD) (t : Fin cfg0.N) (d) : (dat0 V c).before 0 t d = tile0 V c 0 t :=
  found0_0_of V (dat0 V c) (A_eq0 V c 0) (after0_0 V c) t d
theorem found0_1 (c : Dev nD) (t : Fin cfg0.N) (d) : (dat0 V c).before 1 t d = tile0 V c 1 t :=
  found0_1_of V (dat0 V c) (A_eq0 V c 1) (after0_1 V c) t d
theorem found0_2 (c : Dev nD) (t : Fin cfg0.N) (d) : (dat0 V c).before 2 t d = tile0 V c 2 t :=
  found0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (lhsM0 t) fullShare ((dat0 V c).before 0 t d))
    ∗ (∃ d, owns (c : Thread nD τ) (rhsM0 t) fullShare ((dat0 V c).before 1 t d))
    ∗ (∃ d, owns (c : Thread nD τ) (biasM0 t) fullShare ((dat0 V c).before 2 t d))
    ∗ (∃ d, owns (c : Thread nD τ) (outM0 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1, found0_2]
  rw [show (dat0 V c).owesAt () t.succ = (dat0 V c).owesAt () t.castSucc from rfl]
  rw [show (dat0 V c).Φ t.succ = keeps0 (F := F) c from rfl, show (dat0 V c).Φ t.castSucc = keeps0 (F := F) c from rfl]
  rw [show (dat0 V c).leavesExact 0 t = owns (c : Thread nD τ) (lhsM0 t) fullShare ((dat0 V c).after 0 t) from by
    unfold Dat.leavesExact; rw [live0_0 t], after0_0]
  rw [show (dat0 V c).leavesExact 1 t = owns (c : Thread nD τ) (rhsM0 t) fullShare ((dat0 V c).after 1 t) from by
    unfold Dat.leavesExact; rw [live0_1 t], after0_1]
  rw [show (dat0 V c).leavesExact 2 t = owns (c : Thread nD τ) (biasM0 t) fullShare ((dat0 V c).after 2 t) from by
    unfold Dat.leavesExact; rw [live0_2 t], after0_2]
  rw [show (dat0 V c).leavesExact 3 t = owns (c : Thread nD τ) (outM0 t) fullShare ((dat0 V c).after 3 t) from by
    unfold Dat.leavesExact; rw [live0_3 t], after0_3]
  unfold outAt0 sumAt0 keeps0
  iintro ⟨⟨HS, HB⟩, Ho, ⟨%d0, H0⟩, ⟨%d1, H1⟩, ⟨%d2, H2⟩, ⟨%d3, H3⟩⟩
  iapply (stepWhole0 c (grid0.coords t) _ _ _ _ _ _ _ _ _ _ (opens0_all t) (closes0_all t) (tile0 V c 0 t) (tile0 V c 1 t) (tile0 V c 2 t) Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HB]
  · isplitl [HS]; · iexists _; iexact HS
    iexact HB
  isplitl [Ho]; · iexact Ho
  isplitl [H0]; · iexact H0
  isplitl [H1]; · iexact H1
  isplitl [H2]; · iexact H2
  iexact H3

theorem obligation0 (c : Dev nD) : BodyObligation (dat0 (F := F) V c) (defs₀ (F := F)) Variants.none () Set.univ := fun t => by
  rw [bigSep_W0, bigSep_W0]
  exact sound_body0 V c t

theorem enter0 (c : Dev nD) :
    iprop((∃ r, prngReg c r) ∗ Pipeline.scopedRest (Ix := Unit) (Name := ℕ) (U := UR sig nD τ) (Lvl := ℕ) (Val := Elt F) spec0 c)
      ⊢ (dat0 V c).Φ 0 := by
  rw [show (dat0 V c).Φ 0 = keeps0 (F := F) c from rfl, scoped0_eq]
  unfold keeps0 beside0
  iintro ⟨Hp, HS, HR⟩
  isplitl [HS]; · iexact HS
  isplitl [HR]; · iexact HR
  iexact Hp

theorem leave0 (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = keeps0 (F := F) c from rfl, scoped0_eq]
  unfold keeps0 beside0
  iintro ⟨HS, HR, Hp⟩
  isplitl [Hp]; · iexact Hp
  isplitl [HS]; · iexact HS
  iexact HR

end Cert.KernelIdeal.Linear

end
-- ==== Proof.KernelIdeal.Flow.Stage0.lean ====
import proofs.«134883_j40123584479654_1_alg».proof.Proof.KernelIdeal.Flow.Start
import proofs.«134883_j40123584479654_1_alg».proof.Proof.KernelIdeal.Layer0.Accum
import proofs.«134883_j40123584479654_1_alg».proof.Proof.Region

set_option maxRecDepth 16384

noncomputable section

namespace Cert.KernelIdeal.Linear

open Cert.KernelIdeal Cert.KernelIdeal.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev into0 : Dev nD → Valuation τ sig (Elt F) := fun c => StableHlo.after hostOps0 (atLaunch m c)
abbrev entry0 : (c : Dev nD) → (b : Ref sig .tc) → Buf (Elt F) ((c : Thread nD τ).loc b) := fun c b => into0 m c b

def past0 (c : Dev nD) : Valuation τ sig (Elt F) := past (dat0 (entry0 m) c) (into0 m c)

theorem past0_arr (c : Dev nD) (w : Fin cfg0.W) :
    past0 m c (Proc.devRef .tc (Pipeline.arrRef spec0 w)) = (dat0 (entry0 m) c).arrAt w cfg0.N :=
  past_arr _ _ launch0.win.arr_inj w

theorem into0_keeps (c : Dev nD) (r : Ref sig .tc) (h : r ∉ hostOps0_W) : into0 m c r = atLaunch m c r :=
  StableHlo.after_of_writes_sub hostOps0 _ hostOps0_writes h

theorem past0_keeps (c : Dev nD) (r : Ref sig .tc) (h : ∀ w, Pipeline.arrRef spec0 w = r → (cfg0.win w).isOut = false) :
    past0 m c r = into0 m c r :=
  past_keeps _ _ launch0.win.arr_inj (A_eq0 (entry0 m) c) r h

end Cert.KernelIdeal.Linear

end
-- ==== Proof.KernelIdeal.Layer1.Setting.lean ====
import proofs.«134883_j40123584479654_1_alg».proof.Proof.Gen.KernelIdeal.Launch
import proofs.«134883_j40123584479654_1_alg».proof.Proof.Gen.KernelIdeal.Skeleton
import proofs.«134883_j40123584479654_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev opens1 (i : grid1.Coords) : Prop := (Scalar.cmpi .ne (Scalar.extui (Scalar.cmpi .eq (BitVec.ofNat 32 (i 2).val) 0#32)) 0#32) = 1#1
theorem opens1_iff : ∀ t : Fin cfg1.N, opens1 (grid1.coords t) ↔ t.val % 4 = 0 :=
  (by decide +kernel : ∀ t : Fin grid1.N, opens1 (grid1.coords t) ↔ t.val % 4 = 0)

abbrev closes1 (i : grid1.Coords) : Prop := k1_cond2 i = 1#1
theorem closes1_iff : ∀ t : Fin cfg1.N, closes1 (grid1.coords t) ↔ t.val % 4 = 3 :=
  (by decide +kernel : ∀ t : Fin grid1.N, closes1 (grid1.coords t) ↔ t.val % 4 = 3)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel

theorem rests1 : ∀ t : Fin cfg1.N, ¬closes1 (grid1.coords t) → cfg1.idle 3 (grid1.coords t) = true := by decide +kernel
theorem unflushed1 : ∀ t : Fin cfg1.N, ¬closes1 (grid1.coords t) → (cfg1.win 3).flush t = false := by decide +kernel

theorem live1_3 : ∀ t : Fin cfg1.N, closes1 (grid1.coords t) → cfg1.idle 3 (grid1.coords t) = false := by decide +kernel

abbrev lhsM1 (t : Fin cfg1.N) : Memref sig .tc .vmem S1024x1024 .f32 := win1_0.stage (cfg1.slots t 0)
abbrev lhsW1 (t : Fin cfg1.N) : (lhsM1 t).IsWhole := hstage1_0 ((cfg1.slots t 0).cast nbuf1_0)
abbrev rhsM1 (t : Fin cfg1.N) : Memref sig .tc .vmem S1024x1024 .f32 := win1_1.stage (cfg1.slots t 1)
abbrev rhsW1 (t : Fin cfg1.N) : (rhsM1 t).IsWhole := hstage1_1 ((cfg1.slots t 1).cast nbuf1_1)
abbrev biasM1 (t : Fin cfg1.N) : Memref sig .tc .vmem S1x1024 .f32 := win1_2.stage (cfg1.slots t 2)
abbrev biasW1 (t : Fin cfg1.N) : (biasM1 t).IsWhole := hstage1_2 ((cfg1.slots t 2).cast nbuf1_2)
abbrev outM1 (t : Fin cfg1.N) : Memref sig .tc .vmem S1024x1024 .f32 := win1_3.stage (cfg1.slots t 3)
abbrev outW1 (t : Fin cfg1.N) : (outM1 t).IsWhole := hstage1_3 ((cfg1.slots t 3).cast nbuf1_3)

abbrev accM1 : Memref sig .tc .vmem S1024x1024 .f32 := Memref.whole cc1_scratch0

def beside1 (c : Dev nD) : sProp 𝕄 :=
  iprop(Pipeline.scopedRestBut (Ix := Unit) (Name := ℕ) (U := UR sig nD τ) (Lvl := ℕ) (Val := Elt F) spec1 c [cc1_scratch0] ∗ (∃ r, prngReg c r))

theorem scoped1_eq (c : Dev nD) :
    (Pipeline.scopedRest (Ix := Unit) (Name := ℕ) (U := UR sig nD τ) (Lvl := ℕ) (Val := Elt F) spec1 c : sProp 𝕄)
      = iprop((∃ d, owns (c : Thread nD τ) accM1 fullShare d)
          ∗ Pipeline.scopedRestBut (Ix := Unit) (Name := ℕ) (U := UR sig nD τ) (Lvl := ℕ) (Val := Elt F) spec1 c [cc1_scratch0]) := by
  rw [scopedRest1_split]; simp only [accM1, owns_whole]; try rfl

end Cert.KernelIdeal.Linear

end
-- ==== Proof.KernelIdeal.Layer1.Steps.lean ====
import proofs.«134883_j40123584479654_1_alg».proof.Proof.KernelIdeal.Layer1.Setting

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem origin1 : (![0, 0] : Fin S1024x1024.rank → ℕ) = fun _ => 0 := by
  funext a; fin_cases a <;> rfl
theorem originRow1 : (![0, 0] : Fin S1x1024.rank → ℕ) = fun _ => 0 := by
  funext a; fin_cases a <;> rfl

variable (c : Dev nD) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)

set_option maxHeartbeats 4000000 in
theorem stepOpen1 (hc0 : opens1 i) (hc1 : ¬closes1 i) (x0 x1 : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1
            ∗ owns (c : Thread nD τ) arg7 fullShare (k1_pay2 x0 x1 (k1_pay1 (F := F)))) -∗ K ⟨⟩))
      ⊢ wp frame (wpE (defs₀ (F := F)) Variants.none c none) E (cc1__linear_kernel i arg3 harg3 arg4 harg4 arg5 harg5 arg6 harg6 arg7 harg7) K := by
  simp only [cc1__linear_kernel_eq_skeleton]; unfold cc1__linear_kernel_skel
  unfold owns
  iintro ⟨⟨%f0, %hf0, H0⟩, ⟨%f1, %hf1, H1⟩, ⟨%ds0, %fs0, -, HS0⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_cons_self, View.mem_set_unit_zero origin1 inb_S1024x1024_S1024x1024_0_0 y⟩),
    View.canon_cons_unit_zero (S := S1024x1024) origin1]
  rw [View.readCov_unit_zero (S := S1024x1024) _ origin1]
  simp only [View.readAt_eq_ld, harg3.read_unread, harg4.read_unread, View.ld_unit_zero (S := S1024x1024) origin1]

set_option maxHeartbeats 4000000 in
theorem stepOn1 (hc0 : ¬opens1 i) (hc1 : ¬closes1 i) (x0 x1 a : Vec F S1024x1024 .f32) (E : Set ℕ) (K : PUnit → sProp 𝕄) :
    iprop(owns (c : Thread nD τ) arg3 fullShare x0 ∗ owns (c : Thread nD τ) arg4 fullShare x1 ∗ owns (c : Thread nD τ) arg7 fullShare a
        ∗ (iprop(owns (c : Thread nD τ) arg3 fullShare x0 ∗ owns (c : Thread nD τ) arg4 fullShare x1
            ∗ owns (c : Thread nD τ) arg7 fullShare (k1_pay2 x0 x1 a)) -∗ K ⟨⟩))
      ⊢ wp frame (wpE (defs₀ (F := F)) Variants.none c none) E (cc1__linear_kernel i arg3 harg3 arg4 harg4 arg5 harg5 arg6 harg6 arg7 harg7) K := by
  simp only [cc1__linear_kernel_eq_skeleton]; unfold cc1__linear_kernel_skel
  unfold owns
  iintro ⟨⟨%f0, %hf0, H0⟩, ⟨%f1, %hf1, H1⟩, ⟨%fs0, %hfs0, HS0⟩, Hk⟩
  obtain rfl := harg3.eq_unread hf0; obtain rfl := harg4.eq_unread hf1; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_cons_self, View.mem_set_unit_zero origin1 inb_S1024x1024_S1024x1024_0_0 y⟩),
    View.canon_cons_unit_zero (S := S1024x1024) origin1]
  simp only [View.readAt_eq_ld, harg3.read_unread, harg4.read_unread, harg7.read_unread, View.ld_unit_zero (S := S1024x1024) origin1]

set_option maxHeartbeats 4000000 in
theorem stepClose1 (hc0 : ¬opens1 i) (hc1 : closes1 i) (x0 x1 a : Vec F S1024x1024 .f32) (x2 : Vec F S1x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare a
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 a) x2)
            ∗ owns (c : Thread nD τ) arg7 fullShare (k1_pay2 x0 x1 a)) -∗ K ⟨⟩))
      ⊢ wp frame (wpE (defs₀ (F := F)) Variants.none c none) E (cc1__linear_kernel i arg3 harg3 arg4 harg4 arg5 harg5 arg6 harg6 arg7 harg7) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg3.eq_unread hf0; obtain rfl := harg4.eq_unread hf1; obtain rfl := harg5.eq_unread hf2; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_cons_self, View.mem_set_unit_zero origin1 inb_S1024x1024_S1024x1024_0_0 y⟩),
      View.canon_cons_unit_zero (S := S1024x1024) origin1]
    rw [View.readCov_unit_zero (S := S1024x1024) _ origin1]
    simp only [View.readAt_eq_ld, harg3.read_unread, harg4.read_unread, harg5.read_unread, harg7.read_unread,
      View.ld_unit_zero (S := S1024x1024) origin1, View.ld_unit_zero (S := S1x1024) originRow1]
  iexists _; isplitr
  swap; · iexact HS0
  ipureintro
  sl_unfold_words
  rw [View.read_writes_eq_canon _ _ _ (fun y => ⟨_, List.mem_cons_self, View.mem_set_unit_zero origin1 inb_S1024x1024_S1024x1024_0_0 y⟩),
    View.canon_cons_unit_zero (S := S1024x1024) origin1]
  simp only [View.readAt_eq_ld, harg3.read_unread, harg4.read_unread, harg7.read_unread, View.ld_unit_zero (S := S1024x1024) origin1]

end Cert.KernelIdeal.Linear

end
-- ==== Proof.KernelIdeal.Layer1.Accum.lean ====
import proofs.«134883_j40123584479654_1_alg».proof.Proof.KernelIdeal.Layer1.Setting
import proofs.«134883_j40123584479654_1_alg».proof.Proof.KernelIdeal.Layer1.Steps
import proofs.«134883_j40123584479654_1_alg».proof.Proof.Accumulate

set_option maxRecDepth 16384

noncomputable section

namespace Cert.KernelIdeal.Linear

open Cert.KernelIdeal Cert.KernelIdeal.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev sumAt1 (c : Dev nD) : (n : ℕ) → n < cfg1.N → Vec F S1024x1024 .f32 :=
  sumAt (α := Vec F S1024x1024 .f32) (N := cfg1.N) (fun t => tile1 V c 0 t) (fun t => tile1 V c 1 t) (k1_pay1 (F := F)) k1_pay2

def outAt1 (c : Dev nD) (t : Fin cfg1.N) : Vec F S1024x1024 .f32 :=
  k1_pay3 (sumAt1 V c t.val t.isLt) (tile1 V c 2 t)

abbrev keeps1 (c : Dev nD) : (n : ℕ) → n ≤ cfg1.N → sProp 𝕄 :=
  keeps c accM1 (sumAt1 V c) (beside1 (F := F) c)

def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => outAt1 V c t
  Φ t := keeps1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem keeps1_castSucc (c : Dev nD) (t : Fin cfg1.N) :
    (dat1 V c).Φ t.castSucc = keeps1 V c t.val (Nat.le_of_lt t.isLt) := by
  dsimp only [dat1]; simp only [Fin.coe_castSucc]

theorem after1_0 (c : Dev nD) (t : Fin cfg1.N) : (dat1 V c).after 0 t = tile1 V c 0 t := by dsimp only [dat1]
theorem after1_1 (c : Dev nD) (t : Fin cfg1.N) : (dat1 V c).after 1 t = tile1 V c 1 t := by dsimp only [dat1]
theorem after1_2 (c : Dev nD) (t : Fin cfg1.N) : (dat1 V c).after 2 t = tile1 V c 2 t := by dsimp only [dat1]
theorem after1_3 (c : Dev nD) (t : Fin cfg1.N) : (dat1 V c).after 3 t = outAt1 V c t := by dsimp only [dat1]

theorem found1_0 (c : Dev nD) (t : Fin cfg1.N) (d) : (dat1 V c).before 0 t d = tile1 V c 0 t :=
  ((dat1 V c).before_in_eq_fetched 0 rfl (fun _ => rfl) (fun _ _ _ => rfl)
    (fun t => by rw [after1_0]; unfold Dat.blockOf tile1; rw [A_eq1]; try rfl) t d).trans
    (by unfold Dat.fetched Dat.blockOf tile1; rw [A_eq1]; try rfl)
theorem found1_1 (c : Dev nD) (t : Fin cfg1.N) (d) : (dat1 V c).before 1 t d = tile1 V c 1 t :=
  ((dat1 V c).before_in_eq_fetched 1 rfl (fun _ => rfl) (fun _ _ _ => rfl)
    (fun t => by rw [after1_1]; unfold Dat.blockOf tile1; rw [A_eq1]; try rfl) t d).trans
    (by unfold Dat.fetched Dat.blockOf tile1; rw [A_eq1]; try rfl)
theorem found1_2 (c : Dev nD) (t : Fin cfg1.N) (d) : (dat1 V c).before 2 t d = tile1 V c 2 t :=
  ((dat1 V c).before_in_eq_fetched 2 rfl (fun _ => rfl) (fun _ _ _ => rfl)
    (fun t => by rw [after1_2]; unfold Dat.blockOf tile1; rw [A_eq1]; try rfl) t d).trans
    (by unfold Dat.fetched Dat.blockOf tile1; rw [A_eq1]; try rfl)

theorem sound_body1 (c : Dev nD) (t : Fin cfg1.N) :
    bodyPre (dat1 V c) t 0 1 2 3
      ⊢ wp frame (wpE (defs₀ (F := F)) Variants.none c none) Set.univ (bodyAt1 t) (fun _ => bodyPost (dat1 V c) t 0 1 2 3) := by
  unfold bodyPre bodyPost bodyAt1
  simp only [found1_0, found1_1, found1_2]
  rw [show (dat1 V c).owesAt () t.succ = (dat1 V c).owesAt () t.castSucc from rfl,
    show (dat1 V c).Φ t.succ = iprop(owns (c : Thread nD τ) accM1 fullShare (sumAt1 V c t.val t.isLt) ∗ beside1 (F := F) c) from rfl,
    leavesExact_live _ t 0 (live1_0 t), leavesExact_live _ t 1 (live1_1 t), leavesExact_live _ t 2 (live1_2 t),
    after1_0, after1_1, after1_2, keeps1_castSucc V c t]
  have hnc : ¬t.val % 4 = 3 → ¬closes1 (grid1.coords t) := fun h1 h => h1 ((closes1_iff t).mp h)
  have hno : ¬t.val % 4 = 0 → ¬opens1 (grid1.coords t) := fun h0 h => h0 ((opens1_iff t).mp h)
  exact sound_point (defs₀ (F := F)) c _ (lhsM1 t) (rhsM1 t) (outM1 t) accM1 (biasM1 t)
    (fun t => tile1 V c 0 t) (fun t => tile1 V c 1 t) (tile1 V c 2 t) (k1_pay1 (F := F)) k1_pay2 k1_pay3 t
    (fun d => (dat1 V c).before 3 t d) (beside1 (F := F) c) ((dat1 V c).owesAt () t.castSucc) ((dat1 V c).leavesExact 3 t)
    (fun h1 => Dat.leavesExact_idle (dat1 V c) 3 t (rests1 t (hnc h1)) (unflushed1 t (hnc h1)))
    (fun h1 => (leavesExact_live _ t 3 (live1_3 t ((closes1_iff t).mpr h1))).trans (by rw [after1_3]; rfl))
    (fun h0 K => stepOpen1 c (grid1.coords t) (lhsM1 t) (lhsW1 t) (rhsM1 t) (rhsW1 t) (biasM1 t) (biasW1 t) (outM1 t) (outW1 t) accM1 (Memref.isWhole_whole _) ((opens1_iff t).mpr h0) (hnc (by omega)) _ _ Set.univ K)
    (fun h0 h1 a K => stepOn1 c (grid1.coords t) (lhsM1 t) (lhsW1 t) (rhsM1 t) (rhsW1 t) (biasM1 t) (biasW1 t) (outM1 t) (outW1 t) accM1 (Memref.isWhole_whole _) (hno h0) (hnc h1) _ _ a Set.univ K)
    (fun h0 h1 a K => stepClose1 c (grid1.coords t) (lhsM1 t) (lhsW1 t) (rhsM1 t) (rhsW1 t) (biasM1 t) (biasW1 t) (outM1 t) (outW1 t) accM1 (Memref.isWhole_whole _) (hno h0) ((closes1_iff t).mpr h1) _ _ a _ Set.univ K)

theorem obligation1 (c : Dev nD) : BodyObligation (dat1 (F := F) V c) (defs₀ (F := F)) Variants.none () Set.univ := fun t => by
  rw [bigSep_W1, bigSep_W1]
  exact sound_body1 V c t

theorem enter1 (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [scoped1_eq]
  exact enter_of c accM1 (sumAt1 V c) _ _

theorem leave1 (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [scoped1_eq]
  exact leave_of c accM1 (sumAt1 V c) _ _ cfg1.N (Nat.le_refl _)

end Cert.KernelIdeal.Linear

end
-- ==== Proof.KernelIdeal.Flow.Stage1.lean ====
import proofs.«134883_j40123584479654_1_alg».proof.Proof.KernelIdeal.Flow.Stage0
import proofs.«134883_j40123584479654_1_alg».proof.Proof.KernelIdeal.Layer1.Accum
import proofs.«134883_j40123584479654_1_alg».proof.Proof.Region

set_option maxRecDepth 16384

noncomputable section

namespace Cert.KernelIdeal.Linear

open Cert.KernelIdeal Cert.KernelIdeal.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev into1 : Dev nD → Valuation τ sig (Elt F) := fun c => StableHlo.after hostOps1 (past0 m c)
abbrev entry1 : (c : Dev nD) → (b : Ref sig .tc) → Buf (Elt F) ((c : Thread nD τ).loc b) := fun c b => into1 m c b

def past1 (c : Dev nD) : Valuation τ sig (Elt F) := past (dat1 (entry1 m) c) (into1 m c)

theorem past1_arr (c : Dev nD) (w : Fin cfg1.W) :
    past1 m c (Proc.devRef .tc (Pipeline.arrRef spec1 w)) = (dat1 (entry1 m) c).arrAt w cfg1.N :=
  past_arr _ _ launch1.win.arr_inj w

theorem into1_keeps (c : Dev nD) (r : Ref sig .tc) (h : r ∉ hostOps1_W) : into1 m c r = past0 m c r :=
  StableHlo.after_of_writes_sub hostOps1 _ hostOps1_writes h

theorem past1_keeps (c : Dev nD) (r : Ref sig .tc) (h : ∀ w, Pipeline.arrRef spec1 w = r → (cfg1.win w).isOut = false) :
    past1 m c r = into1 m c r :=
  past_keeps _ _ launch1.win.arr_inj (A_eq1 (entry1 m) c) r h

end Cert.KernelIdeal.Linear

end
-- ==== Proof.KernelIdeal.Layer2.Setting.lean ====
import proofs.«134883_j40123584479654_1_alg».proof.Proof.Gen.KernelIdeal.Launch
import proofs.«134883_j40123584479654_1_alg».proof.Proof.Gen.KernelIdeal.Skeleton
import proofs.«134883_j40123584479654_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev opens2 (i : grid2.Coords) : Prop := (Scalar.cmpi .ne (Scalar.extui (Scalar.cmpi .eq (BitVec.ofNat 32 (i 2).val) 0#32)) 0#32) = 1#1
theorem opens2_iff : ∀ t : Fin cfg2.N, opens2 (grid2.coords t) ↔ t.val % 4 = 0 :=
  (by decide +kernel : ∀ t : Fin grid2.N, opens2 (grid2.coords t) ↔ t.val % 4 = 0)

abbrev closes2 (i : grid2.Coords) : Prop := k2_cond2 i = 1#1
theorem closes2_iff : ∀ t : Fin cfg2.N, closes2 (grid2.coords t) ↔ t.val % 4 = 3 :=
  (by decide +kernel : ∀ t : Fin grid2.N, closes2 (grid2.coords t) ↔ t.val % 4 = 3)

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel

theorem rests2 : ∀ t : Fin cfg2.N, ¬closes2 (grid2.coords t) → cfg2.idle 3 (grid2.coords t) = true := by decide +kernel
theorem unflushed2 : ∀ t : Fin cfg2.N, ¬closes2 (grid2.coords t) → (cfg2.win 3).flush t = false := by decide +kernel

theorem live2_3 : ∀ t : Fin cfg2.N, closes2 (grid2.coords t) → cfg2.idle 3 (grid2.coords t) = false := by decide +kernel

abbrev lhsM2 (t : Fin cfg2.N) : Memref sig .tc .vmem S1024x1024 .f32 := win2_0.stage (cfg2.slots t 0)
abbrev lhsW2 (t : Fin cfg2.N) : (lhsM2 t).IsWhole := hstage2_0 ((cfg2.slots t 0).cast nbuf2_0)
abbrev rhsM2 (t : Fin cfg2.N) : Memref sig .tc .vmem S1024x1024 .f32 := win2_1.stage (cfg2.slots t 1)
abbrev rhsW2 (t : Fin cfg2.N) : (rhsM2 t).IsWhole := hstage2_1 ((cfg2.slots t 1).cast nbuf2_1)
abbrev biasM2 (t : Fin cfg2.N) : Memref sig .tc .vmem S1x1024 .f32 := win2_2.stage (cfg2.slots t 2)
abbrev biasW2 (t : Fin cfg2.N) : (biasM2 t).IsWhole := hstage2_2 ((cfg2.slots t 2).cast nbuf2_2)
abbrev outM2 (t : Fin cfg2.N) : Memref sig .tc .vmem S1024x1024 .f32 := win2_3.stage (cfg2.slots t 3)
abbrev outW2 (t : Fin cfg2.N) : (outM2 t).IsWhole := hstage2_3 ((cfg2.slots t 3).cast nbuf2_3)

abbrev accM2 : Memref sig .tc .vmem S1024x1024 .f32 := Memref.whole cc2_scratch0

def beside2 (c : Dev nD) : sProp 𝕄 :=
  iprop(Pipeline.scopedRestBut (Ix := Unit) (Name := ℕ) (U := UR sig nD τ) (Lvl := ℕ) (Val := Elt F) spec2 c [cc2_scratch0] ∗ (∃ r, prngReg c r))

theorem scoped2_eq (c : Dev nD) :
    (Pipeline.scopedRest (Ix := Unit) (Name := ℕ) (U := UR sig nD τ) (Lvl := ℕ) (Val := Elt F) spec2 c : sProp 𝕄)
      = iprop((∃ d, owns (c : Thread nD τ) accM2 fullShare d)
          ∗ Pipeline.scopedRestBut (Ix := Unit) (Name := ℕ) (U := UR sig nD τ) (Lvl := ℕ) (Val := Elt F) spec2 c [cc2_scratch0]) := by
  rw [scopedRest2_split]; simp only [accM2, owns_whole]; try rfl

end Cert.KernelIdeal.Linear

end
-- ==== Proof.KernelIdeal.Layer2.Accum.lean ====
import proofs.«134883_j40123584479654_1_alg».proof.Proof.KernelIdeal.Layer2.Setting
import proofs.«134883_j40123584479654_1_alg».proof.Proof.KernelIdeal.Layer1.Steps
import proofs.«134883_j40123584479654_1_alg».proof.Proof.Accumulate

set_option maxRecDepth 16384

noncomputable section

namespace Cert.KernelIdeal.Linear

open Cert.KernelIdeal Cert.KernelIdeal.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev sumAt2 (c : Dev nD) : (n : ℕ) → n < cfg2.N → Vec F S1024x1024 .f32 :=
  sumAt (α := Vec F S1024x1024 .f32) (N := cfg2.N) (fun t => tile2 V c 0 t) (fun t => tile2 V c 1 t) (k1_pay1 (F := F)) k1_pay2

def outAt2 (c : Dev nD) (t : Fin cfg2.N) : Vec F S1024x1024 .f32 :=
  k1_pay3 (sumAt2 V c t.val t.isLt) (tile2 V c 2 t)

abbrev keeps2 (c : Dev nD) : (n : ℕ) → n ≤ cfg2.N → sProp 𝕄 :=
  keeps c accM2 (sumAt2 V c) (beside2 (F := F) c)

def dat2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => tile2 V c 2 t
    | ⟨3, _⟩ => outAt2 V c t
  Φ t := keeps2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem keeps2_castSucc (c : Dev nD) (t : Fin cfg2.N) :
    (dat2 V c).Φ t.castSucc = keeps2 V c t.val (Nat.le_of_lt t.isLt) := by
  dsimp only [dat2]; simp only [Fin.coe_castSucc]

theorem after2_0 (c : Dev nD) (t : Fin cfg2.N) : (dat2 V c).after 0 t = tile2 V c 0 t := by dsimp only [dat2]
theorem after2_1 (c : Dev nD) (t : Fin cfg2.N) : (dat2 V c).after 1 t = tile2 V c 1 t := by dsimp only [dat2]
theorem after2_2 (c : Dev nD) (t : Fin cfg2.N) : (dat2 V c).after 2 t = tile2 V c 2 t := by dsimp only [dat2]
theorem after2_3 (c : Dev nD) (t : Fin cfg2.N) : (dat2 V c).after 3 t = outAt2 V c t := by dsimp only [dat2]

theorem found2_0 (c : Dev nD) (t : Fin cfg2.N) (d) : (dat2 V c).before 0 t d = tile2 V c 0 t :=
  ((dat2 V c).before_in_eq_fetched 0 rfl (fun _ => rfl) (fun _ _ _ => rfl)
    (fun t => by rw [after2_0]; unfold Dat.blockOf tile2; rw [A_eq2]; try rfl) t d).trans
    (by unfold Dat.fetched Dat.blockOf tile2; rw [A_eq2]; try rfl)
theorem found2_1 (c : Dev nD) (t : Fin cfg2.N) (d) : (dat2 V c).before 1 t d = tile2 V c 1 t :=
  ((dat2 V c).before_in_eq_fetched 1 rfl (fun _ => rfl) (fun _ _ _ => rfl)
    (fun t => by rw [after2_1]; unfold Dat.blockOf tile2; rw [A_eq2]; try rfl) t d).trans
    (by unfold Dat.fetched Dat.blockOf tile2; rw [A_eq2]; try rfl)
theorem found2_2 (c : Dev nD) (t : Fin cfg2.N) (d) : (dat2 V c).before 2 t d = tile2 V c 2 t :=
  ((dat2 V c).before_in_eq_fetched 2 rfl (fun _ => rfl) (fun _ _ _ => rfl)
    (fun t => by rw [after2_2]; unfold Dat.blockOf tile2; rw [A_eq2]; try rfl) t d).trans
    (by unfold Dat.fetched Dat.blockOf tile2; rw [A_eq2]; try rfl)

theorem sound_body2 (c : Dev nD) (t : Fin cfg2.N) :
    bodyPre (dat2 V c) t 0 1 2 3
      ⊢ wp frame (wpE (defs₀ (F := F)) Variants.none c none) Set.univ (bodyAt2 t) (fun _ => bodyPost (dat2 V c) t 0 1 2 3) := by
  unfold bodyPre bodyPost bodyAt2
  simp only [found2_0, found2_1, found2_2]
  rw [show (dat2 V c).owesAt () t.succ = (dat2 V c).owesAt () t.castSucc from rfl,
    show (dat2 V c).Φ t.succ = iprop(owns (c : Thread nD τ) accM2 fullShare (sumAt2 V c t.val t.isLt) ∗ beside2 (F := F) c) from rfl,
    leavesExact_live _ t 0 (live2_0 t), leavesExact_live _ t 1 (live2_1 t), leavesExact_live _ t 2 (live2_2 t),
    after2_0, after2_1, after2_2, keeps2_castSucc V c t]
  have hnc : ¬t.val % 4 = 3 → ¬closes2 (grid2.coords t) := fun h1 h => h1 ((closes2_iff t).mp h)
  have hno : ¬t.val % 4 = 0 → ¬opens2 (grid2.coords t) := fun h0 h => h0 ((opens2_iff t).mp h)
  exact sound_point (defs₀ (F := F)) c _ (lhsM2 t) (rhsM2 t) (outM2 t) accM2 (biasM2 t)
    (fun t => tile2 V c 0 t) (fun t => tile2 V c 1 t) (tile2 V c 2 t) (k1_pay1 (F := F)) k1_pay2 k1_pay3 t
    (fun d => (dat2 V c).before 3 t d) (beside2 (F := F) c) ((dat2 V c).owesAt () t.castSucc) ((dat2 V c).leavesExact 3 t)
    (fun h1 => Dat.leavesExact_idle (dat2 V c) 3 t (rests2 t (hnc h1)) (unflushed2 t (hnc h1)))
    (fun h1 => (leavesExact_live _ t 3 (live2_3 t ((closes2_iff t).mpr h1))).trans (by rw [after2_3]; rfl))
    (fun h0 K => stepOpen1 c (grid2.coords t) (lhsM2 t) (lhsW2 t) (rhsM2 t) (rhsW2 t) (biasM2 t) (biasW2 t) (outM2 t) (outW2 t) accM2 (Memref.isWhole_whole _) ((opens2_iff t).mpr h0) (hnc (by omega)) _ _ Set.univ K)
    (fun h0 h1 a K => stepOn1 c (grid2.coords t) (lhsM2 t) (lhsW2 t) (rhsM2 t) (rhsW2 t) (biasM2 t) (biasW2 t) (outM2 t) (outW2 t) accM2 (Memref.isWhole_whole _) (hno h0) (hnc h1) _ _ a Set.univ K)
    (fun h0 h1 a K => stepClose1 c (grid2.coords t) (lhsM2 t) (lhsW2 t) (rhsM2 t) (rhsW2 t) (biasM2 t) (biasW2 t) (outM2 t) (outW2 t) accM2 (Memref.isWhole_whole _) (hno h0) ((closes2_iff t).mpr h1) _ _ a _ Set.univ K)

theorem obligation2 (c : Dev nD) : BodyObligation (dat2 (F := F) V c) (defs₀ (F := F)) Variants.none () Set.univ := fun t => by
  rw [bigSep_W2, bigSep_W2]
  exact sound_body2 V c t

theorem enter2 (c : Dev nD) :
    iprop((∃ r, prngReg c r) ∗ Pipeline.scopedRest (Ix := Unit) (Name := ℕ) (U := UR sig nD τ) (Lvl := ℕ) (Val := Elt F) spec2 c)
      ⊢ (dat2 V c).Φ 0 := by
  rw [scoped2_eq]
  exact enter_of c accM2 (sumAt2 V c) _ _

theorem leave2 (c : Dev nD) :
    (dat2 V c).Φ (Fin.last cfg2.N)
      ⊢ iprop((∃ r, prngReg c r) ∗ Pipeline.scopedRest (Ix := Unit) (Name := ℕ) (U := UR sig nD τ) (Lvl := ℕ) (Val := Elt F) spec2 c) := by
  rw [scoped2_eq]
  exact leave_of c accM2 (sumAt2 V c) _ _ cfg2.N (Nat.le_refl _)

end Cert.KernelIdeal.Linear

end
-- ==== Proof.KernelIdeal.Flow.Stage2.lean ====
import proofs.«134883_j40123584479654_1_alg».proof.Proof.KernelIdeal.Flow.Stage1
import proofs.«134883_j40123584479654_1_alg».proof.Proof.KernelIdeal.Layer2.Accum
import proofs.«134883_j40123584479654_1_alg».proof.Proof.Region

set_option maxRecDepth 16384

noncomputable section

namespace Cert.KernelIdeal.Linear

open Cert.KernelIdeal Cert.KernelIdeal.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev into2 : Dev nD → Valuation τ sig (Elt F) := fun c => StableHlo.after hostOps2 (past1 m c)
abbrev entry2 : (c : Dev nD) → (b : Ref sig .tc) → Buf (Elt F) ((c : Thread nD τ).loc b) := fun c b => into2 m c b

def past2 (c : Dev nD) : Valuation τ sig (Elt F) := past (dat2 (entry2 m) c) (into2 m c)

theorem past2_arr (c : Dev nD) (w : Fin cfg2.W) :
    past2 m c (Proc.devRef .tc (Pipeline.arrRef spec2 w)) = (dat2 (entry2 m) c).arrAt w cfg2.N :=
  past_arr _ _ launch2.win.arr_inj w

theorem into2_keeps (c : Dev nD) (r : Ref sig .tc) (h : r ∉ hostOps2_W) : into2 m c r = past1 m c r :=
  StableHlo.after_of_writes_sub hostOps2 _ hostOps2_writes h

theorem past2_keeps (c : Dev nD) (r : Ref sig .tc) (h : ∀ w, Pipeline.arrRef spec2 w = r → (cfg2.win w).isOut = false) :
    past2 m c r = into2 m c r :=
  past_keeps _ _ launch2.win.arr_inj (A_eq2 (entry2 m) c) r h

end Cert.KernelIdeal.Linear

end
-- ==== Proof.KernelIdeal.Layer3.Setting.lean ====
import proofs.«134883_j40123584479654_1_alg».proof.Proof.Gen.KernelIdeal.Launch
import proofs.«134883_j40123584479654_1_alg».proof.Proof.Gen.KernelIdeal.Skeleton
import proofs.«134883_j40123584479654_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def tile3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev opens3 (i : grid3.Coords) : Prop := (Scalar.cmpi .ne (Scalar.extui (Scalar.cmpi .eq (BitVec.ofNat 32 (i 2).val) 0#32)) 0#32) = 1#1
theorem opens3_iff : ∀ t : Fin cfg3.N, opens3 (grid3.coords t) ↔ t.val % 4 = 0 :=
  (by decide +kernel : ∀ t : Fin grid3.N, opens3 (grid3.coords t) ↔ t.val % 4 = 0)

abbrev closes3 (i : grid3.Coords) : Prop := k3_cond2 i = 1#1
theorem closes3_iff : ∀ t : Fin cfg3.N, closes3 (grid3.coords t) ↔ t.val % 4 = 3 :=
  (by decide +kernel : ∀ t : Fin grid3.N, closes3 (grid3.coords t) ↔ t.val % 4 = 3)

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel

theorem rests3 : ∀ t : Fin cfg3.N, ¬closes3 (grid3.coords t) → cfg3.idle 3 (grid3.coords t) = true := by decide +kernel
theorem unflushed3 : ∀ t : Fin cfg3.N, ¬closes3 (grid3.coords t) → (cfg3.win 3).flush t = false := by decide +kernel

theorem live3_3 : ∀ t : Fin cfg3.N, closes3 (grid3.coords t) → cfg3.idle 3 (grid3.coords t) = false := by decide +kernel

abbrev lhsM3 (t : Fin cfg3.N) : Memref sig .tc .vmem S1024x1024 .f32 := win3_0.stage (cfg3.slots t 0)
abbrev lhsW3 (t : Fin cfg3.N) : (lhsM3 t).IsWhole := hstage3_0 ((cfg3.slots t 0).cast nbuf3_0)
abbrev rhsM3 (t : Fin cfg3.N) : Memref sig .tc .vmem S1024x1024 .f32 := win3_1.stage (cfg3.slots t 1)
abbrev rhsW3 (t : Fin cfg3.N) : (rhsM3 t).IsWhole := hstage3_1 ((cfg3.slots t 1).cast nbuf3_1)
abbrev biasM3 (t : Fin cfg3.N) : Memref sig .tc .vmem S1x1024 .f32 := win3_2.stage (cfg3.slots t 2)
abbrev biasW3 (t : Fin cfg3.N) : (biasM3 t).IsWhole := hstage3_2 ((cfg3.slots t 2).cast nbuf3_2)
abbrev outM3 (t : Fin cfg3.N) : Memref sig .tc .vmem S1024x1024 .f32 := win3_3.stage (cfg3.slots t 3)
abbrev outW3 (t : Fin cfg3.N) : (outM3 t).IsWhole := hstage3_3 ((cfg3.slots t 3).cast nbuf3_3)

abbrev accM3 : Memref sig .tc .vmem S1024x1024 .f32 := Memref.whole cc3_scratch0

def beside3 (c : Dev nD) : sProp 𝕄 :=
  iprop(Pipeline.scopedRestBut (Ix := Unit) (Name := ℕ) (U := UR sig nD τ) (Lvl := ℕ) (Val := Elt F) spec3 c [cc3_scratch0] ∗ (∃ r, prngReg c r))

theorem scoped3_eq (c : Dev nD) :
    (Pipeline.scopedRest (Ix := Unit) (Name := ℕ) (U := UR sig nD τ) (Lvl := ℕ) (Val := Elt F) spec3 c : sProp 𝕄)
      = iprop((∃ d, owns (c : Thread nD τ) accM3 fullShare d)
          ∗ Pipeline.scopedRestBut (Ix := Unit) (Name := ℕ) (U := UR sig nD τ) (Lvl := ℕ) (Val := Elt F) spec3 c [cc3_scratch0]) := by
  rw [scopedRest3_split]; simp only [accM3, owns_whole]; try rfl

end Cert.KernelIdeal.Linear

end
-- ==== Proof.KernelIdeal.Layer3.Accum.lean ====
import proofs.«134883_j40123584479654_1_alg».proof.Proof.KernelIdeal.Layer3.Setting
import proofs.«134883_j40123584479654_1_alg».proof.Proof.KernelIdeal.Layer1.Steps
import proofs.«134883_j40123584479654_1_alg».proof.Proof.Accumulate

set_option maxRecDepth 16384

noncomputable section

namespace Cert.KernelIdeal.Linear

open Cert.KernelIdeal Cert.KernelIdeal.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev sumAt3 (c : Dev nD) : (n : ℕ) → n < cfg3.N → Vec F S1024x1024 .f32 :=
  sumAt (α := Vec F S1024x1024 .f32) (N := cfg3.N) (fun t => tile3 V c 0 t) (fun t => tile3 V c 1 t) (k1_pay1 (F := F)) k1_pay2

def outAt3 (c : Dev nD) (t : Fin cfg3.N) : Vec F S1024x1024 .f32 :=
  k1_pay3 (sumAt3 V c t.val t.isLt) (tile3 V c 2 t)

abbrev keeps3 (c : Dev nD) : (n : ℕ) → n ≤ cfg3.N → sProp 𝕄 :=
  keeps c accM3 (sumAt3 V c) (beside3 (F := F) c)

def dat3 (c : Dev nD) : Dat τ (Elt F) Unit ℕ (UR sig nD τ) ℕ cfg3 c where
  A w := V c (Pipeline.arrRef spec3 w)
  after w t := match w with
    | ⟨0, _⟩ => tile3 V c 0 t
    | ⟨1, _⟩ => tile3 V c 1 t
    | ⟨2, _⟩ => tile3 V c 2 t
    | ⟨3, _⟩ => outAt3 V c t
  Φ t := keeps3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem keeps3_castSucc (c : Dev nD) (t : Fin cfg3.N) :
    (dat3 V c).Φ t.castSucc = keeps3 V c t.val (Nat.le_of_lt t.isLt) := by
  dsimp only [dat3]; simp only [Fin.coe_castSucc]

theorem after3_0 (c : Dev nD) (t : Fin cfg3.N) : (dat3 V c).after 0 t = tile3 V c 0 t := by dsimp only [dat3]
theorem after3_1 (c : Dev nD) (t : Fin cfg3.N) : (dat3 V c).after 1 t = tile3 V c 1 t := by dsimp only [dat3]
theorem after3_2 (c : Dev nD) (t : Fin cfg3.N) : (dat3 V c).after 2 t = tile3 V c 2 t := by dsimp only [dat3]
theorem after3_3 (c : Dev nD) (t : Fin cfg3.N) : (dat3 V c).after 3 t = outAt3 V c t := by dsimp only [dat3]

theorem found3_0 (c : Dev nD) (t : Fin cfg3.N) (d) : (dat3 V c).before 0 t d = tile3 V c 0 t :=
  ((dat3 V c).before_in_eq_fetched 0 rfl (fun _ => rfl) (fun _ _ _ => rfl)
    (fun t => by rw [after3_0]; unfold Dat.blockOf tile3; rw [A_eq3]; try rfl) t d).trans
    (by unfold Dat.fetched Dat.blockOf tile3; rw [A_eq3]; try rfl)
theorem found3_1 (c : Dev nD) (t : Fin cfg3.N) (d) : (dat3 V c).before 1 t d = tile3 V c 1 t :=
  ((dat3 V c).before_in_eq_fetched 1 rfl (fun _ => rfl) (fun _ _ _ => rfl)
    (fun t => by rw [after3_1]; unfold Dat.blockOf tile3; rw [A_eq3]; try rfl) t d).trans
    (by unfold Dat.fetched Dat.blockOf tile3; rw [A_eq3]; try rfl)
theorem found3_2 (c : Dev nD) (t : Fin cfg3.N) (d) : (dat3 V c).before 2 t d = tile3 V c 2 t :=
  ((dat3 V c).before_in_eq_fetched 2 rfl (fun _ => rfl) (fun _ _ _ => rfl)
    (fun t => by rw [after3_2]; unfold Dat.blockOf tile3; rw [A_eq3]; try rfl) t d).trans
    (by unfold Dat.fetched Dat.blockOf tile3; rw [A_eq3]; try rfl)

theorem sound_body3 (c : Dev nD) (t : Fin cfg3.N) :
    bodyPre (dat3 V c) t 0 1 2 3
      ⊢ wp frame (wpE (defs₀ (F := F)) Variants.none c none) Set.univ (bodyAt3 t) (fun _ => bodyPost (dat3 V c) t 0 1 2 3) := by
  unfold bodyPre bodyPost bodyAt3
  simp only [found3_0, found3_1, found3_2]
  rw [show (dat3 V c).owesAt () t.succ = (dat3 V c).owesAt () t.castSucc from rfl,
    show (dat3 V c).Φ t.succ = iprop(owns (c : Thread nD τ) accM3 fullShare (sumAt3 V c t.val t.isLt) ∗ beside3 (F := F) c) from rfl,
    leavesExact_live _ t 0 (live3_0 t), leavesExact_live _ t 1 (live3_1 t), leavesExact_live _ t 2 (live3_2 t),
    after3_0, after3_1, after3_2, keeps3_castSucc V c t]
  have hnc : ¬t.val % 4 = 3 → ¬closes3 (grid3.coords t) := fun h1 h => h1 ((closes3_iff t).mp h)
  have hno : ¬t.val % 4 = 0 → ¬opens3 (grid3.coords t) := fun h0 h => h0 ((opens3_iff t).mp h)
  exact sound_point (defs₀ (F := F)) c _ (lhsM3 t) (rhsM3 t) (outM3 t) accM3 (biasM3 t)
    (fun t => tile3 V c 0 t) (fun t => tile3 V c 1 t) (tile3 V c 2 t) (k1_pay1 (F := F)) k1_pay2 k1_pay3 t
    (fun d => (dat3 V c).before 3 t d) (beside3 (F := F) c) ((dat3 V c).owesAt () t.castSucc) ((dat3 V c).leavesExact 3 t)
    (fun h1 => Dat.leavesExact_idle (dat3 V c) 3 t (rests3 t (hnc h1)) (unflushed3 t (hnc h1)))
    (fun h1 => (leavesExact_live _ t 3 (live3_3 t ((closes3_iff t).mpr h1))).trans (by rw [after3_3]; rfl))
    (fun h0 K => stepOpen1 c (grid3.coords t) (lhsM3 t) (lhsW3 t) (rhsM3 t) (rhsW3 t) (biasM3 t) (biasW3 t) (outM3 t) (outW3 t) accM3 (Memref.isWhole_whole _) ((opens3_iff t).mpr h0) (hnc (by omega)) _ _ Set.univ K)
    (fun h0 h1 a K => stepOn1 c (grid3.coords t) (lhsM3 t) (lhsW3 t) (rhsM3 t) (rhsW3 t) (biasM3 t) (biasW3 t) (outM3 t) (outW3 t) accM3 (Memref.isWhole_whole _) (hno h0) (hnc h1) _ _ a Set.univ K)
    (fun h0 h1 a K => stepClose1 c (grid3.coords t) (lhsM3 t) (lhsW3 t) (rhsM3 t) (rhsW3 t) (biasM3 t) (biasW3 t) (outM3 t) (outW3 t) accM3 (Memref.isWhole_whole _) (hno h0) ((closes3_iff t).mpr h1) _ _ a _ Set.univ K)

theorem obligation3 (c : Dev nD) : BodyObligation (dat3 (F := F) V c) (defs₀ (F := F)) Variants.none () Set.univ := fun t => by
  rw [bigSep_W3, bigSep_W3]
  exact sound_body3 V c t

theorem enter3 (c : Dev nD) :
    iprop((∃ r, prngReg c r) ∗ Pipeline.scopedRest (Ix := Unit) (Name := ℕ) (U := UR sig nD τ) (Lvl := ℕ) (Val := Elt F) spec3 c)
      ⊢ (dat3 V c).Φ 0 := by
  rw [scoped3_eq]
  exact enter_of c accM3 (sumAt3 V c) _ _

theorem leave3 (c : Dev nD) :
    (dat3 V c).Φ (Fin.last cfg3.N)
      ⊢ iprop((∃ r, prngReg c r) ∗ Pipeline.scopedRest (Ix := Unit) (Name := ℕ) (U := UR sig nD τ) (Lvl := ℕ) (Val := Elt F) spec3 c) := by
  rw [scoped3_eq]
  exact leave_of c accM3 (sumAt3 V c) _ _ cfg3.N (Nat.le_refl _)

end Cert.KernelIdeal.Linear

end
-- ==== Proof.KernelIdeal.Flow.Stage3.lean ====
import proofs.«134883_j40123584479654_1_alg».proof.Proof.KernelIdeal.Flow.Stage2
import proofs.«134883_j40123584479654_1_alg».proof.Proof.KernelIdeal.Layer3.Accum
import proofs.«134883_j40123584479654_1_alg».proof.Proof.Region

set_option maxRecDepth 16384

noncomputable section

namespace Cert.KernelIdeal.Linear

open Cert.KernelIdeal Cert.KernelIdeal.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev into3 : Dev nD → Valuation τ sig (Elt F) := fun c => StableHlo.after hostOps3 (past2 m c)
abbrev entry3 : (c : Dev nD) → (b : Ref sig .tc) → Buf (Elt F) ((c : Thread nD τ).loc b) := fun c b => into3 m c b

def past3 (c : Dev nD) : Valuation τ sig (Elt F) := past (dat3 (entry3 m) c) (into3 m c)

theorem past3_arr (c : Dev nD) (w : Fin cfg3.W) :
    past3 m c (Proc.devRef .tc (Pipeline.arrRef spec3 w)) = (dat3 (entry3 m) c).arrAt w cfg3.N :=
  past_arr _ _ launch3.win.arr_inj w

theorem into3_keeps (c : Dev nD) (r : Ref sig .tc) (h : r ∉ hostOps3_W) : into3 m c r = past2 m c r :=
  StableHlo.after_of_writes_sub hostOps3 _ hostOps3_writes h

theorem past3_keeps (c : Dev nD) (r : Ref sig .tc) (h : ∀ w, Pipeline.arrRef spec3 w = r → (cfg3.win w).isOut = false) :
    past3 m c r = into3 m c r :=
  past_keeps _ _ launch3.win.arr_inj (A_eq3 (entry3 m) c) r h

end Cert.KernelIdeal.Linear

end
-- ==== Proof.KernelIdeal.Layer4.Setting.lean ====
import proofs.«134883_j40123584479654_1_alg».proof.Proof.Gen.KernelIdeal.Launch
import proofs.«134883_j40123584479654_1_alg».proof.Proof.Gen.KernelIdeal.Skeleton
import proofs.«134883_j40123584479654_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def tile4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev opens4 (i : grid4.Coords) : Prop := (Scalar.cmpi .ne (Scalar.extui (Scalar.cmpi .eq (BitVec.ofNat 32 (i 2).val) 0#32)) 0#32) = 1#1
theorem opens4_iff : ∀ t : Fin cfg4.N, opens4 (grid4.coords t) ↔ t.val % 4 = 0 :=
  (by decide +kernel : ∀ t : Fin grid4.N, opens4 (grid4.coords t) ↔ t.val % 4 = 0)

abbrev closes4 (i : grid4.Coords) : Prop := k4_cond2 i = 1#1
theorem closes4_iff : ∀ t : Fin cfg4.N, closes4 (grid4.coords t) ↔ t.val % 4 = 3 :=
  (by decide +kernel : ∀ t : Fin grid4.N, closes4 (grid4.coords t) ↔ t.val % 4 = 3)

theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel

theorem rests4 : ∀ t : Fin cfg4.N, ¬closes4 (grid4.coords t) → cfg4.idle 3 (grid4.coords t) = true := by decide +kernel
theorem unflushed4 : ∀ t : Fin cfg4.N, ¬closes4 (grid4.coords t) → (cfg4.win 3).flush t = false := by decide +kernel

theorem live4_3 : ∀ t : Fin cfg4.N, closes4 (grid4.coords t) → cfg4.idle 3 (grid4.coords t) = false := by decide +kernel

abbrev lhsM4 (t : Fin cfg4.N) : Memref sig .tc .vmem S1024x1024 .f32 := win4_0.stage (cfg4.slots t 0)
abbrev lhsW4 (t : Fin cfg4.N) : (lhsM4 t).IsWhole := hstage4_0 ((cfg4.slots t 0).cast nbuf4_0)
abbrev rhsM4 (t : Fin cfg4.N) : Memref sig .tc .vmem S1024x1024 .f32 := win4_1.stage (cfg4.slots t 1)
abbrev rhsW4 (t : Fin cfg4.N) : (rhsM4 t).IsWhole := hstage4_1 ((cfg4.slots t 1).cast nbuf4_1)
abbrev biasM4 (t : Fin cfg4.N) : Memref sig .tc .vmem S1x1024 .f32 := win4_2.stage (cfg4.slots t 2)
abbrev biasW4 (t : Fin cfg4.N) : (biasM4 t).IsWhole := hstage4_2 ((cfg4.slots t 2).cast nbuf4_2)
abbrev outM4 (t : Fin cfg4.N) : Memref sig .tc .vmem S1024x1024 .f32 := win4_3.stage (cfg4.slots t 3)
abbrev outW4 (t : Fin cfg4.N) : (outM4 t).IsWhole := hstage4_3 ((cfg4.slots t 3).cast nbuf4_3)

abbrev accM4 : Memref sig .tc .vmem S1024x1024 .f32 := Memref.whole cc4_scratch0

def beside4 (c : Dev nD) : sProp 𝕄 :=
  iprop(Pipeline.scopedRestBut (Ix := Unit) (Name := ℕ) (U := UR sig nD τ) (Lvl := ℕ) (Val := Elt F) spec4 c [cc4_scratch0] ∗ (∃ r, prngReg c r))

theorem scoped4_eq (c : Dev nD) :
    (Pipeline.scopedRest (Ix := Unit) (Name := ℕ) (U := UR sig nD τ) (Lvl := ℕ) (Val := Elt F) spec4 c : sProp 𝕄)
      = iprop((∃ d, owns (c : Thread nD τ) accM4 fullShare d)
          ∗ Pipeline.scopedRestBut (Ix := Unit) (Name := ℕ) (U := UR sig nD τ) (Lvl := ℕ) (Val := Elt F) spec4 c [cc4_scratch0]) := by
  rw [scopedRest4_split]; simp only [accM4, owns_whole]; try rfl

end Cert.KernelIdeal.Linear

end
-- ==== Proof.KernelIdeal.Layer4.Accum.lean ====
import proofs.«134883_j40123584479654_1_alg».proof.Proof.KernelIdeal.Layer4.Setting
import proofs.«134883_j40123584479654_1_alg».proof.Proof.KernelIdeal.Layer1.Steps
import proofs.«134883_j40123584479654_1_alg».proof.Proof.Accumulate

set_option maxRecDepth 16384

noncomputable section

namespace Cert.KernelIdeal.Linear

open Cert.KernelIdeal Cert.KernelIdeal.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev sumAt4 (c : Dev nD) : (n : ℕ) → n < cfg4.N → Vec F S1024x1024 .f32 :=
  sumAt (α := Vec F S1024x1024 .f32) (N := cfg4.N) (fun t => tile4 V c 0 t) (fun t => tile4 V c 1 t) (k1_pay1 (F := F)) k1_pay2

def outAt4 (c : Dev nD) (t : Fin cfg4.N) : Vec F S1024x1024 .f32 :=
  k1_pay3 (sumAt4 V c t.val t.isLt) (tile4 V c 2 t)

abbrev keeps4 (c : Dev nD) : (n : ℕ) → n ≤ cfg4.N → sProp 𝕄 :=
  keeps c accM4 (sumAt4 V c) (beside4 (F := F) c)

def dat4 (c : Dev nD) : Dat τ (Elt F) Unit ℕ (UR sig nD τ) ℕ cfg4 c where
  A w := V c (Pipeline.arrRef spec4 w)
  after w t := match w with
    | ⟨0, _⟩ => tile4 V c 0 t
    | ⟨1, _⟩ => tile4 V c 1 t
    | ⟨2, _⟩ => tile4 V c 2 t
    | ⟨3, _⟩ => outAt4 V c t
  Φ t := keeps4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem keeps4_castSucc (c : Dev nD) (t : Fin cfg4.N) :
    (dat4 V c).Φ t.castSucc = keeps4 V c t.val (Nat.le_of_lt t.isLt) := by
  dsimp only [dat4]; simp only [Fin.coe_castSucc]

theorem after4_0 (c : Dev nD) (t : Fin cfg4.N) : (dat4 V c).after 0 t = tile4 V c 0 t := by dsimp only [dat4]
theorem after4_1 (c : Dev nD) (t : Fin cfg4.N) : (dat4 V c).after 1 t = tile4 V c 1 t := by dsimp only [dat4]
theorem after4_2 (c : Dev nD) (t : Fin cfg4.N) : (dat4 V c).after 2 t = tile4 V c 2 t := by dsimp only [dat4]
theorem after4_3 (c : Dev nD) (t : Fin cfg4.N) : (dat4 V c).after 3 t = outAt4 V c t := by dsimp only [dat4]

theorem found4_0 (c : Dev nD) (t : Fin cfg4.N) (d) : (dat4 V c).before 0 t d = tile4 V c 0 t :=
  ((dat4 V c).before_in_eq_fetched 0 rfl (fun _ => rfl) (fun _ _ _ => rfl)
    (fun t => by rw [after4_0]; unfold Dat.blockOf tile4; rw [A_eq4]; try rfl) t d).trans
    (by unfold Dat.fetched Dat.blockOf tile4; rw [A_eq4]; try rfl)
theorem found4_1 (c : Dev nD) (t : Fin cfg4.N) (d) : (dat4 V c).before 1 t d = tile4 V c 1 t :=
  ((dat4 V c).before_in_eq_fetched 1 rfl (fun _ => rfl) (fun _ _ _ => rfl)
    (fun t => by rw [after4_1]; unfold Dat.blockOf tile4; rw [A_eq4]; try rfl) t d).trans
    (by unfold Dat.fetched Dat.blockOf tile4; rw [A_eq4]; try rfl)
theorem found4_2 (c : Dev nD) (t : Fin cfg4.N) (d) : (dat4 V c).before 2 t d = tile4 V c 2 t :=
  ((dat4 V c).before_in_eq_fetched 2 rfl (fun _ => rfl) (fun _ _ _ => rfl)
    (fun t => by rw [after4_2]; unfold Dat.blockOf tile4; rw [A_eq4]; try rfl) t d).trans
    (by unfold Dat.fetched Dat.blockOf tile4; rw [A_eq4]; try rfl)

theorem sound_body4 (c : Dev nD) (t : Fin cfg4.N) :
    bodyPre (dat4 V c) t 0 1 2 3
      ⊢ wp frame (wpE (defs₀ (F := F)) Variants.none c none) Set.univ (bodyAt4 t) (fun _ => bodyPost (dat4 V c) t 0 1 2 3) := by
  unfold bodyPre bodyPost bodyAt4
  simp only [found4_0, found4_1, found4_2]
  rw [show (dat4 V c).owesAt () t.succ = (dat4 V c).owesAt () t.castSucc from rfl,
    show (dat4 V c).Φ t.succ = iprop(owns (c : Thread nD τ) accM4 fullShare (sumAt4 V c t.val t.isLt) ∗ beside4 (F := F) c) from rfl,
    leavesExact_live _ t 0 (live4_0 t), leavesExact_live _ t 1 (live4_1 t), leavesExact_live _ t 2 (live4_2 t),
    after4_0, after4_1, after4_2, keeps4_castSucc V c t]
  have hnc : ¬t.val % 4 = 3 → ¬closes4 (grid4.coords t) := fun h1 h => h1 ((closes4_iff t).mp h)
  have hno : ¬t.val % 4 = 0 → ¬opens4 (grid4.coords t) := fun h0 h => h0 ((opens4_iff t).mp h)
  exact sound_point (defs₀ (F := F)) c _ (lhsM4 t) (rhsM4 t) (outM4 t) accM4 (biasM4 t)
    (fun t => tile4 V c 0 t) (fun t => tile4 V c 1 t) (tile4 V c 2 t) (k1_pay1 (F := F)) k1_pay2 k1_pay3 t
    (fun d => (dat4 V c).before 3 t d) (beside4 (F := F) c) ((dat4 V c).owesAt () t.castSucc) ((dat4 V c).leavesExact 3 t)
    (fun h1 => Dat.leavesExact_idle (dat4 V c) 3 t (rests4 t (hnc h1)) (unflushed4 t (hnc h1)))
    (fun h1 => (leavesExact_live _ t 3 (live4_3 t ((closes4_iff t).mpr h1))).trans (by rw [after4_3]; rfl))
    (fun h0 K => stepOpen1 c (grid4.coords t) (lhsM4 t) (lhsW4 t) (rhsM4 t) (rhsW4 t) (biasM4 t) (biasW4 t) (outM4 t) (outW4 t) accM4 (Memref.isWhole_whole _) ((opens4_iff t).mpr h0) (hnc (by omega)) _ _ Set.univ K)
    (fun h0 h1 a K => stepOn1 c (grid4.coords t) (lhsM4 t) (lhsW4 t) (rhsM4 t) (rhsW4 t) (biasM4 t) (biasW4 t) (outM4 t) (outW4 t) accM4 (Memref.isWhole_whole _) (hno h0) (hnc h1) _ _ a Set.univ K)
    (fun h0 h1 a K => stepClose1 c (grid4.coords t) (lhsM4 t) (lhsW4 t) (rhsM4 t) (rhsW4 t) (biasM4 t) (biasW4 t) (outM4 t) (outW4 t) accM4 (Memref.isWhole_whole _) (hno h0) ((closes4_iff t).mpr h1) _ _ a _ Set.univ K)

theorem obligation4 (c : Dev nD) : BodyObligation (dat4 (F := F) V c) (defs₀ (F := F)) Variants.none () Set.univ := fun t => by
  rw [bigSep_W4, bigSep_W4]
  exact sound_body4 V c t

theorem enter4 (c : Dev nD) :
    iprop((∃ r, prngReg c r) ∗ Pipeline.scopedRest (Ix := Unit) (Name := ℕ) (U := UR sig nD τ) (Lvl := ℕ) (Val := Elt F) spec4 c)
      ⊢ (dat4 V c).Φ 0 := by
  rw [scoped4_eq]
  exact enter_of c accM4 (sumAt4 V c) _ _

theorem leave4 (c : Dev nD) :
    (dat4 V c).Φ (Fin.last cfg4.N)
      ⊢ iprop((∃ r, prngReg c r) ∗ Pipeline.scopedRest (Ix := Unit) (Name := ℕ) (U := UR sig nD τ) (Lvl := ℕ) (Val := Elt F) spec4 c) := by
  rw [scoped4_eq]
  exact leave_of c accM4 (sumAt4 V c) _ _ cfg4.N (Nat.le_refl _)

end Cert.KernelIdeal.Linear

end
-- ==== Proof.KernelIdeal.Flow.Stage4.lean ====
import proofs.«134883_j40123584479654_1_alg».proof.Proof.KernelIdeal.Flow.Stage3
import proofs.«134883_j40123584479654_1_alg».proof.Proof.KernelIdeal.Layer4.Accum
import proofs.«134883_j40123584479654_1_alg».proof.Proof.Region

set_option maxRecDepth 16384

noncomputable section

namespace Cert.KernelIdeal.Linear

open Cert.KernelIdeal Cert.KernelIdeal.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev into4 : Dev nD → Valuation τ sig (Elt F) := fun c => StableHlo.after hostOps4 (past3 m c)
abbrev entry4 : (c : Dev nD) → (b : Ref sig .tc) → Buf (Elt F) ((c : Thread nD τ).loc b) := fun c b => into4 m c b

def past4 (c : Dev nD) : Valuation τ sig (Elt F) := past (dat4 (entry4 m) c) (into4 m c)

theorem past4_arr (c : Dev nD) (w : Fin cfg4.W) :
    past4 m c (Proc.devRef .tc (Pipeline.arrRef spec4 w)) = (dat4 (entry4 m) c).arrAt w cfg4.N :=
  past_arr _ _ launch4.win.arr_inj w

theorem into4_keeps (c : Dev nD) (r : Ref sig .tc) (h : r ∉ hostOps4_W) : into4 m c r = past3 m c r :=
  StableHlo.after_of_writes_sub hostOps4 _ hostOps4_writes h

theorem past4_keeps (c : Dev nD) (r : Ref sig .tc) (h : ∀ w, Pipeline.arrRef spec4 w = r → (cfg4.win w).isOut = false) :
    past4 m c r = into4 m c r :=
  past_keeps _ _ launch4.win.arr_inj (A_eq4 (entry4 m) c) r h

end Cert.KernelIdeal.Linear

end
-- ==== Proof.KernelIdeal.Layer5.Setting.lean ====
import proofs.«134883_j40123584479654_1_alg».proof.Proof.Gen.KernelIdeal.Launch
import proofs.«134883_j40123584479654_1_alg».proof.Proof.Gen.KernelIdeal.Skeleton
import proofs.«134883_j40123584479654_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def tile5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev opens5 (i : grid5.Coords) : Prop := (Scalar.cmpi .ne (Scalar.extui (Scalar.cmpi .eq (BitVec.ofNat 32 (i 2).val) 0#32)) 0#32) = 1#1
theorem opens5_iff : ∀ t : Fin cfg5.N, opens5 (grid5.coords t) ↔ t.val % 4 = 0 :=
  (by decide +kernel : ∀ t : Fin grid5.N, opens5 (grid5.coords t) ↔ t.val % 4 = 0)

abbrev closes5 (i : grid5.Coords) : Prop := k5_cond2 i = 1#1
theorem closes5_iff : ∀ t : Fin cfg5.N, closes5 (grid5.coords t) ↔ t.val % 4 = 3 :=
  (by decide +kernel : ∀ t : Fin grid5.N, closes5 (grid5.coords t) ↔ t.val % 4 = 3)

theorem live5_0 : ∀ t : Fin cfg5.N, cfg5.idle 0 (grid5.coords t) = false := by decide +kernel
theorem live5_1 : ∀ t : Fin cfg5.N, cfg5.idle 1 (grid5.coords t) = false := by decide +kernel
theorem live5_2 : ∀ t : Fin cfg5.N, cfg5.idle 2 (grid5.coords t) = false := by decide +kernel

theorem rests5 : ∀ t : Fin cfg5.N, ¬closes5 (grid5.coords t) → cfg5.idle 3 (grid5.coords t) = true := by decide +kernel
theorem unflushed5 : ∀ t : Fin cfg5.N, ¬closes5 (grid5.coords t) → (cfg5.win 3).flush t = false := by decide +kernel

theorem live5_3 : ∀ t : Fin cfg5.N, closes5 (grid5.coords t) → cfg5.idle 3 (grid5.coords t) = false := by decide +kernel

abbrev lhsM5 (t : Fin cfg5.N) : Memref sig .tc .vmem S1024x1024 .f32 := win5_0.stage (cfg5.slots t 0)
abbrev lhsW5 (t : Fin cfg5.N) : (lhsM5 t).IsWhole := hstage5_0 ((cfg5.slots t 0).cast nbuf5_0)
abbrev rhsM5 (t : Fin cfg5.N) : Memref sig .tc .vmem S1024x1024 .f32 := win5_1.stage (cfg5.slots t 1)
abbrev rhsW5 (t : Fin cfg5.N) : (rhsM5 t).IsWhole := hstage5_1 ((cfg5.slots t 1).cast nbuf5_1)
abbrev biasM5 (t : Fin cfg5.N) : Memref sig .tc .vmem S1x1024 .f32 := win5_2.stage (cfg5.slots t 2)
abbrev biasW5 (t : Fin cfg5.N) : (biasM5 t).IsWhole := hstage5_2 ((cfg5.slots t 2).cast nbuf5_2)
abbrev outM5 (t : Fin cfg5.N) : Memref sig .tc .vmem S1024x1024 .f32 := win5_3.stage (cfg5.slots t 3)
abbrev outW5 (t : Fin cfg5.N) : (outM5 t).IsWhole := hstage5_3 ((cfg5.slots t 3).cast nbuf5_3)

abbrev accM5 : Memref sig .tc .vmem S1024x1024 .f32 := Memref.whole cc5_scratch0

def beside5 (c : Dev nD) : sProp 𝕄 :=
  iprop(Pipeline.scopedRestBut (Ix := Unit) (Name := ℕ) (U := UR sig nD τ) (Lvl := ℕ) (Val := Elt F) spec5 c [cc5_scratch0] ∗ (∃ r, prngReg c r))

theorem scoped5_eq (c : Dev nD) :
    (Pipeline.scopedRest (Ix := Unit) (Name := ℕ) (U := UR sig nD τ) (Lvl := ℕ) (Val := Elt F) spec5 c : sProp 𝕄)
      = iprop((∃ d, owns (c : Thread nD τ) accM5 fullShare d)
          ∗ Pipeline.scopedRestBut (Ix := Unit) (Name := ℕ) (U := UR sig nD τ) (Lvl := ℕ) (Val := Elt F) spec5 c [cc5_scratch0]) := by
  rw [scopedRest5_split]; simp only [accM5, owns_whole]; try rfl

end Cert.KernelIdeal.Linear

end
-- ==== Proof.KernelIdeal.Layer5.Steps.lean ====
import proofs.«134883_j40123584479654_1_alg».proof.Proof.KernelIdeal.Layer5.Setting

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem origin5 : (![0, 0] : Fin S1024x1024.rank → ℕ) = fun _ => 0 := by
  funext a; fin_cases a <;> rfl
theorem originRow5 : (![0, 0] : Fin S1x1024.rank → ℕ) = fun _ => 0 := by
  funext a; fin_cases a <;> rfl

variable (c : Dev nD) (i : grid5.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)

set_option maxHeartbeats 4000000 in
theorem stepOpen5 (hc0 : opens5 i) (hc1 : ¬closes5 i) (x0 x1 : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1
            ∗ owns (c : Thread nD τ) arg7 fullShare (k5_pay2 x0 x1 (k5_pay1 (F := F)))) -∗ K ⟨⟩))
      ⊢ wp frame (wpE (defs₀ (F := F)) Variants.none c none) E (cc5__linear_kernel i arg3 harg3 arg4 harg4 arg5 harg5 arg6 harg6 arg7 harg7) K := by
  simp only [cc5__linear_kernel_eq_skeleton]; unfold cc5__linear_kernel_skel
  unfold owns
  iintro ⟨⟨%f0, %hf0, H0⟩, ⟨%f1, %hf1, H1⟩, ⟨%ds0, %fs0, -, HS0⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_cons_self, View.mem_set_unit_zero origin5 inb_S1024x1024_S1024x1024_0_0 y⟩),
    View.canon_cons_unit_zero (S := S1024x1024) origin5]
  rw [View.readCov_unit_zero (S := S1024x1024) _ origin5]
  simp only [View.readAt_eq_ld, harg3.read_unread, harg4.read_unread, View.ld_unit_zero (S := S1024x1024) origin5]

set_option maxHeartbeats 4000000 in
theorem stepOn5 (hc0 : ¬opens5 i) (hc1 : ¬closes5 i) (x0 x1 a : Vec F S1024x1024 .f32) (E : Set ℕ) (K : PUnit → sProp 𝕄) :
    iprop(owns (c : Thread nD τ) arg3 fullShare x0 ∗ owns (c : Thread nD τ) arg4 fullShare x1 ∗ owns (c : Thread nD τ) arg7 fullShare a
        ∗ (iprop(owns (c : Thread nD τ) arg3 fullShare x0 ∗ owns (c : Thread nD τ) arg4 fullShare x1
            ∗ owns (c : Thread nD τ) arg7 fullShare (k5_pay2 x0 x1 a)) -∗ K ⟨⟩))
      ⊢ wp frame (wpE (defs₀ (F := F)) Variants.none c none) E (cc5__linear_kernel i arg3 harg3 arg4 harg4 arg5 harg5 arg6 harg6 arg7 harg7) K := by
  simp only [cc5__linear_kernel_eq_skeleton]; unfold cc5__linear_kernel_skel
  unfold owns
  iintro ⟨⟨%f0, %hf0, H0⟩, ⟨%f1, %hf1, H1⟩, ⟨%fs0, %hfs0, HS0⟩, Hk⟩
  obtain rfl := harg3.eq_unread hf0; obtain rfl := harg4.eq_unread hf1; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  rw [View.read_writes_eq_canon _ _ _ (fun y => ⟨_, List.mem_cons_self, View.mem_set_unit_zero origin5 inb_S1024x1024_S1024x1024_0_0 y⟩),
    View.canon_cons_unit_zero (S := S1024x1024) origin5]
  simp only [View.readAt_eq_ld, harg3.read_unread, harg4.read_unread, harg7.read_unread, View.ld_unit_zero (S := S1024x1024) origin5]

set_option maxHeartbeats 4000000 in
theorem stepClose5 (hc0 : ¬opens5 i) (hc1 : closes5 i) (x0 x1 a : Vec F S1024x1024 .f32) (x2 : Vec F S1x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare a
        ∗ (iprop(owns (c : Thread nD τ) arg3 fullShare x0 ∗ owns (c : Thread nD τ) arg4 fullShare x1 ∗ owns (c : Thread nD τ) arg5 fullShare x2
            ∗ owns (c : Thread nD τ) arg6 fullShare (k5_pay3 (k5_pay2 x0 x1 a) x2)
            ∗ owns (c : Thread nD τ) arg7 fullShare (k5_pay2 x0 x1 a)) -∗ K ⟨⟩))
      ⊢ wp frame (wpE (defs₀ (F := F)) Variants.none c none) E (cc5__linear_kernel i arg3 harg3 arg4 harg4 arg5 harg5 arg6 harg6 arg7 harg7) K := by
  simp only [cc5__linear_kernel_eq_skeleton]; unfold cc5__linear_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg3.eq_unread hf0; obtain rfl := harg4.eq_unread hf1; obtain rfl := harg5.eq_unread hf2; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_cons_self, View.mem_set_unit_zero origin5 inb_S1024x1024_S1024x1024_0_0 y⟩),
      View.canon_cons_unit_zero (S := S1024x1024) origin5]
    rw [View.readCov_unit_zero (S := S1024x1024) _ origin5]
    simp only [View.readAt_eq_ld, harg3.read_unread, harg4.read_unread, harg5.read_unread, harg7.read_unread,
      View.ld_unit_zero (S := S1024x1024) origin5, View.ld_unit_zero (S := S1x1024) originRow5]
  iexists _; isplitr
  swap; · iexact HS0
  ipureintro
  sl_unfold_words
  rw [View.read_writes_eq_canon _ _ _ (fun y => ⟨_, List.mem_cons_self, View.mem_set_unit_zero origin5 inb_S1024x1024_S1024x1024_0_0 y⟩),
    View.canon_cons_unit_zero (S := S1024x1024) origin5]
  simp only [View.readAt_eq_ld, harg3.read_unread, harg4.read_unread, harg7.read_unread, View.ld_unit_zero (S := S1024x1024) origin5]

end Cert.KernelIdeal.Linear

end
-- ==== Proof.KernelIdeal.Layer5.Accum.lean ====
import proofs.«134883_j40123584479654_1_alg».proof.Proof.KernelIdeal.Layer5.Setting
import proofs.«134883_j40123584479654_1_alg».proof.Proof.KernelIdeal.Layer5.Steps
import proofs.«134883_j40123584479654_1_alg».proof.Proof.Accumulate

set_option maxRecDepth 16384

noncomputable section

namespace Cert.KernelIdeal.Linear

open Cert.KernelIdeal Cert.KernelIdeal.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev sumAt5 (c : Dev nD) : (n : ℕ) → n < cfg5.N → Vec F S1024x1024 .f32 :=
  sumAt (α := Vec F S1024x1024 .f32) (N := cfg5.N) (fun t => tile5 V c 0 t) (fun t => tile5 V c 1 t) (k5_pay1 (F := F)) k5_pay2

def outAt5 (c : Dev nD) (t : Fin cfg5.N) : Vec F S1024x1024 .f32 :=
  k5_pay3 (sumAt5 V c t.val t.isLt) (tile5 V c 2 t)

abbrev keeps5 (c : Dev nD) : (n : ℕ) → n ≤ cfg5.N → sProp 𝕄 :=
  keeps c accM5 (sumAt5 V c) (beside5 (F := F) c)

def dat5 (c : Dev nD) : Dat τ (Elt F) Unit ℕ (UR sig nD τ) ℕ cfg5 c where
  A w := V c (Pipeline.arrRef spec5 w)
  after w t := match w with
    | ⟨0, _⟩ => tile5 V c 0 t
    | ⟨1, _⟩ => tile5 V c 1 t
    | ⟨2, _⟩ => tile5 V c 2 t
    | ⟨3, _⟩ => outAt5 V c t
  Φ t := keeps5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem keeps5_castSucc (c : Dev nD) (t : Fin cfg5.N) :
    (dat5 V c).Φ t.castSucc = keeps5 V c t.val (Nat.le_of_lt t.isLt) := by
  dsimp only [dat5]; simp only [Fin.coe_castSucc]

theorem after5_0 (c : Dev nD) (t : Fin cfg5.N) : (dat5 V c).after 0 t = tile5 V c 0 t := by dsimp only [dat5]
theorem after5_1 (c : Dev nD) (t : Fin cfg5.N) : (dat5 V c).after 1 t = tile5 V c 1 t := by dsimp only [dat5]
theorem after5_2 (c : Dev nD) (t : Fin cfg5.N) : (dat5 V c).after 2 t = tile5 V c 2 t := by dsimp only [dat5]
theorem after5_3 (c : Dev nD) (t : Fin cfg5.N) : (dat5 V c).after 3 t = outAt5 V c t := by dsimp only [dat5]

theorem found5_0 (c : Dev nD) (t : Fin cfg5.N) (d) : (dat5 V c).before 0 t d = tile5 V c 0 t :=
  ((dat5 V c).before_in_eq_fetched 0 rfl (fun _ => rfl) (fun _ _ _ => rfl)
    (fun t => by rw [after5_0]; unfold Dat.blockOf tile5; rw [A_eq5]; try rfl) t d).trans
    (by unfold Dat.fetched Dat.blockOf tile5; rw [A_eq5]; try rfl)
theorem found5_1 (c : Dev nD) (t : Fin cfg5.N) (d) : (dat5 V c).before 1 t d = tile5 V c 1 t :=
  ((dat5 V c).before_in_eq_fetched 1 rfl (fun _ => rfl) (fun _ _ _ => rfl)
    (fun t => by rw [after5_1]; unfold Dat.blockOf tile5; rw [A_eq5]; try rfl) t d).trans
    (by unfold Dat.fetched Dat.blockOf tile5; rw [A_eq5]; try rfl)
theorem found5_2 (c : Dev nD) (t : Fin cfg5.N) (d) : (dat5 V c).before 2 t d = tile5 V c 2 t :=
  ((dat5 V c).before_in_eq_fetched 2 rfl (fun _ => rfl) (fun _ _ _ => rfl)
    (fun t => by rw [after5_2]; unfold Dat.blockOf tile5; rw [A_eq5]; try rfl) t d).trans
    (by unfold Dat.fetched Dat.blockOf tile5; rw [A_eq5]; try rfl)

theorem sound_body5 (c : Dev nD) (t : Fin cfg5.N) :
    bodyPre (dat5 V c) t 0 1 2 3
      ⊢ wp frame (wpE (defs₀ (F := F)) Variants.none c none) Set.univ (bodyAt5 t) (fun _ => bodyPost (dat5 V c) t 0 1 2 3) := by
  unfold bodyPre bodyPost bodyAt5
  simp only [found5_0, found5_1, found5_2]
  rw [show (dat5 V c).owesAt () t.succ = (dat5 V c).owesAt () t.castSucc from rfl,
    show (dat5 V c).Φ t.succ = iprop(owns (c : Thread nD τ) accM5 fullShare (sumAt5 V c t.val t.isLt) ∗ beside5 (F := F) c) from rfl,
    leavesExact_live _ t 0 (live5_0 t), leavesExact_live _ t 1 (live5_1 t), leavesExact_live _ t 2 (live5_2 t),
    after5_0, after5_1, after5_2, keeps5_castSucc V c t]
  have hnc : ¬t.val % 4 = 3 → ¬closes5 (grid5.coords t) := fun h1 h => h1 ((closes5_iff t).mp h)
  have hno : ¬t.val % 4 = 0 → ¬opens5 (grid5.coords t) := fun h0 h => h0 ((opens5_iff t).mp h)
  exact sound_point (defs₀ (F := F)) c _ (lhsM5 t) (rhsM5 t) (outM5 t) accM5 (biasM5 t)
    (fun t => tile5 V c 0 t) (fun t => tile5 V c 1 t) (tile5 V c 2 t) (k5_pay1 (F := F)) k5_pay2 k5_pay3 t
    (fun d => (dat5 V c).before 3 t d) (beside5 (F := F) c) ((dat5 V c).owesAt () t.castSucc) ((dat5 V c).leavesExact 3 t)
    (fun h1 => Dat.leavesExact_idle (dat5 V c) 3 t (rests5 t (hnc h1)) (unflushed5 t (hnc h1)))
    (fun h1 => (leavesExact_live _ t 3 (live5_3 t ((closes5_iff t).mpr h1))).trans (by rw [after5_3]; rfl))
    (fun h0 K => stepOpen5 c (grid5.coords t) (lhsM5 t) (lhsW5 t) (rhsM5 t) (rhsW5 t) (biasM5 t) (biasW5 t) (outM5 t) (outW5 t) accM5 (Memref.isWhole_whole _) ((opens5_iff t).mpr h0) (hnc (by omega)) _ _ Set.univ K)
    (fun h0 h1 a K => stepOn5 c (grid5.coords t) (lhsM5 t) (lhsW5 t) (rhsM5 t) (rhsW5 t) (biasM5 t) (biasW5 t) (outM5 t) (outW5 t) accM5 (Memref.isWhole_whole _) (hno h0) (hnc h1) _ _ a Set.univ K)
    (fun h0 h1 a K => stepClose5 c (grid5.coords t) (lhsM5 t) (lhsW5 t) (rhsM5 t) (rhsW5 t) (biasM5 t) (biasW5 t) (outM5 t) (outW5 t) accM5 (Memref.isWhole_whole _) (hno h0) ((closes5_iff t).mpr h1) _ _ a _ Set.univ K)

theorem obligation5 (c : Dev nD) : BodyObligation (dat5 (F := F) V c) (defs₀ (F := F)) Variants.none () Set.univ := fun t => by
  rw [bigSep_W5, bigSep_W5]
  exact sound_body5 V c t

theorem enter5 (c : Dev nD) :
    iprop((∃ r, prngReg c r) ∗ Pipeline.scopedRest (Ix := Unit) (Name := ℕ) (U := UR sig nD τ) (Lvl := ℕ) (Val := Elt F) spec5 c)
      ⊢ (dat5 V c).Φ 0 := by
  rw [scoped5_eq]
  exact enter_of c accM5 (sumAt5 V c) _ _

theorem leave5 (c : Dev nD) :
    (dat5 V c).Φ (Fin.last cfg5.N)
      ⊢ iprop((∃ r, prngReg c r) ∗ Pipeline.scopedRest (Ix := Unit) (Name := ℕ) (U := UR sig nD τ) (Lvl := ℕ) (Val := Elt F) spec5 c) := by
  rw [scoped5_eq]
  exact leave_of c accM5 (sumAt5 V c) _ _ cfg5.N (Nat.le_refl _)

end Cert.KernelIdeal.Linear

end
-- ==== Proof.KernelIdeal.Flow.Stage5.lean ====
import proofs.«134883_j40123584479654_1_alg».proof.Proof.KernelIdeal.Flow.Stage4
import proofs.«134883_j40123584479654_1_alg».proof.Proof.KernelIdeal.Layer5.Accum
import proofs.«134883_j40123584479654_1_alg».proof.Proof.Region

set_option maxRecDepth 16384

noncomputable section

namespace Cert.KernelIdeal.Linear

open Cert.KernelIdeal Cert.KernelIdeal.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev into5 : Dev nD → Valuation τ sig (Elt F) := fun c => StableHlo.after hostOps5 (past4 m c)
abbrev entry5 : (c : Dev nD) → (b : Ref sig .tc) → Buf (Elt F) ((c : Thread nD τ).loc b) := fun c b => into5 m c b

def past5 (c : Dev nD) : Valuation τ sig (Elt F) := past (dat5 (entry5 m) c) (into5 m c)

theorem past5_arr (c : Dev nD) (w : Fin cfg5.W) :
    past5 m c (Proc.devRef .tc (Pipeline.arrRef spec5 w)) = (dat5 (entry5 m) c).arrAt w cfg5.N :=
  past_arr _ _ launch5.win.arr_inj w

theorem into5_keeps (c : Dev nD) (r : Ref sig .tc) (h : r ∉ hostOps5_W) : into5 m c r = past4 m c r :=
  StableHlo.after_of_writes_sub hostOps5 _ hostOps5_writes h

theorem past5_keeps (c : Dev nD) (r : Ref sig .tc) (h : ∀ w, Pipeline.arrRef spec5 w = r → (cfg5.win w).isOut = false) :
    past5 m c r = into5 m c r :=
  past_keeps _ _ launch5.win.arr_inj (A_eq5 (entry5 m) c) r h

end Cert.KernelIdeal.Linear

end
-- ==== Proof.KernelIdeal.Flow.Data.lean ====
import proofs.«134883_j40123584479654_1_alg».proof.Proof.KernelIdeal.Flow.Stage5

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

abbrev atEnd : Dev nD → Valuation τ sig (Elt F) := fun c => StableHlo.after hostOps6 (past5 m c)
theorem atEnd_keeps (c : Dev nD) (r : Ref sig .tc) (h : r ∉ hostOps6_W) : atEnd m c r = past5 m c r :=
  StableHlo.after_of_writes_sub hostOps6 _ hostOps6_writes h

def pdats : (p : Fin 6) → (c : Dev nD) → Dat τ (Elt F) Unit ℕ (UR sig nD τ) ℕ (Pipeline.pin (pcfgs (F := F)) (adm (F := F)) p) c
  | ⟨0, _⟩ => fun c => dat0 (entry0 m) c
  | ⟨1, _⟩ => fun c => dat1 (entry1 m) c
  | ⟨2, _⟩ => fun c => dat2 (entry2 m) c
  | ⟨3, _⟩ => fun c => dat3 (entry3 m) c
  | ⟨4, _⟩ => fun c => dat4 (entry4 m) c
  | ⟨5, _⟩ => fun c => dat5 (entry5 m) c

abbrev 𝒱₀ : Variants := Variants.none

abbrev L : GSem nD τ sig → Finset Unit := fun _ => ∅
abbrev lv : GSem nD τ sig → Unit → ℕ := fun _ _ => 0

abbrev beside (c : Dev nD) : sProp 𝕄 := iprop((∃ r, prngReg c r) ∗ ∃ W, owes (c : Thread nD τ) (0 : CellTallies nD τ sig Unit) W)

abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev atReturn (c : Dev nD) : sProp 𝕄 := iprop(StableHlo.held (c : Thread nD τ) (Pipeline.ucRefs τ sig) (atEnd m c) ∗ ∃ r, prngReg c r)

end Cert.KernelIdeal.Linear

end
-- ==== Proof.KernelIdeal.Flow.Calls.lean ====
import proofs.«134883_j40123584479654_1_alg».proof.Proof.KernelIdeal.Flow.Data

set_option maxRecDepth 16384

noncomputable section

namespace Cert.KernelIdeal.Linear

open Cert.KernelIdeal Cert.KernelIdeal.Gen Cert.Linear
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem noTables {p : Fin 6} (c : Dev nD) :
    (BI.emp : sProp 𝕄) ⊢ Pipeline.prefHeld (pcfgs (F := F) p).pre c (fun _ => fullShare) (adm (F := F) p).1 := by
  unfold Pipeline.prefHeld; rw [show (Finset.univ : Finset (Fin 0)) = ∅ from rfl, BI.bigSep_empty]

set_option backward.isDefEq.respectTransparency.types false in
def call0 : Pipeline.RegionSeg (pcfgs (F := F)) (adm (F := F)) (pdats m) () defs₀ 𝒱₀ L lv 0 :=
  callOf pcfgs adm (pdats m) defs₀ L lv 0 launch0.win launch0.block_pos launch0.arr_whole launch0.stage_whole (into0 m)
    (obligation0 (entry0 m)) (fun _ _ => rfl) (fun _ => rfl) (fun _ _ => rfl) (A_eq0 (entry0 m)) noTables
    (enter0 (entry0 m)) (leave0 (entry0 m))

set_option backward.isDefEq.respectTransparency.types false in
def call1 : Pipeline.RegionSeg (pcfgs (F := F)) (adm (F := F)) (pdats m) () defs₀ 𝒱₀ L lv 1 :=
  callOf pcfgs adm (pdats m) defs₀ L lv 1 launch1.win launch1.block_pos launch1.arr_whole launch1.stage_whole (into1 m)
    (obligation1 (entry1 m)) (fun _ _ => rfl) (fun _ => rfl) (fun _ _ => rfl) (A_eq1 (entry1 m)) noTables
    (enter1 (entry1 m)) (leave1 (entry1 m))

set_option backward.isDefEq.respectTransparency.types false in
def call2 : Pipeline.RegionSeg (pcfgs (F := F)) (adm (F := F)) (pdats m) () defs₀ 𝒱₀ L lv 2 :=
  callOf pcfgs adm (pdats m) defs₀ L lv 2 launch2.win launch2.block_pos launch2.arr_whole launch2.stage_whole (into2 m)
    (obligation2 (entry2 m)) (fun _ _ => rfl) (fun _ => rfl) (fun _ _ => rfl) (A_eq2 (entry2 m)) noTables
    (enter2 (entry2 m)) (leave2 (entry2 m))

set_option backward.isDefEq.respectTransparency.types false in
def call3 : Pipeline.RegionSeg (pcfgs (F := F)) (adm (F := F)) (pdats m) () defs₀ 𝒱₀ L lv 3 :=
  callOf pcfgs adm (pdats m) defs₀ L lv 3 launch3.win launch3.block_pos launch3.arr_whole launch3.stage_whole (into3 m)
    (obligation3 (entry3 m)) (fun _ _ => rfl) (fun _ => rfl) (fun _ _ => rfl) (A_eq3 (entry3 m)) noTables
    (enter3 (entry3 m)) (leave3 (entry3 m))

set_option backward.isDefEq.respectTransparency.types false in
def call4 : Pipeline.RegionSeg (pcfgs (F := F)) (adm (F := F)) (pdats m) () defs₀ 𝒱₀ L lv 4 :=
  callOf pcfgs adm (pdats m) defs₀ L lv 4 launch4.win launch4.block_pos launch4.arr_whole launch4.stage_whole (into4 m)
    (obligation4 (entry4 m)) (fun _ _ => rfl) (fun _ => rfl) (fun _ _ => rfl) (A_eq4 (entry4 m)) noTables
    (enter4 (entry4 m)) (leave4 (entry4 m))

set_option backward.isDefEq.respectTransparency.types false in
def call5 : Pipeline.RegionSeg (pcfgs (F := F)) (adm (F := F)) (pdats m) () defs₀ 𝒱₀ L lv 5 :=
  callOf pcfgs adm (pdats m) defs₀ L lv 5 launch5.win launch5.block_pos launch5.arr_whole launch5.stage_whole (into5 m)
    (obligation5 (entry5 m)) (fun _ _ => rfl) (fun _ => rfl) (fun _ _ => rfl) (A_eq5 (entry5 m)) noTables
    (enter5 (entry5 m)) (leave5 (entry5 m))

end Cert.KernelIdeal.Linear

end
-- ==== Proof.KernelIdeal.Flow.Run.lean ====
import proofs.«134883_j40123584479654_1_alg».proof.Proof.KernelIdeal.Flow.Calls

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

abbrev segments : List (Pipeline.Seg (pcfgs (F := F)) (adm (F := F)) (pdats m) () defs₀ 𝒱₀ L lv) :=
  [ .host (stretch hostOps0 hostOps0_sub hostOps0_fresh (atLaunch m)),
    .region (call0 m),
    .host (stretch hostOps1 hostOps1_sub hostOps1_fresh (past0 m)),
    .region (call1 m),
    .host (stretch hostOps2 hostOps2_sub hostOps2_fresh (past1 m)),
    .region (call2 m),
    .host (stretch hostOps3 hostOps3_sub hostOps3_fresh (past2 m)),
    .region (call3 m),
    .host (stretch hostOps4 hostOps4_sub hostOps4_fresh (past3 m)),
    .region (call4 m),
    .host (stretch hostOps5 hostOps5_sub hostOps5_fresh (past4 m)),
    .region (call5 m),
    .host (stretch hostOps6 hostOps6_sub hostOps6_fresh (past5 m)) ]

theorem main_is_segments (c : Dev nD) : main (F := F) c = Pipeline.Seg.run (segments m) := (main_chain c).trans (by chain_rfl)

set_option backward.isDefEq.respectTransparency.types false in
theorem run_to_end : θ_run defs (onTc (τ := τ) (main (F := F))) ⟨m, fun _ => 0, ρ⟩ (fun r => ∀ c : Dev nD,
      ∀ b ∈ Pipeline.ucRefs τ sig, r.2.mem (((c : Thread nD τ)).1, b) = atEnd m c b) :=
  Pipeline.θ_run_regions_kit (pcfgs (F := F)) (adm (F := F)) (pdats m) () cellOf_inj emb₁ defs₀ 𝒱₀ L lv m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ beside c)) (Tₙ := atReturn m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (atEnd m c) ∗ beside c)
          ⊢ iprop(atReturn m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m c b)
    (hfin := fun c s' => by
      iintro ⟨⟨Hh, -⟩, HSI⟩
      unfold StableHlo.held
      imodintro
      iapply (pointsTo_read_all (Pipeline.ucRefs τ sig) (fun b => (((c : Thread nD τ)).1, b)) (atEnd m c) s')
      isplitl [Hh] <;> iassumption)
    (hQ := fun s h => h)

def Untouched (r : Ref sig .tc) : Prop :=
  r ∉ hostOps0_W ∧ r ∉ hostOps1_W ∧ r ∉ hostOps2_W ∧ r ∉ hostOps3_W ∧ r ∉ hostOps4_W ∧ r ∉ hostOps5_W ∧ r ∉ hostOps6_W
  ∧ (∀ w, Pipeline.arrRef spec0 w = r → (cfg0.win w).isOut = false)
  ∧ (∀ w, Pipeline.arrRef spec1 w = r → (cfg1.win w).isOut = false)
  ∧ (∀ w, Pipeline.arrRef spec2 w = r → (cfg2.win w).isOut = false)
  ∧ (∀ w, Pipeline.arrRef spec3 w = r → (cfg3.win w).isOut = false)
  ∧ (∀ w, Pipeline.arrRef spec4 w = r → (cfg4.win w).isOut = false)
  ∧ (∀ w, Pipeline.arrRef spec5 w = r → (cfg5.win w).isOut = false)

theorem atEnd_of_untouched (c : Dev nD) (r : Ref sig .tc) (h : Untouched r) :
    atEnd m c (Proc.devRef .tc r) = m ((c : Thread nD τ).loc r) := by
  obtain ⟨h0, h1, h2, h3, h4, h5, h6, k0, k1, k2, k3, k4, k5⟩ := h
  calc atEnd m c (Proc.devRef .tc r)
    _ = past5 m c r := atEnd_keeps m c r h6
    _ = into5 m c r := past5_keeps m c r k5
    _ = past4 m c r := into5_keeps m c r h5
    _ = into4 m c r := past4_keeps m c r k4
    _ = past3 m c r := into4_keeps m c r h4
    _ = into3 m c r := past3_keeps m c r k3
    _ = past2 m c r := into3_keeps m c r h3
    _ = into2 m c r := past2_keeps m c r k2
    _ = past1 m c r := into2_keeps m c r h2
    _ = into1 m c r := past1_keeps m c r k1
    _ = past0 m c r := into1_keeps m c r h1
    _ = into0 m c r := past0_keeps m c r k0
    _ = atLaunch m c r := into0_keeps m c r h0
    _ = m ((c : Thread nD τ).loc r) := rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (atEnd_of_untouched m c main_arg0 (by unfold Untouched; decide)),
     (h c _ (mem_uc main_arg1 (by decide))).trans (atEnd_of_untouched m c main_arg1 (by unfold Untouched; decide)),
     (h c _ (mem_uc main_arg2 (by decide))).trans (atEnd_of_untouched m c main_arg2 (by unfold Untouched; decide)),
     (h c _ (mem_uc main_arg3 (by decide))).trans (atEnd_of_untouched m c main_arg3 (by unfold Untouched; decide)),
     (h c _ (mem_uc main_arg4 (by decide))).trans (atEnd_of_untouched m c main_arg4 (by unfold Untouched; decide)),
     (h c _ (mem_uc main_arg5 (by decide))).trans (atEnd_of_untouched m c main_arg5 (by unfold Untouched; decide)),
     (h c _ (mem_uc main_arg6 (by decide))).trans (atEnd_of_untouched m c main_arg6 (by unfold Untouched; decide)),
     (h c _ (mem_uc main_arg7 (by decide))).trans (atEnd_of_untouched m c main_arg7 (by unfold Untouched; decide))⟩) (run_to_end m ρ)

end Cert.KernelIdeal.Linear

end
-- ==== Proof.Coupling.lean ====
import Idealize.ShloMosaic.PureOps.Ideal
import Idealize.ShloMosaic.Lib.ValueIdx

noncomputable section

namespace Coupling

open Idealize.ShloMosaic Idealize.ShloMosaic.ValueIdx

abbrev Mat (m n : ℕ) : Type := (⟨2, ![m, n]⟩ : Shape).Idx → EReal

abbrev Row (n : ℕ) : Type := (⟨1, ![n]⟩ : Shape).Idx → EReal

def affine {m k n : ℕ} (X : Mat m k) (W : Mat k n) (b : Mat 1 n) : Mat m n :=
  fun i => (∑ l : Fin k, X (ix2 (i 0) l) * W (ix2 l (i 1))) + b (ix2 0 (i 1))

def hidden {m k n : ℕ} (X : Mat m k) (W : Mat k n) (b : Mat 1 n) : Mat m n :=
  fun i => max (affine X W b i) 0

theorem affine_apply {m k n : ℕ} (X : Mat m k) (W : Mat k n) (b : Mat 1 n) (r : Fin m) (j : Fin n) :
    affine X W b (ix2 r j) = (∑ l : Fin k, X (ix2 r l) * W (ix2 l j)) + b (ix2 0 j) := rfl

theorem hidden_apply {m k n : ℕ} (X : Mat m k) (W : Mat k n) (b : Mat 1 n) (r : Fin m) (j : Fin n) :
    hidden X W b (ix2 r j) = max ((∑ l : Fin k, X (ix2 r l) * W (ix2 l j)) + b (ix2 0 j)) 0 := rfl

def asRow {n : ℕ} (v : Row n) : Mat 1 n := fun i => v (ix1 (i 1))

def net (x : Mat 4096 1024) (Win : Mat 1024 4096) (bin : Mat 1 4096)
    (W0 W1 W2 W3 : Mat 4096 4096) (b0 b1 b2 b3 : Mat 1 4096) (Wout : Mat 4096 1024) (bout : Mat 1 1024) : Mat 4096 1024 :=
  affine (hidden (hidden (hidden (hidden (hidden x Win bin) W0 b0) W1 b1) W2 b2) W3 b3) Wout bout

end Coupling

end
-- ==== Proof.KernelIdeal.TileProduct.lean ====
import proofs.«134883_j40123584479654_1_alg».proof.Proof.Gen.KernelIdeal
import Idealize.ShloMosaic.PureOps.Ideal.Laws
import Idealize.ShloMosaic.Lib.ValueIdx

set_option maxRecDepth 16384

noncomputable section

namespace Cert.KernelIdeal.Linear

open Cert.KernelIdeal Cert.KernelIdeal.Gen
open Idealize.ShloMosaic Idealize.ShloMosaic.ValueIdx

theorem lhs_tile_0 (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

theorem lhs_tile_1 (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k

theorem rhs_tile_0 (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k

theorem rhs_tile_1 (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

theorem tile_product_apply {φ₁ φ₂ : FTy} (x : FVec Ideal S1024x1024 φ₁) (w : FVec Ideal S1024x1024 φ₂) (p q : Fin 1024) :
    FloatOps.matmul dot_S1024x1024_S1024x1024_S1024x1024_1_0_0_1_n_n none x w (constant (F := Ideal) S1024x1024 .f32 0x00000000#32) (ix2 p q)
      = ∑ l : Fin 1024, x (ix2 p l) * w (ix2 l q) := by
  rw [Ideal.matmul_constant_zero_apply, ← Equiv.sum_comp (contrEquiv1 dot_S1024x1024_S1024x1024_S1024x1024_1_0_0_1_n_n 1024 rfl rfl).symm]
  refine Finset.sum_congr rfl fun l _ => ?_
  have hl := contrEquiv1_symm_val dot_S1024x1024_S1024x1024_S1024x1024_1_0_0_1_n_n 1024 rfl rfl l
  have el : dot_S1024x1024_S1024x1024_S1024x1024_1_0_0_1_n_n.lhsIdx (ix2 p q) ((contrEquiv1 dot_S1024x1024_S1024x1024_S1024x1024_1_0_0_1_n_n 1024 rfl rfl).symm l) = ix2 p l := funext fun a => Fin.ext (by
    match a with
    | ⟨0, _⟩ => exact lhs_tile_0 _ _
    | ⟨1, _⟩ => exact (lhs_tile_1 _ _).trans hl)
  have er : dot_S1024x1024_S1024x1024_S1024x1024_1_0_0_1_n_n.rhsIdx (ix2 p q) ((contrEquiv1 dot_S1024x1024_S1024x1024_S1024x1024_1_0_0_1_n_n 1024 rfl rfl).symm l) = ix2 l q := funext fun a => Fin.ext (by
    match a with
    | ⟨0, _⟩ => exact (rhs_tile_0 _ _).trans hl
    | ⟨1, _⟩ => exact rhs_tile_1 _ _)
  rw [el, er]

end Cert.KernelIdeal.Linear

end
-- ==== Proof.KernelIdeal.Layer0.Value.lean ====
import proofs.«134883_j40123584479654_1_alg».proof.Proof.KernelIdeal.Layer0.Accum
import proofs.«134883_j40123584479654_1_alg».proof.Proof.Coupling
import proofs.«134883_j40123584479654_1_alg».proof.Proof.KernelIdeal.TileProduct
import Idealize.ShloMosaic.PureOps.Ideal.Laws
import Idealize.ShloMosaic.Lib.ValueIdx
import Idealize.ShloMosaic.Lib.Pipeline.Value

set_option maxRecDepth 16384

noncomputable section

namespace Cert.KernelIdeal.Linear

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem cleared0_apply (i : S1024x1024.Idx) : k0_pay1 (F := Ideal) i = 0 := by
  unfold k0_pay1
  simp only [shapeCast_self]
  exact Ideal.ofBits_zero_f32

theorem step0_apply (x w a : Vec Ideal S1024x1024 .f32) (p q : Fin 1024) :
    k0_pay2 x w a (ix2 p q) = a (ix2 p q) + ∑ l : Fin 1024, x (ix2 p l) * w (ix2 l q) := by
  unfold k0_pay2
  simp only [shapeCast_self]
  refine congrArg (a (ix2 p q) + ·) ?_
  exact tile_product_apply (φ₁ := .bf16) (φ₂ := .bf16) (truncf .bf16 x bitsLt_bf16_f32) (truncf .bf16 w bitsLt_bf16_f32) p q

theorem store0_apply (s : Vec Ideal S1024x1024 .f32) (b : Vec Ideal S1x1024 .f32) (p q : Fin 1024) :
    k0_pay3 s b (ix2 p q) = max (s (ix2 p q) + b (ix2 0 q)) 0 := by
  unfold k0_pay3
  simp only [shapeCast_self]
  rw [maximumf_apply, addf_apply, broadcast_apply,
    broadcastTo_apply b broadcasts_S1x1024_S1024x1024 (ix2 p q) (ix2 0 q) (fun a => by
      match a with
      | ⟨0, _⟩ => rfl
      | ⟨1, _⟩ => rfl)]
  exact congrArg (max _) Ideal.ofBits_zero_f32

theorem point0_apply (x w : Vec Ideal S1024x1024 .f32) (b : Vec Ideal S1x1024 .f32) (p q : Fin 1024) :
    k0_pay3 (k0_pay2 x w (k0_pay1 (F := Ideal))) b (ix2 p q)
      = max ((∑ l : Fin 1024, x (ix2 p l) * w (ix2 l q)) + b (ix2 0 q)) 0 := by
  rw [store0_apply, step0_apply, cleared0_apply, zero_add]

theorem point0_value (X : Coupling.Mat 4096 1024) (W : Coupling.Mat 1024 4096) (B : Coupling.Mat 1 4096)
    (x w : Vec Ideal S1024x1024 .f32) (b : Vec Ideal S1x1024 .f32) (p q : Fin 1024) (r s : Fin 4096)
    (hx : ∀ l : Fin 1024, x (ix2 p l) = X (ix2 r l)) (hw : ∀ l : Fin 1024, w (ix2 l q) = W (ix2 l s))
    (hb : b (ix2 0 q) = B (ix2 0 s)) :
    k0_pay3 (k0_pay2 x w (k0_pay1 (F := Ideal))) b (ix2 p q) = Coupling.hidden X W B (ix2 r s) := by
  rw [point0_apply, Coupling.hidden_apply, hb, Finset.sum_congr rfl fun l _ => by rw [hx l, hw l]]

theorem maps0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 3 ∧ win0_3.index t (1 : Fin 2) ≤ 3 :=
  (by decide +kernel : ∀ t : Fin grid0.N, _)

theorem onto0 : ∀ (q0 q1 : Fin 4), ∃ t : Fin cfg0.N, win0_3.index t = ![q0.val, q1.val] :=
  (by decide +kernel : ∀ (q0 q1 : Fin 4), ∃ t : Fin grid0.N, win0_3.index t = ![q0.val, q1.val])

section Tiles

variable {F : FTy → Type} [FloatOps F]
variable (V : (c : Dev nD) → (b : Ref sig .tc) → Buf (Elt F) ((c : Thread nD τ).loc b))

theorem tile0_0_apply (c : Dev nD) (t : Fin cfg0.N) (y : S1024x1024.Idx) (k : S4096x1024.Idx)
    (h0 : (k 0).val = win0_0.index t 0 * 1024 + (y 0).val) (h1 : (k 1).val = win0_0.index t 1 * 1024 + (y 1).val) :
    (tile0 V c 0 t : Vec F S1024x1024 .f32) y = (V c (Pipeline.arrRef spec0 0) : S4096x1024.Idx → Elt F .f32) k := by
  unfold tile0
  rw [View.read_apply]
  show V c (Pipeline.arrRef spec0 0) _ = V c (Pipeline.arrRef spec0 0) _
  congr 1
  funext a
  apply Fin.ext
  match a with
  | ⟨0, _⟩ => show win0_0.index t 0 * 1024 + 1 * (y 0).val = (k 0).val; rw [h0]; omega
  | ⟨1, _⟩ => show win0_0.index t 1 * 1024 + 1 * (y 1).val = (k 1).val; rw [h1]; omega

theorem tile0_1_apply (c : Dev nD) (t : Fin cfg0.N) (y : S1024x1024.Idx) (k : S1024x4096.Idx)
    (h0 : (k 0).val = win0_1.index t 0 * 1024 + (y 0).val) (h1 : (k 1).val = win0_1.index t 1 * 1024 + (y 1).val) :
    (tile0 V c 1 t : Vec F S1024x1024 .f32) y = (V c (Pipeline.arrRef spec0 1) : S1024x4096.Idx → Elt F .f32) k := by
  unfold tile0
  rw [View.read_apply]
  show V c (Pipeline.arrRef spec0 1) _ = V c (Pipeline.arrRef spec0 1) _
  congr 1
  funext a
  apply Fin.ext
  match a with
  | ⟨0, _⟩ => show win0_1.index t 0 * 1024 + 1 * (y 0).val = (k 0).val; rw [h0]; omega
  | ⟨1, _⟩ => show win0_1.index t 1 * 1024 + 1 * (y 1).val = (k 1).val; rw [h1]; omega

theorem tile0_2_apply (c : Dev nD) (t : Fin cfg0.N) (y : S1x1024.Idx) (k : S1x4096.Idx)
    (h0 : (k 0).val = win0_2.index t 0 * 1 + (y 0).val) (h1 : (k 1).val = win0_2.index t 1 * 1024 + (y 1).val) :
    (tile0 V c 2 t : Vec F S1x1024 .f32) y = (V c (Pipeline.arrRef spec0 2) : S1x4096.Idx → Elt F .f32) k := by
  unfold tile0
  rw [View.read_apply]
  show V c (Pipeline.arrRef spec0 2) _ = V c (Pipeline.arrRef spec0 2) _
  congr 1
  funext a
  apply Fin.ext
  match a with
  | ⟨0, _⟩ => show win0_2.index t 0 * 1 + 1 * (y 0).val = (k 0).val; rw [h0]; omega
  | ⟨1, _⟩ => show win0_2.index t 1 * 1024 + 1 * (y 1).val = (k 1).val; rw [h1]; omega

end Tiles

section Ideal

variable (V : (c : Dev nD) → (b : Ref sig .tc) → Buf (Elt Ideal) ((c : Thread nD τ).loc b))

abbrev hidden0 (c : Dev nD) : Coupling.Mat 4096 4096 :=
  Coupling.hidden (m := 4096) (k := 1024) (n := 4096) (V c (Pipeline.arrRef spec0 0)) (V c (Pipeline.arrRef spec0 1)) (V c (Pipeline.arrRef spec0 2))

theorem flushed0_eq (c : Dev nD) (t : Fin cfg0.N) :
    (dat0 (F := Ideal) V c).flushed 3 t = ((cfg0.win 3).blk t).view.read (Elt Ideal) (hidden0 V c) := by
  show (cfg0.win 3).cut (grid0.coords t) ((dat0 V c).after 3 t) = _
  rw [after0_3]
  obtain ⟨e00, e01, e10, e11, e20, e21, b0, b1⟩ := maps0 t
  funext j
  obtain ⟨p, q, rfl⟩ : ∃ (p q : Fin 1024), j = ix2 p q := ⟨j 0, j 1, eq_ix2 j⟩
  have hp := p.isLt
  have hq := q.isLt
  obtain ⟨r, hr⟩ : ∃ r : Fin 4096, r.val = win0_3.index t 0 * 1024 + p.val := ⟨⟨_, by omega⟩, rfl⟩
  obtain ⟨s, hs⟩ : ∃ s : Fin 4096, s.val = win0_3.index t 1 * 1024 + q.val := ⟨⟨_, by omega⟩, rfl⟩
  have hemb : ((cfg0.win 3).blk t).view.emb (ix2 p q) = ix2 r s := funext fun a => Fin.ext (by
    match a with
    | ⟨0, _⟩ => show win0_3.index t 0 * 1024 + 1 * p.val = r.val; omega
    | ⟨1, _⟩ => show win0_3.index t 1 * 1024 + 1 * q.val = s.val; omega)
  show outAt0 V c t (ix2 p q) = hidden0 V c (((cfg0.win 3).blk t).view.emb (ix2 p q))
  rw [hemb]
  unfold outAt0 sumAt0
  refine point0_value _ _ _ _ _ _ p q r s (fun l => ?_) (fun l => ?_) ?_
  · exact tile0_0_apply V c t (ix2 p l) (ix2 r l) (by show r.val = win0_0.index t 0 * 1024 + p.val; omega)
      (by show l.val = win0_0.index t 1 * 1024 + l.val; omega)
  · exact tile0_1_apply V c t (ix2 l q) (ix2 l s) (by show l.val = win0_1.index t 0 * 1024 + l.val; omega)
      (by show s.val = win0_1.index t 1 * 1024 + q.val; omega)
  · exact tile0_2_apply V c t (ix2 0 q) (ix2 0 s) (by show (0 : Fin 1).val = win0_2.index t 0 * 1 + (0 : Fin 1).val; rw [e20]; rfl)
      (by show s.val = win0_2.index t 1 * 1024 + q.val; omega)

theorem mem_tile0 (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v6).slice (win0_3.rect t)).set ↔ _
  rw [View.set_slice_whole, Rect.mem_set_unit]
  exact Iff.rfl

theorem cover0 (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := onto0 ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_tile0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

theorem layer0_array (c : Dev nD) :
    (dat0 (F := Ideal) V c).arrAt 3 cfg0.N
      = Coupling.hidden (m := 4096) (k := 1024) (n := 4096) (V c (Pipeline.arrRef spec0 0)) (V c (Pipeline.arrRef spec0 1)) (V c (Pipeline.arrRef spec0 2)) :=
  (dat0 (F := Ideal) V c).arrAt_eq_of_cover 3 (hidden0 V c) (fun t _ => flushed0_eq V c t) cover0

end Ideal

end Cert.KernelIdeal.Linear

end
-- ==== Proof.KernelIdeal.Layer1.Payload.lean ====
import proofs.«134883_j40123584479654_1_alg».proof.Proof.Gen.KernelIdeal.Skeleton
import proofs.«134883_j40123584479654_1_alg».proof.Proof.KernelIdeal.TileProduct
import Idealize.ShloMosaic.Lib.Pipeline.Value

set_option maxRecDepth 16384

noncomputable section

namespace Cert.KernelIdeal.Linear

open Cert.KernelIdeal Cert.KernelIdeal.Gen
open Idealize.ShloMosaic Idealize.ShloMosaic.ValueIdx

theorem cleared1_apply (p q : Fin 1024) : (k1_pay1 (F := Ideal)) (ix2 p q) = 0 := by
  unfold k1_pay1
  simp only [shapeCast_self]
  exact Ideal.ofBits_zero_f32

theorem step1_apply (x w a : Vec Ideal S1024x1024 .f32) (p q : Fin 1024) :
    k1_pay2 (F := Ideal) x w a (ix2 p q) = a (ix2 p q) + ∑ l : Fin 1024, x (ix2 p l) * w (ix2 l q) := by
  unfold k1_pay2
  simp only [shapeCast_self]
  refine congrArg (a (ix2 p q) + ·) ?_
  exact tile_product_apply (φ₁ := .bf16) (φ₂ := .bf16) (truncf .bf16 x bitsLt_bf16_f32) (truncf .bf16 w bitsLt_bf16_f32) p q

theorem close1_apply (s : Vec Ideal S1024x1024 .f32) (b : Vec Ideal S1x1024 .f32) (p q : Fin 1024) :
    k1_pay3 (F := Ideal) s b (ix2 p q) = max (s (ix2 p q) + b (ix2 0 q)) 0 := by
  unfold k1_pay3
  simp only [shapeCast_self]
  refine congrArg₂ max (congrArg (s (ix2 p q) + ·) ?_) Ideal.ofBits_zero_f32
  refine broadcastTo_apply b broadcasts_S1x1024_S1024x1024 (ix2 p q) (ix2 0 q) fun a => ?_
  match a with
  | ⟨0, _⟩ => rfl
  | ⟨1, _⟩ => rfl

end Cert.KernelIdeal.Linear

end
-- ==== Proof.GroupedSum.lean ====
import Mathlib.Algebra.BigOperators.Fin

open scoped BigOperators

namespace GroupedSum

variable {M : Type*} [AddCommMonoid M]

theorem sum_two (a b : ℕ) (f : Fin (a + b) → M) :
    ∑ l, f l = ∑ l : Fin a, f ⟨l.val, Nat.lt_add_right b l.isLt⟩ + ∑ l : Fin b, f ⟨a + l.val, Nat.add_lt_add_left l.isLt a⟩ :=
  Fin.sum_univ_add f

theorem sum_four_groups (f : Fin 4096 → M) :
    ∑ l, f l
      = (((0 + ∑ l : Fin 1024, f ⟨l.val, by omega⟩) + ∑ l : Fin 1024, f ⟨1024 + l.val, by omega⟩)
          + ∑ l : Fin 1024, f ⟨2048 + l.val, by omega⟩) + ∑ l : Fin 1024, f ⟨3072 + l.val, by omega⟩ := by
  rw [zero_add]
  have e3 := sum_two (M := M) 3072 1024 f
  have e2 := sum_two (M := M) 2048 1024 fun l : Fin (2048 + 1024) => f ⟨l.val, by omega⟩
  have e1 := sum_two (M := M) 1024 1024 fun l : Fin (1024 + 1024) => f ⟨l.val, by omega⟩
  exact e3.trans (congrArg (· + _) (e2.trans (congrArg (· + _) e1)))

def group (f : Fin 4096 → M) (k : ℕ) : M :=
  if hk : k < 4 then ∑ l : Fin 1024, f ⟨1024 * k + l.val, by omega⟩ else 0

theorem group_eq (f : Fin 4096 → M) (k : ℕ) (hk : k < 4) :
    group f k = ∑ l : Fin 1024, f ⟨1024 * k + l.val, by omega⟩ := dif_pos hk

theorem sum_eq_groups (f : Fin 4096 → M) : ∑ l, f l = ∑ k ∈ Finset.range 4, group f k := by
  rw [sum_four_groups f, Finset.sum_range_succ, Finset.sum_range_succ, Finset.sum_range_succ, Finset.sum_range_succ,
    Finset.sum_range_zero, group_eq f 0 (by decide), group_eq f 1 (by decide), group_eq f 2 (by decide), group_eq f 3 (by decide)]
  refine congrArg₂ (· + ·) (congrArg₂ (· + ·) (congrArg₂ (· + ·) (congrArg (0 + ·) ?_) ?_) ?_) ?_ <;>
    exact Finset.sum_congr rfl fun l _ => congrArg f (Fin.ext (by dsimp only <;> omega))

end GroupedSum
-- ==== Proof.KernelIdeal.Layer1.Value.lean ====
import proofs.«134883_j40123584479654_1_alg».proof.Proof.KernelIdeal.Layer1.Accum
import proofs.«134883_j40123584479654_1_alg».proof.Proof.KernelIdeal.Layer1.Payload
import proofs.«134883_j40123584479654_1_alg».proof.Proof.Coupling
import proofs.«134883_j40123584479654_1_alg».proof.Proof.GroupedSum
import Idealize.ShloMosaic.PureOps.Ideal.Laws
import Idealize.ShloMosaic.Lib.ValueIdx
import Idealize.ShloMosaic.Lib.Pipeline.Value

set_option maxRecDepth 16384

noncomputable section

namespace Cert.KernelIdeal.Linear

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev lhs1 (c : Dev nD) : Coupling.Mat 4096 4096 := V c (Pipeline.arrRef spec1 0)

abbrev rhs1 (c : Dev nD) : Coupling.Mat 4096 4096 := V c (Pipeline.arrRef spec1 1)

abbrev bias1 (c : Dev nD) : Coupling.Mat 1 4096 := V c (Pipeline.arrRef spec1 2)

abbrev lhsTile1 (c : Dev nD) (t : Fin cfg1.N) : Vec Ideal S1024x1024 .f32 := tile1 V c 0 t
abbrev rhsTile1 (c : Dev nD) (t : Fin cfg1.N) : Vec Ideal S1024x1024 .f32 := tile1 V c 1 t
abbrev biasTile1 (c : Dev nD) (t : Fin cfg1.N) : Vec Ideal S1x1024 .f32 := tile1 V c 2 t

theorem maps1 : ∀ t : Fin cfg1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

theorem lhsTile1_apply (c : Dev nD) (t : Fin cfg1.N) (p l : Fin 1024) (r k : Fin 4096)
    (hr : r.val = 1024 * (t.val / 16) + p.val) (hk : k.val = 1024 * (t.val % 4) + l.val) :
    lhsTile1 V c t (ix2 p l) = lhs1 V c (ix2 r k) := by
  unfold lhsTile1 tile1
  rw [View.read_apply]
  show V c (Pipeline.arrRef spec1 0) _ = V c (Pipeline.arrRef spec1 0) _
  refine congrArg _ (funext fun a => Fin.ext ?_)
  obtain ⟨e0, e1, -⟩ := maps1 t
  match a with
  | ⟨0, _⟩ => show win1_0.index t (0 : Fin 2) * 1024 + 1 * p.val = r.val; rw [e0, hr]; omega
  | ⟨1, _⟩ => show win1_0.index t (1 : Fin 2) * 1024 + 1 * l.val = k.val; rw [e1, hk]; omega

theorem rhsTile1_apply (c : Dev nD) (t : Fin cfg1.N) (l q : Fin 1024) (k cc : Fin 4096)
    (hk : k.val = 1024 * (t.val % 4) + l.val) (hc : cc.val = 1024 * (t.val / 4 % 4) + q.val) :
    rhsTile1 V c t (ix2 l q) = rhs1 V c (ix2 k cc) := by
  unfold rhsTile1 tile1
  rw [View.read_apply]
  show V c (Pipeline.arrRef spec1 1) _ = V c (Pipeline.arrRef spec1 1) _
  refine congrArg _ (funext fun a => Fin.ext ?_)
  obtain ⟨-, -, e0, e1, -⟩ := maps1 t
  match a with
  | ⟨0, _⟩ => show win1_1.index t (0 : Fin 2) * 1024 + 1 * l.val = k.val; rw [e0, hk]; omega
  | ⟨1, _⟩ => show win1_1.index t (1 : Fin 2) * 1024 + 1 * q.val = cc.val; rw [e1, hc]; omega

theorem biasTile1_apply (c : Dev nD) (t : Fin cfg1.N) (q : Fin 1024) (cc : Fin 4096)
    (hc : cc.val = 1024 * (t.val / 4 % 4) + q.val) :
    biasTile1 V c t (ix2 0 q) = bias1 V c (ix2 0 cc) := by
  unfold biasTile1 tile1
  rw [View.read_apply]
  show V c (Pipeline.arrRef spec1 2) _ = V c (Pipeline.arrRef spec1 2) _
  refine congrArg _ (funext fun a => Fin.ext ?_)
  obtain ⟨-, -, -, -, e0, e1, -⟩ := maps1 t
  match a with
  | ⟨0, _⟩ => show win1_2.index t (0 : Fin 2) * 1 + 1 * 0 = 0; rw [e0]
  | ⟨1, _⟩ => show win1_2.index t (1 : Fin 2) * 1024 + 1 * q.val = cc.val; rw [e1, hc]; omega

abbrev term1 (c : Dev nD) (r cc : Fin 4096) : Fin 4096 → EReal := fun m => lhs1 V c (ix2 r m) * rhs1 V c (ix2 m cc)

theorem step_at1 (c : Dev nD) (t : Fin cfg1.N) (a : Vec Ideal S1024x1024 .f32) (p q : Fin 1024) (r cc : Fin 4096)
    (hr : r.val = 1024 * (t.val / 16) + p.val) (hc : cc.val = 1024 * (t.val / 4 % 4) + q.val) :
    k1_pay2 (F := Ideal) (lhsTile1 V c t) (rhsTile1 V c t) a (ix2 p q)
      = a (ix2 p q) + GroupedSum.group (term1 V c r cc) (t.val % 4) := by
  refine (step1_apply (lhsTile1 V c t) (rhsTile1 V c t) a p q).trans ?_
  rw [GroupedSum.group_eq _ _ (Nat.mod_lt _ (by decide))]
  refine congrArg (a (ix2 p q) + ·) (Finset.sum_congr rfl fun l _ => ?_)
  have hb : 1024 * (t.val % 4) + l.val < 4096 := by have := l.isLt; omega
  rw [lhsTile1_apply V c t p l r ⟨1024 * (t.val % 4) + l.val, hb⟩ hr rfl,
    rhsTile1_apply V c t l q ⟨1024 * (t.val % 4) + l.val, hb⟩ cc rfl hc]

theorem closed1 (c : Dev nD) (t : Fin cfg1.N) (h3 : t.val % 4 = 3) (p q : Fin 1024) (r cc : Fin 4096)
    (hr : r.val = 1024 * (t.val / 16) + p.val) (hc : cc.val = 1024 * (t.val / 4 % 4) + q.val) :
    sumAt1 V c t.val t.isLt (ix2 p q) = ∑ l : Fin 4096, lhs1 V c (ix2 r l) * rhs1 V c (ix2 l cc) := by
  refine (Cert.Linear.sumAt_groups (M := EReal) _ _ _ _ (ix2 p q) (GroupedSum.group (term1 V c r cc)) (cleared1_apply p q) t.val t.isLt
    fun k hk hg a => step_at1 V c ⟨k, hk⟩ a p q r cc (by dsimp only; omega) (by dsimp only; omega)).trans ?_
  rw [h3]
  exact (GroupedSum.sum_eq_groups (term1 V c r cc)).symm

theorem flushed1_eq (c : Dev nD) (t : Fin cfg1.N) (hf : (cfg1.win 3).flush t = true) :
    (dat1 (F := Ideal) V c).flushed 3 t
      = ((cfg1.win 3).blk t).view.read (Elt Ideal) (Coupling.hidden (lhs1 V c) (rhs1 V c) (bias1 V c)) := by
  have h3 : t.val % 4 = 3 := (flush1_3 t).mp hf
  have hN : t.val < 64 := lt_of_lt_of_eq t.isLt N_1
  show (cfg1.win 3).cut (grid1.coords t) ((dat1 V c).after 3 t) = _
  rw [after1_3]
  funext j
  obtain ⟨p, q, rfl⟩ : ∃ (p q : Fin 1024), j = ix2 p q := ⟨j 0, j 1, eq_ix2 j⟩
  rw [View.read_apply]
  obtain ⟨-, -, -, -, -, -, e0, e1⟩ := maps1 t
  obtain ⟨r, hr⟩ : ∃ r : Fin 4096, r.val = 1024 * (t.val / 16) + p.val := ⟨⟨_, by have := p.isLt; omega⟩, rfl⟩
  obtain ⟨cc, hc⟩ : ∃ cc : Fin 4096, cc.val = 1024 * (t.val / 4 % 4) + q.val := ⟨⟨_, by have := q.isLt; omega⟩, rfl⟩
  have he : ((cfg1.win 3).blk t).view.emb (ix2 p q) = ix2 r cc :=
    funext fun a => Fin.ext (by
      match a with
      | ⟨0, _⟩ => show win1_3.index t (0 : Fin 2) * 1024 + 1 * p.val = r.val; rw [e0, hr]; omega
      | ⟨1, _⟩ => show win1_3.index t (1 : Fin 2) * 1024 + 1 * q.val = cc.val; rw [e1, hc]; omega)
  show outAt1 V c t (ix2 p q) = Coupling.hidden (lhs1 V c) (rhs1 V c) (bias1 V c) (((cfg1.win 3).blk t).view.emb (ix2 p q))
  rw [he, Coupling.hidden_apply]
  unfold outAt1
  refine (close1_apply (sumAt1 V c t.val t.isLt) (biasTile1 V c t) p q).trans ?_
  rw [closed1 V c t h3 p q r cc hr hc, biasTile1_apply V c t q cc hc]

theorem cover1 (c : Dev nD) (i : ((cfg1.win 3).arr.view.loc (c.tc : Thread nD τ)).2.ty.Idx) :
    ∃ t : Fin cfg1.N, (cfg1.win 3).flush t = true ∧ i ∈ ((cfg1.win 3).blk t).view.set := by
  have h0 : (i 0).val < 4096 := (i 0).isLt
  have h1 : (i 1).val < 4096 := (i 1).isLt
  have hb : 16 * ((i 0).val / 1024) + 4 * ((i 1).val / 1024) + 3 < cfg1.N := by
    rw [show cfg1.N = 64 from N_1]; omega
  refine ⟨⟨16 * ((i 0).val / 1024) + 4 * ((i 1).val / 1024) + 3, hb⟩, (flush1_3 _).mpr (by dsimp only; omega), ?_⟩
  obtain ⟨-, -, -, -, -, -, e0, e1⟩ := maps1 ⟨16 * ((i 0).val / 1024) + 4 * ((i 1).val / 1024) + 3, hb⟩
  dsimp only at e0 e1
  show i ∈ ((View.whole (Pipeline.arrRef spec1 3)).slice (win1_3.rect ⟨16 * ((i 0).val / 1024) + 4 * ((i 1).val / 1024) + 3, hb⟩)).set
  rw [View.set_slice_whole, Rect.mem_set_unit]
  intro a
  match a with
  | ⟨0, _⟩ =>
    show win1_3.index _ (0 : Fin 2) * 1024 ≤ (i 0).val ∧ (i 0).val < win1_3.index _ (0 : Fin 2) * 1024 + 1024
    rw [e0]; omega
  | ⟨1, _⟩ =>
    show win1_3.index _ (1 : Fin 2) * 1024 ≤ (i 1).val ∧ (i 1).val < win1_3.index _ (1 : Fin 2) * 1024 + 1024
    rw [e1]; omega

theorem layer1_array (c : Dev nD) :
    (dat1 (F := Ideal) V c).arrAt 3 cfg1.N
      = Coupling.hidden (m := 4096) (k := 4096) (n := 4096) (V c (Pipeline.arrRef spec1 0)) (V c (Pipeline.arrRef spec1 1)) (V c (Pipeline.arrRef spec1 2)) :=
  (dat1 (F := Ideal) V c).arrAt_eq_of_cover 3 (Coupling.hidden (lhs1 V c) (rhs1 V c) (bias1 V c)) (flushed1_eq V c) (cover1 c)

end Cert.KernelIdeal.Linear

end
-- ==== Proof.KernelIdeal.Layer2.Value.lean ====
import proofs.«134883_j40123584479654_1_alg».proof.Proof.KernelIdeal.Layer2.Accum
import proofs.«134883_j40123584479654_1_alg».proof.Proof.KernelIdeal.Layer1.Payload
import proofs.«134883_j40123584479654_1_alg».proof.Proof.Coupling
import proofs.«134883_j40123584479654_1_alg».proof.Proof.GroupedSum
import Idealize.ShloMosaic.PureOps.Ideal.Laws
import Idealize.ShloMosaic.Lib.ValueIdx
import Idealize.ShloMosaic.Lib.Pipeline.Value

set_option maxRecDepth 16384

noncomputable section

namespace Cert.KernelIdeal.Linear

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev lhs2 (c : Dev nD) : Coupling.Mat 4096 4096 := V c (Pipeline.arrRef spec2 0)

abbrev rhs2 (c : Dev nD) : Coupling.Mat 4096 4096 := V c (Pipeline.arrRef spec2 1)

abbrev bias2 (c : Dev nD) : Coupling.Mat 1 4096 := V c (Pipeline.arrRef spec2 2)

abbrev lhsTile2 (c : Dev nD) (t : Fin cfg2.N) : Vec Ideal S1024x1024 .f32 := tile2 V c 0 t
abbrev rhsTile2 (c : Dev nD) (t : Fin cfg2.N) : Vec Ideal S1024x1024 .f32 := tile2 V c 1 t
abbrev biasTile2 (c : Dev nD) (t : Fin cfg2.N) : Vec Ideal S1x1024 .f32 := tile2 V c 2 t

theorem maps2 : ∀ t : Fin cfg2.N,
    win2_0.index t (0 : Fin 2) = t.val / 16 ∧ win2_0.index t (1 : Fin 2) = t.val % 4
    ∧ win2_1.index t (0 : Fin 2) = t.val % 4 ∧ win2_1.index t (1 : Fin 2) = t.val / 4 % 4
    ∧ win2_2.index t (0 : Fin 2) = 0 ∧ win2_2.index t (1 : Fin 2) = t.val / 4 % 4
    ∧ win2_3.index t (0 : Fin 2) = t.val / 16 ∧ win2_3.index t (1 : Fin 2) = t.val / 4 % 4 :=
  (by decide +kernel : ∀ t : Fin grid2.N, _)

theorem lhsTile2_apply (c : Dev nD) (t : Fin cfg2.N) (p l : Fin 1024) (r k : Fin 4096)
    (hr : r.val = 1024 * (t.val / 16) + p.val) (hk : k.val = 1024 * (t.val % 4) + l.val) :
    lhsTile2 V c t (ix2 p l) = lhs2 V c (ix2 r k) := by
  unfold lhsTile2 tile2
  rw [View.read_apply]
  show V c (Pipeline.arrRef spec2 0) _ = V c (Pipeline.arrRef spec2 0) _
  refine congrArg _ (funext fun a => Fin.ext ?_)
  obtain ⟨e0, e1, -⟩ := maps2 t
  match a with
  | ⟨0, _⟩ => show win2_0.index t (0 : Fin 2) * 1024 + 1 * p.val = r.val; rw [e0, hr]; omega
  | ⟨1, _⟩ => show win2_0.index t (1 : Fin 2) * 1024 + 1 * l.val = k.val; rw [e1, hk]; omega

theorem rhsTile2_apply (c : Dev nD) (t : Fin cfg2.N) (l q : Fin 1024) (k cc : Fin 4096)
    (hk : k.val = 1024 * (t.val % 4) + l.val) (hc : cc.val = 1024 * (t.val / 4 % 4) + q.val) :
    rhsTile2 V c t (ix2 l q) = rhs2 V c (ix2 k cc) := by
  unfold rhsTile2 tile2
  rw [View.read_apply]
  show V c (Pipeline.arrRef spec2 1) _ = V c (Pipeline.arrRef spec2 1) _
  refine congrArg _ (funext fun a => Fin.ext ?_)
  obtain ⟨-, -, e0, e1, -⟩ := maps2 t
  match a with
  | ⟨0, _⟩ => show win2_1.index t (0 : Fin 2) * 1024 + 1 * l.val = k.val; rw [e0, hk]; omega
  | ⟨1, _⟩ => show win2_1.index t (1 : Fin 2) * 1024 + 1 * q.val = cc.val; rw [e1, hc]; omega

theorem biasTile2_apply (c : Dev nD) (t : Fin cfg2.N) (q : Fin 1024) (cc : Fin 4096)
    (hc : cc.val = 1024 * (t.val / 4 % 4) + q.val) :
    biasTile2 V c t (ix2 0 q) = bias2 V c (ix2 0 cc) := by
  unfold biasTile2 tile2
  rw [View.read_apply]
  show V c (Pipeline.arrRef spec2 2) _ = V c (Pipeline.arrRef spec2 2) _
  refine congrArg _ (funext fun a => Fin.ext ?_)
  obtain ⟨-, -, -, -, e0, e1, -⟩ := maps2 t
  match a with
  | ⟨0, _⟩ => show win2_2.index t (0 : Fin 2) * 1 + 1 * 0 = 0; rw [e0]
  | ⟨1, _⟩ => show win2_2.index t (1 : Fin 2) * 1024 + 1 * q.val = cc.val; rw [e1, hc]; omega

abbrev term2 (c : Dev nD) (r cc : Fin 4096) : Fin 4096 → EReal := fun m => lhs2 V c (ix2 r m) * rhs2 V c (ix2 m cc)

theorem step_at2 (c : Dev nD) (t : Fin cfg2.N) (a : Vec Ideal S1024x1024 .f32) (p q : Fin 1024) (r cc : Fin 4096)
    (hr : r.val = 1024 * (t.val / 16) + p.val) (hc : cc.val = 1024 * (t.val / 4 % 4) + q.val) :
    k1_pay2 (F := Ideal) (lhsTile2 V c t) (rhsTile2 V c t) a (ix2 p q)
      = a (ix2 p q) + GroupedSum.group (term2 V c r cc) (t.val % 4) := by
  refine (step1_apply (lhsTile2 V c t) (rhsTile2 V c t) a p q).trans ?_
  rw [GroupedSum.group_eq _ _ (Nat.mod_lt _ (by decide))]
  refine congrArg (a (ix2 p q) + ·) (Finset.sum_congr rfl fun l _ => ?_)
  have hb : 1024 * (t.val % 4) + l.val < 4096 := by have := l.isLt; omega
  rw [lhsTile2_apply V c t p l r ⟨1024 * (t.val % 4) + l.val, hb⟩ hr rfl,
    rhsTile2_apply V c t l q ⟨1024 * (t.val % 4) + l.val, hb⟩ cc rfl hc]

theorem closed2 (c : Dev nD) (t : Fin cfg2.N) (h3 : t.val % 4 = 3) (p q : Fin 1024) (r cc : Fin 4096)
    (hr : r.val = 1024 * (t.val / 16) + p.val) (hc : cc.val = 1024 * (t.val / 4 % 4) + q.val) :
    sumAt2 V c t.val t.isLt (ix2 p q) = ∑ l : Fin 4096, lhs2 V c (ix2 r l) * rhs2 V c (ix2 l cc) := by
  refine (Cert.Linear.sumAt_groups (M := EReal) _ _ _ _ (ix2 p q) (GroupedSum.group (term2 V c r cc)) (cleared1_apply p q) t.val t.isLt
    fun k hk hg a => step_at2 V c ⟨k, hk⟩ a p q r cc (by dsimp only; omega) (by dsimp only; omega)).trans ?_
  rw [h3]
  exact (GroupedSum.sum_eq_groups (term2 V c r cc)).symm

theorem flushed2_eq (c : Dev nD) (t : Fin cfg2.N) (hf : (cfg2.win 3).flush t = true) :
    (dat2 (F := Ideal) V c).flushed 3 t
      = ((cfg2.win 3).blk t).view.read (Elt Ideal) (Coupling.hidden (lhs2 V c) (rhs2 V c) (bias2 V c)) := by
  have h3 : t.val % 4 = 3 := (flush2_3 t).mp hf
  have hN : t.val < 64 := lt_of_lt_of_eq t.isLt N_2
  show (cfg2.win 3).cut (grid2.coords t) ((dat2 V c).after 3 t) = _
  rw [after2_3]
  funext j
  obtain ⟨p, q, rfl⟩ : ∃ (p q : Fin 1024), j = ix2 p q := ⟨j 0, j 1, eq_ix2 j⟩
  rw [View.read_apply]
  obtain ⟨-, -, -, -, -, -, e0, e1⟩ := maps2 t
  obtain ⟨r, hr⟩ : ∃ r : Fin 4096, r.val = 1024 * (t.val / 16) + p.val := ⟨⟨_, by have := p.isLt; omega⟩, rfl⟩
  obtain ⟨cc, hc⟩ : ∃ cc : Fin 4096, cc.val = 1024 * (t.val / 4 % 4) + q.val := ⟨⟨_, by have := q.isLt; omega⟩, rfl⟩
  have he : ((cfg2.win 3).blk t).view.emb (ix2 p q) = ix2 r cc :=
    funext fun a => Fin.ext (by
      match a with
      | ⟨0, _⟩ => show win2_3.index t (0 : Fin 2) * 1024 + 1 * p.val = r.val; rw [e0, hr]; omega
      | ⟨1, _⟩ => show win2_3.index t (1 : Fin 2) * 1024 + 1 * q.val = cc.val; rw [e1, hc]; omega)
  show outAt2 V c t (ix2 p q) = Coupling.hidden (lhs2 V c) (rhs2 V c) (bias2 V c) (((cfg2.win 3).blk t).view.emb (ix2 p q))
  rw [he, Coupling.hidden_apply]
  unfold outAt2
  refine (close1_apply (sumAt2 V c t.val t.isLt) (biasTile2 V c t) p q).trans ?_
  rw [closed2 V c t h3 p q r cc hr hc, biasTile2_apply V c t q cc hc]

theorem cover2 (c : Dev nD) (i : ((cfg2.win 3).arr.view.loc (c.tc : Thread nD τ)).2.ty.Idx) :
    ∃ t : Fin cfg2.N, (cfg2.win 3).flush t = true ∧ i ∈ ((cfg2.win 3).blk t).view.set := by
  have h0 : (i 0).val < 4096 := (i 0).isLt
  have h1 : (i 1).val < 4096 := (i 1).isLt
  have hb : 16 * ((i 0).val / 1024) + 4 * ((i 1).val / 1024) + 3 < cfg2.N := by
    rw [show cfg2.N = 64 from N_2]; omega
  refine ⟨⟨16 * ((i 0).val / 1024) + 4 * ((i 1).val / 1024) + 3, hb⟩, (flush2_3 _).mpr (by dsimp only; omega), ?_⟩
  obtain ⟨-, -, -, -, -, -, e0, e1⟩ := maps2 ⟨16 * ((i 0).val / 1024) + 4 * ((i 1).val / 1024) + 3, hb⟩
  dsimp only at e0 e1
  show i ∈ ((View.whole (Pipeline.arrRef spec2 3)).slice (win2_3.rect ⟨16 * ((i 0).val / 1024) + 4 * ((i 1).val / 1024) + 3, hb⟩)).set
  rw [View.set_slice_whole, Rect.mem_set_unit]
  intro a
  match a with
  | ⟨0, _⟩ =>
    show win2_3.index _ (0 : Fin 2) * 1024 ≤ (i 0).val ∧ (i 0).val < win2_3.index _ (0 : Fin 2) * 1024 + 1024
    rw [e0]; omega
  | ⟨1, _⟩ =>
    show win2_3.index _ (1 : Fin 2) * 1024 ≤ (i 1).val ∧ (i 1).val < win2_3.index _ (1 : Fin 2) * 1024 + 1024
    rw [e1]; omega

theorem layer2_array (c : Dev nD) :
    (dat2 (F := Ideal) V c).arrAt 3 cfg2.N
      = Coupling.hidden (m := 4096) (k := 4096) (n := 4096) (V c (Pipeline.arrRef spec2 0)) (V c (Pipeline.arrRef spec2 1)) (V c (Pipeline.arrRef spec2 2)) :=
  (dat2 (F := Ideal) V c).arrAt_eq_of_cover 3 (Coupling.hidden (lhs2 V c) (rhs2 V c) (bias2 V c)) (flushed2_eq V c) (cover2 c)

end Cert.KernelIdeal.Linear

end
-- ==== Proof.KernelIdeal.Layer3.Value.lean ====
import proofs.«134883_j40123584479654_1_alg».proof.Proof.KernelIdeal.Layer3.Accum
import proofs.«134883_j40123584479654_1_alg».proof.Proof.KernelIdeal.Layer1.Payload
import proofs.«134883_j40123584479654_1_alg».proof.Proof.Coupling
import proofs.«134883_j40123584479654_1_alg».proof.Proof.GroupedSum
import Idealize.ShloMosaic.PureOps.Ideal.Laws
import Idealize.ShloMosaic.Lib.ValueIdx
import Idealize.ShloMosaic.Lib.Pipeline.Value

set_option maxRecDepth 16384

noncomputable section

namespace Cert.KernelIdeal.Linear

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev lhs3 (c : Dev nD) : Coupling.Mat 4096 4096 := V c (Pipeline.arrRef spec3 0)

abbrev rhs3 (c : Dev nD) : Coupling.Mat 4096 4096 := V c (Pipeline.arrRef spec3 1)

abbrev bias3 (c : Dev nD) : Coupling.Mat 1 4096 := V c (Pipeline.arrRef spec3 2)

abbrev lhsTile3 (c : Dev nD) (t : Fin cfg3.N) : Vec Ideal S1024x1024 .f32 := tile3 V c 0 t
abbrev rhsTile3 (c : Dev nD) (t : Fin cfg3.N) : Vec Ideal S1024x1024 .f32 := tile3 V c 1 t
abbrev biasTile3 (c : Dev nD) (t : Fin cfg3.N) : Vec Ideal S1x1024 .f32 := tile3 V c 2 t

theorem maps3 : ∀ t : Fin cfg3.N,
    win3_0.index t (0 : Fin 2) = t.val / 16 ∧ win3_0.index t (1 : Fin 2) = t.val % 4
    ∧ win3_1.index t (0 : Fin 2) = t.val % 4 ∧ win3_1.index t (1 : Fin 2) = t.val / 4 % 4
    ∧ win3_2.index t (0 : Fin 2) = 0 ∧ win3_2.index t (1 : Fin 2) = t.val / 4 % 4
    ∧ win3_3.index t (0 : Fin 2) = t.val / 16 ∧ win3_3.index t (1 : Fin 2) = t.val / 4 % 4 :=
  (by decide +kernel : ∀ t : Fin grid3.N, _)

theorem lhsTile3_apply (c : Dev nD) (t : Fin cfg3.N) (p l : Fin 1024) (r k : Fin 4096)
    (hr : r.val = 1024 * (t.val / 16) + p.val) (hk : k.val = 1024 * (t.val % 4) + l.val) :
    lhsTile3 V c t (ix2 p l) = lhs3 V c (ix2 r k) := by
  unfold lhsTile3 tile3
  rw [View.read_apply]
  show V c (Pipeline.arrRef spec3 0) _ = V c (Pipeline.arrRef spec3 0) _
  refine congrArg _ (funext fun a => Fin.ext ?_)
  obtain ⟨e0, e1, -⟩ := maps3 t
  match a with
  | ⟨0, _⟩ => show win3_0.index t (0 : Fin 2) * 1024 + 1 * p.val = r.val; rw [e0, hr]; omega
  | ⟨1, _⟩ => show win3_0.index t (1 : Fin 2) * 1024 + 1 * l.val = k.val; rw [e1, hk]; omega

theorem rhsTile3_apply (c : Dev nD) (t : Fin cfg3.N) (l q : Fin 1024) (k cc : Fin 4096)
    (hk : k.val = 1024 * (t.val % 4) + l.val) (hc : cc.val = 1024 * (t.val / 4 % 4) + q.val) :
    rhsTile3 V c t (ix2 l q) = rhs3 V c (ix2 k cc) := by
  unfold rhsTile3 tile3
  rw [View.read_apply]
  show V c (Pipeline.arrRef spec3 1) _ = V c (Pipeline.arrRef spec3 1) _
  refine congrArg _ (funext fun a => Fin.ext ?_)
  obtain ⟨-, -, e0, e1, -⟩ := maps3 t
  match a with
  | ⟨0, _⟩ => show win3_1.index t (0 : Fin 2) * 1024 + 1 * l.val = k.val; rw [e0, hk]; omega
  | ⟨1, _⟩ => show win3_1.index t (1 : Fin 2) * 1024 + 1 * q.val = cc.val; rw [e1, hc]; omega

theorem biasTile3_apply (c : Dev nD) (t : Fin cfg3.N) (q : Fin 1024) (cc : Fin 4096)
    (hc : cc.val = 1024 * (t.val / 4 % 4) + q.val) :
    biasTile3 V c t (ix2 0 q) = bias3 V c (ix2 0 cc) := by
  unfold biasTile3 tile3
  rw [View.read_apply]
  show V c (Pipeline.arrRef spec3 2) _ = V c (Pipeline.arrRef spec3 2) _
  refine congrArg _ (funext fun a => Fin.ext ?_)
  obtain ⟨-, -, -, -, e0, e1, -⟩ := maps3 t
  match a with
  | ⟨0, _⟩ => show win3_2.index t (0 : Fin 2) * 1 + 1 * 0 = 0; rw [e0]
  | ⟨1, _⟩ => show win3_2.index t (1 : Fin 2) * 1024 + 1 * q.val = cc.val; rw [e1, hc]; omega

abbrev term3 (c : Dev nD) (r cc : Fin 4096) : Fin 4096 → EReal := fun m => lhs3 V c (ix2 r m) * rhs3 V c (ix2 m cc)

theorem step_at3 (c : Dev nD) (t : Fin cfg3.N) (a : Vec Ideal S1024x1024 .f32) (p q : Fin 1024) (r cc : Fin 4096)
    (hr : r.val = 1024 * (t.val / 16) + p.val) (hc : cc.val = 1024 * (t.val / 4 % 4) + q.val) :
    k1_pay2 (F := Ideal) (lhsTile3 V c t) (rhsTile3 V c t) a (ix2 p q)
      = a (ix2 p q) + GroupedSum.group (term3 V c r cc) (t.val % 4) := by
  refine (step1_apply (lhsTile3 V c t) (rhsTile3 V c t) a p q).trans ?_
  rw [GroupedSum.group_eq _ _ (Nat.mod_lt _ (by decide))]
  refine congrArg (a (ix2 p q) + ·) (Finset.sum_congr rfl fun l _ => ?_)
  have hb : 1024 * (t.val % 4) + l.val < 4096 := by have := l.isLt; omega
  rw [lhsTile3_apply V c t p l r ⟨1024 * (t.val % 4) + l.val, hb⟩ hr rfl,
    rhsTile3_apply V c t l q ⟨1024 * (t.val % 4) + l.val, hb⟩ cc rfl hc]

theorem closed3 (c : Dev nD) (t : Fin cfg3.N) (h3 : t.val % 4 = 3) (p q : Fin 1024) (r cc : Fin 4096)
    (hr : r.val = 1024 * (t.val / 16) + p.val) (hc : cc.val = 1024 * (t.val / 4 % 4) + q.val) :
    sumAt3 V c t.val t.isLt (ix2 p q) = ∑ l : Fin 4096, lhs3 V c (ix2 r l) * rhs3 V c (ix2 l cc) := by
  refine (Cert.Linear.sumAt_groups (M := EReal) _ _ _ _ (ix2 p q) (GroupedSum.group (term3 V c r cc)) (cleared1_apply p q) t.val t.isLt
    fun k hk hg a => step_at3 V c ⟨k, hk⟩ a p q r cc (by dsimp only; omega) (by dsimp only; omega)).trans ?_
  rw [h3]
  exact (GroupedSum.sum_eq_groups (term3 V c r cc)).symm

theorem flushed3_eq (c : Dev nD) (t : Fin cfg3.N) (hf : (cfg3.win 3).flush t = true) :
    (dat3 (F := Ideal) V c).flushed 3 t
      = ((cfg3.win 3).blk t).view.read (Elt Ideal) (Coupling.hidden (lhs3 V c) (rhs3 V c) (bias3 V c)) := by
  have h3 : t.val % 4 = 3 := (flush3_3 t).mp hf
  have hN : t.val < 64 := lt_of_lt_of_eq t.isLt N_3
  show (cfg3.win 3).cut (grid3.coords t) ((dat3 V c).after 3 t) = _
  rw [after3_3]
  funext j
  obtain ⟨p, q, rfl⟩ : ∃ (p q : Fin 1024), j = ix2 p q := ⟨j 0, j 1, eq_ix2 j⟩
  rw [View.read_apply]
  obtain ⟨-, -, -, -, -, -, e0, e1⟩ := maps3 t
  obtain ⟨r, hr⟩ : ∃ r : Fin 4096, r.val = 1024 * (t.val / 16) + p.val := ⟨⟨_, by have := p.isLt; omega⟩, rfl⟩
  obtain ⟨cc, hc⟩ : ∃ cc : Fin 4096, cc.val = 1024 * (t.val / 4 % 4) + q.val := ⟨⟨_, by have := q.isLt; omega⟩, rfl⟩
  have he : ((cfg3.win 3).blk t).view.emb (ix2 p q) = ix2 r cc :=
    funext fun a => Fin.ext (by
      match a with
      | ⟨0, _⟩ => show win3_3.index t (0 : Fin 2) * 1024 + 1 * p.val = r.val; rw [e0, hr]; omega
      | ⟨1, _⟩ => show win3_3.index t (1 : Fin 2) * 1024 + 1 * q.val = cc.val; rw [e1, hc]; omega)
  show outAt3 V c t (ix2 p q) = Coupling.hidden (lhs3 V c) (rhs3 V c) (bias3 V c) (((cfg3.win 3).blk t).view.emb (ix2 p q))
  rw [he, Coupling.hidden_apply]
  unfold outAt3
  refine (close1_apply (sumAt3 V c t.val t.isLt) (biasTile3 V c t) p q).trans ?_
  rw [closed3 V c t h3 p q r cc hr hc, biasTile3_apply V c t q cc hc]

theorem cover3 (c : Dev nD) (i : ((cfg3.win 3).arr.view.loc (c.tc : Thread nD τ)).2.ty.Idx) :
    ∃ t : Fin cfg3.N, (cfg3.win 3).flush t = true ∧ i ∈ ((cfg3.win 3).blk t).view.set := by
  have h0 : (i 0).val < 4096 := (i 0).isLt
  have h1 : (i 1).val < 4096 := (i 1).isLt
  have hb : 16 * ((i 0).val / 1024) + 4 * ((i 1).val / 1024) + 3 < cfg3.N := by
    rw [show cfg3.N = 64 from N_3]; omega
  refine ⟨⟨16 * ((i 0).val / 1024) + 4 * ((i 1).val / 1024) + 3, hb⟩, (flush3_3 _).mpr (by dsimp only; omega), ?_⟩
  obtain ⟨-, -, -, -, -, -, e0, e1⟩ := maps3 ⟨16 * ((i 0).val / 1024) + 4 * ((i 1).val / 1024) + 3, hb⟩
  dsimp only at e0 e1
  show i ∈ ((View.whole (Pipeline.arrRef spec3 3)).slice (win3_3.rect ⟨16 * ((i 0).val / 1024) + 4 * ((i 1).val / 1024) + 3, hb⟩)).set
  rw [View.set_slice_whole, Rect.mem_set_unit]
  intro a
  match a with
  | ⟨0, _⟩ =>
    show win3_3.index _ (0 : Fin 2) * 1024 ≤ (i 0).val ∧ (i 0).val < win3_3.index _ (0 : Fin 2) * 1024 + 1024
    rw [e0]; omega
  | ⟨1, _⟩ =>
    show win3_3.index _ (1 : Fin 2) * 1024 ≤ (i 1).val ∧ (i 1).val < win3_3.index _ (1 : Fin 2) * 1024 + 1024
    rw [e1]; omega

theorem layer3_array (c : Dev nD) :
    (dat3 (F := Ideal) V c).arrAt 3 cfg3.N
      = Coupling.hidden (m := 4096) (k := 4096) (n := 4096) (V c (Pipeline.arrRef spec3 0)) (V c (Pipeline.arrRef spec3 1)) (V c (Pipeline.arrRef spec3 2)) :=
  (dat3 (F := Ideal) V c).arrAt_eq_of_cover 3 (Coupling.hidden (lhs3 V c) (rhs3 V c) (bias3 V c)) (flushed3_eq V c) (cover3 c)

end Cert.KernelIdeal.Linear

end
-- ==== Proof.KernelIdeal.Layer4.Value.lean ====
import proofs.«134883_j40123584479654_1_alg».proof.Proof.KernelIdeal.Layer4.Accum
import proofs.«134883_j40123584479654_1_alg».proof.Proof.KernelIdeal.Layer1.Payload
import proofs.«134883_j40123584479654_1_alg».proof.Proof.Coupling
import proofs.«134883_j40123584479654_1_alg».proof.Proof.GroupedSum
import Idealize.ShloMosaic.PureOps.Ideal.Laws
import Idealize.ShloMosaic.Lib.ValueIdx
import Idealize.ShloMosaic.Lib.Pipeline.Value

set_option maxRecDepth 16384

noncomputable section

namespace Cert.KernelIdeal.Linear

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev lhs4 (c : Dev nD) : Coupling.Mat 4096 4096 := V c (Pipeline.arrRef spec4 0)

abbrev rhs4 (c : Dev nD) : Coupling.Mat 4096 4096 := V c (Pipeline.arrRef spec4 1)

abbrev bias4 (c : Dev nD) : Coupling.Mat 1 4096 := V c (Pipeline.arrRef spec4 2)

abbrev lhsTile4 (c : Dev nD) (t : Fin cfg4.N) : Vec Ideal S1024x1024 .f32 := tile4 V c 0 t
abbrev rhsTile4 (c : Dev nD) (t : Fin cfg4.N) : Vec Ideal S1024x1024 .f32 := tile4 V c 1 t
abbrev biasTile4 (c : Dev nD) (t : Fin cfg4.N) : Vec Ideal S1x1024 .f32 := tile4 V c 2 t

theorem maps4 : ∀ t : Fin cfg4.N,
    win4_0.index t (0 : Fin 2) = t.val / 16 ∧ win4_0.index t (1 : Fin 2) = t.val % 4
    ∧ win4_1.index t (0 : Fin 2) = t.val % 4 ∧ win4_1.index t (1 : Fin 2) = t.val / 4 % 4
    ∧ win4_2.index t (0 : Fin 2) = 0 ∧ win4_2.index t (1 : Fin 2) = t.val / 4 % 4
    ∧ win4_3.index t (0 : Fin 2) = t.val / 16 ∧ win4_3.index t (1 : Fin 2) = t.val / 4 % 4 :=
  (by decide +kernel : ∀ t : Fin grid4.N, _)

theorem lhsTile4_apply (c : Dev nD) (t : Fin cfg4.N) (p l : Fin 1024) (r k : Fin 4096)
    (hr : r.val = 1024 * (t.val / 16) + p.val) (hk : k.val = 1024 * (t.val % 4) + l.val) :
    lhsTile4 V c t (ix2 p l) = lhs4 V c (ix2 r k) := by
  unfold lhsTile4 tile4
  rw [View.read_apply]
  show V c (Pipeline.arrRef spec4 0) _ = V c (Pipeline.arrRef spec4 0) _
  refine congrArg _ (funext fun a => Fin.ext ?_)
  obtain ⟨e0, e1, -⟩ := maps4 t
  match a with
  | ⟨0, _⟩ => show win4_0.index t (0 : Fin 2) * 1024 + 1 * p.val = r.val; rw [e0, hr]; omega
  | ⟨1, _⟩ => show win4_0.index t (1 : Fin 2) * 1024 + 1 * l.val = k.val; rw [e1, hk]; omega

theorem rhsTile4_apply (c : Dev nD) (t : Fin cfg4.N) (l q : Fin 1024) (k cc : Fin 4096)
    (hk : k.val = 1024 * (t.val % 4) + l.val) (hc : cc.val = 1024 * (t.val / 4 % 4) + q.val) :
    rhsTile4 V c t (ix2 l q) = rhs4 V c (ix2 k cc) := by
  unfold rhsTile4 tile4
  rw [View.read_apply]
  show V c (Pipeline.arrRef spec4 1) _ = V c (Pipeline.arrRef spec4 1) _
  refine congrArg _ (funext fun a => Fin.ext ?_)
  obtain ⟨-, -, e0, e1, -⟩ := maps4 t
  match a with
  | ⟨0, _⟩ => show win4_1.index t (0 : Fin 2) * 1024 + 1 * l.val = k.val; rw [e0, hk]; omega
  | ⟨1, _⟩ => show win4_1.index t (1 : Fin 2) * 1024 + 1 * q.val = cc.val; rw [e1, hc]; omega

theorem biasTile4_apply (c : Dev nD) (t : Fin cfg4.N) (q : Fin 1024) (cc : Fin 4096)
    (hc : cc.val = 1024 * (t.val / 4 % 4) + q.val) :
    biasTile4 V c t (ix2 0 q) = bias4 V c (ix2 0 cc) := by
  unfold biasTile4 tile4
  rw [View.read_apply]
  show V c (Pipeline.arrRef spec4 2) _ = V c (Pipeline.arrRef spec4 2) _
  refine congrArg _ (funext fun a => Fin.ext ?_)
  obtain ⟨-, -, -, -, e0, e1, -⟩ := maps4 t
  match a with
  | ⟨0, _⟩ => show win4_2.index t (0 : Fin 2) * 1 + 1 * 0 = 0; rw [e0]
  | ⟨1, _⟩ => show win4_2.index t (1 : Fin 2) * 1024 + 1 * q.val = cc.val; rw [e1, hc]; omega

abbrev term4 (c : Dev nD) (r cc : Fin 4096) : Fin 4096 → EReal := fun m => lhs4 V c (ix2 r m) * rhs4 V c (ix2 m cc)

theorem step_at4 (c : Dev nD) (t : Fin cfg4.N) (a : Vec Ideal S1024x1024 .f32) (p q : Fin 1024) (r cc : Fin 4096)
    (hr : r.val = 1024 * (t.val / 16) + p.val) (hc : cc.val = 1024 * (t.val / 4 % 4) + q.val) :
    k1_pay2 (F := Ideal) (lhsTile4 V c t) (rhsTile4 V c t) a (ix2 p q)
      = a (ix2 p q) + GroupedSum.group (term4 V c r cc) (t.val % 4) := by
  refine (step1_apply (lhsTile4 V c t) (rhsTile4 V c t) a p q).trans ?_
  rw [GroupedSum.group_eq _ _ (Nat.mod_lt _ (by decide))]
  refine congrArg (a (ix2 p q) + ·) (Finset.sum_congr rfl fun l _ => ?_)
  have hb : 1024 * (t.val % 4) + l.val < 4096 := by have := l.isLt; omega
  rw [lhsTile4_apply V c t p l r ⟨1024 * (t.val % 4) + l.val, hb⟩ hr rfl,
    rhsTile4_apply V c t l q ⟨1024 * (t.val % 4) + l.val, hb⟩ cc rfl hc]

theorem closed4 (c : Dev nD) (t : Fin cfg4.N) (h3 : t.val % 4 = 3) (p q : Fin 1024) (r cc : Fin 4096)
    (hr : r.val = 1024 * (t.val / 16) + p.val) (hc : cc.val = 1024 * (t.val / 4 % 4) + q.val) :
    sumAt4 V c t.val t.isLt (ix2 p q) = ∑ l : Fin 4096, lhs4 V c (ix2 r l) * rhs4 V c (ix2 l cc) := by
  refine (Cert.Linear.sumAt_groups (M := EReal) _ _ _ _ (ix2 p q) (GroupedSum.group (term4 V c r cc)) (cleared1_apply p q) t.val t.isLt
    fun k hk hg a => step_at4 V c ⟨k, hk⟩ a p q r cc (by dsimp only; omega) (by dsimp only; omega)).trans ?_
  rw [h3]
  exact (GroupedSum.sum_eq_groups (term4 V c r cc)).symm

theorem flushed4_eq (c : Dev nD) (t : Fin cfg4.N) (hf : (cfg4.win 3).flush t = true) :
    (dat4 (F := Ideal) V c).flushed 3 t
      = ((cfg4.win 3).blk t).view.read (Elt Ideal) (Coupling.hidden (lhs4 V c) (rhs4 V c) (bias4 V c)) := by
  have h3 : t.val % 4 = 3 := (flush4_3 t).mp hf
  have hN : t.val < 64 := lt_of_lt_of_eq t.isLt N_4
  show (cfg4.win 3).cut (grid4.coords t) ((dat4 V c).after 3 t) = _
  rw [after4_3]
  funext j
  obtain ⟨p, q, rfl⟩ : ∃ (p q : Fin 1024), j = ix2 p q := ⟨j 0, j 1, eq_ix2 j⟩
  rw [View.read_apply]
  obtain ⟨-, -, -, -, -, -, e0, e1⟩ := maps4 t
  obtain ⟨r, hr⟩ : ∃ r : Fin 4096, r.val = 1024 * (t.val / 16) + p.val := ⟨⟨_, by have := p.isLt; omega⟩, rfl⟩
  obtain ⟨cc, hc⟩ : ∃ cc : Fin 4096, cc.val = 1024 * (t.val / 4 % 4) + q.val := ⟨⟨_, by have := q.isLt; omega⟩, rfl⟩
  have he : ((cfg4.win 3).blk t).view.emb (ix2 p q) = ix2 r cc :=
    funext fun a => Fin.ext (by
      match a with
      | ⟨0, _⟩ => show win4_3.index t (0 : Fin 2) * 1024 + 1 * p.val = r.val; rw [e0, hr]; omega
      | ⟨1, _⟩ => show win4_3.index t (1 : Fin 2) * 1024 + 1 * q.val = cc.val; rw [e1, hc]; omega)
  show outAt4 V c t (ix2 p q) = Coupling.hidden (lhs4 V c) (rhs4 V c) (bias4 V c) (((cfg4.win 3).blk t).view.emb (ix2 p q))
  rw [he, Coupling.hidden_apply]
  unfold outAt4
  refine (close1_apply (sumAt4 V c t.val t.isLt) (biasTile4 V c t) p q).trans ?_
  rw [closed4 V c t h3 p q r cc hr hc, biasTile4_apply V c t q cc hc]

theorem cover4 (c : Dev nD) (i : ((cfg4.win 3).arr.view.loc (c.tc : Thread nD τ)).2.ty.Idx) :
    ∃ t : Fin cfg4.N, (cfg4.win 3).flush t = true ∧ i ∈ ((cfg4.win 3).blk t).view.set := by
  have h0 : (i 0).val < 4096 := (i 0).isLt
  have h1 : (i 1).val < 4096 := (i 1).isLt
  have hb : 16 * ((i 0).val / 1024) + 4 * ((i 1).val / 1024) + 3 < cfg4.N := by
    rw [show cfg4.N = 64 from N_4]; omega
  refine ⟨⟨16 * ((i 0).val / 1024) + 4 * ((i 1).val / 1024) + 3, hb⟩, (flush4_3 _).mpr (by dsimp only; omega), ?_⟩
  obtain ⟨-, -, -, -, -, -, e0, e1⟩ := maps4 ⟨16 * ((i 0).val / 1024) + 4 * ((i 1).val / 1024) + 3, hb⟩
  dsimp only at e0 e1
  show i ∈ ((View.whole (Pipeline.arrRef spec4 3)).slice (win4_3.rect ⟨16 * ((i 0).val / 1024) + 4 * ((i 1).val / 1024) + 3, hb⟩)).set
  rw [View.set_slice_whole, Rect.mem_set_unit]
  intro a
  match a with
  | ⟨0, _⟩ =>
    show win4_3.index _ (0 : Fin 2) * 1024 ≤ (i 0).val ∧ (i 0).val < win4_3.index _ (0 : Fin 2) * 1024 + 1024
    rw [e0]; omega
  | ⟨1, _⟩ =>
    show win4_3.index _ (1 : Fin 2) * 1024 ≤ (i 1).val ∧ (i 1).val < win4_3.index _ (1 : Fin 2) * 1024 + 1024
    rw [e1]; omega

theorem layer4_array (c : Dev nD) :
    (dat4 (F := Ideal) V c).arrAt 3 cfg4.N
      = Coupling.hidden (m := 4096) (k := 4096) (n := 4096) (V c (Pipeline.arrRef spec4 0)) (V c (Pipeline.arrRef spec4 1)) (V c (Pipeline.arrRef spec4 2)) :=
  (dat4 (F := Ideal) V c).arrAt_eq_of_cover 3 (Coupling.hidden (lhs4 V c) (rhs4 V c) (bias4 V c)) (flushed4_eq V c) (cover4 c)

end Cert.KernelIdeal.Linear

end
-- ==== Proof.KernelIdeal.Layer5.Payload.lean ====
import proofs.«134883_j40123584479654_1_alg».proof.Proof.Gen.KernelIdeal.Skeleton
import proofs.«134883_j40123584479654_1_alg».proof.Proof.KernelIdeal.TileProduct
import Idealize.ShloMosaic.Lib.Pipeline.Value

set_option maxRecDepth 16384

noncomputable section

namespace Cert.KernelIdeal.Linear

open Cert.KernelIdeal Cert.KernelIdeal.Gen
open Idealize.ShloMosaic Idealize.ShloMosaic.ValueIdx

theorem cleared5_apply (p q : Fin 1024) : (k5_pay1 (F := Ideal)) (ix2 p q) = 0 := by
  unfold k5_pay1
  simp only [shapeCast_self]
  exact Ideal.ofBits_zero_f32

theorem step5_apply (x w a : Vec Ideal S1024x1024 .f32) (p q : Fin 1024) :
    k5_pay2 (F := Ideal) x w a (ix2 p q) = a (ix2 p q) + ∑ l : Fin 1024, x (ix2 p l) * w (ix2 l q) := by
  unfold k5_pay2
  simp only [shapeCast_self]
  refine congrArg (a (ix2 p q) + ·) ?_
  exact tile_product_apply (φ₁ := .bf16) (φ₂ := .bf16) (truncf .bf16 x bitsLt_bf16_f32) (truncf .bf16 w bitsLt_bf16_f32) p q

theorem close5_apply (s : Vec Ideal S1024x1024 .f32) (b : Vec Ideal S1x1024 .f32) (p q : Fin 1024) :
    k5_pay3 (F := Ideal) s b (ix2 p q) = s (ix2 p q) + b (ix2 0 q) := by
  unfold k5_pay3
  simp only [shapeCast_self]
  refine congrArg (s (ix2 p q) + ·) ?_
  refine broadcastTo_apply b broadcasts_S1x1024_S1024x1024 (ix2 p q) (ix2 0 q) fun a => ?_
  match a with
  | ⟨0, _⟩ => rfl
  | ⟨1, _⟩ => rfl

end Cert.KernelIdeal.Linear

end
-- ==== Proof.KernelIdeal.Layer5.Value.lean ====
import proofs.«134883_j40123584479654_1_alg».proof.Proof.KernelIdeal.Layer5.Accum
import proofs.«134883_j40123584479654_1_alg».proof.Proof.KernelIdeal.Layer5.Payload
import proofs.«134883_j40123584479654_1_alg».proof.Proof.Coupling
import proofs.«134883_j40123584479654_1_alg».proof.Proof.GroupedSum
import Idealize.ShloMosaic.PureOps.Ideal.Laws
import Idealize.ShloMosaic.Lib.ValueIdx
import Idealize.ShloMosaic.Lib.Pipeline.Value

set_option maxRecDepth 16384

noncomputable section

namespace Cert.KernelIdeal.Linear

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev lhs5 (c : Dev nD) : Coupling.Mat 4096 4096 := V c (Pipeline.arrRef spec5 0)

abbrev rhs5 (c : Dev nD) : Coupling.Mat 4096 1024 := V c (Pipeline.arrRef spec5 1)

abbrev bias5 (c : Dev nD) : Coupling.Mat 1 1024 := V c (Pipeline.arrRef spec5 2)

abbrev lhsTile5 (c : Dev nD) (t : Fin cfg5.N) : Vec Ideal S1024x1024 .f32 := tile5 V c 0 t
abbrev rhsTile5 (c : Dev nD) (t : Fin cfg5.N) : Vec Ideal S1024x1024 .f32 := tile5 V c 1 t
abbrev biasTile5 (c : Dev nD) (t : Fin cfg5.N) : Vec Ideal S1x1024 .f32 := tile5 V c 2 t

theorem maps5 : ∀ t : Fin cfg5.N,
    win5_0.index t (0 : Fin 2) = t.val / 4 ∧ win5_0.index t (1 : Fin 2) = t.val % 4
    ∧ win5_1.index t (0 : Fin 2) = t.val % 4 ∧ win5_1.index t (1 : Fin 2) = 0
    ∧ win5_2.index t (0 : Fin 2) = 0 ∧ win5_2.index t (1 : Fin 2) = 0
    ∧ win5_3.index t (0 : Fin 2) = t.val / 4 ∧ win5_3.index t (1 : Fin 2) = 0 :=
  (by decide +kernel : ∀ t : Fin grid5.N, _)

theorem lhsTile5_apply (c : Dev nD) (t : Fin cfg5.N) (p l : Fin 1024) (r k : Fin 4096)
    (hr : r.val = 1024 * (t.val / 4) + p.val) (hk : k.val = 1024 * (t.val % 4) + l.val) :
    lhsTile5 V c t (ix2 p l) = lhs5 V c (ix2 r k) := by
  unfold lhsTile5 tile5
  rw [View.read_apply]
  show V c (Pipeline.arrRef spec5 0) _ = V c (Pipeline.arrRef spec5 0) _
  refine congrArg _ (funext fun a => Fin.ext ?_)
  obtain ⟨e0, e1, -⟩ := maps5 t
  match a with
  | ⟨0, _⟩ => show win5_0.index t (0 : Fin 2) * 1024 + 1 * p.val = r.val; rw [e0, hr]; omega
  | ⟨1, _⟩ => show win5_0.index t (1 : Fin 2) * 1024 + 1 * l.val = k.val; rw [e1, hk]; omega

theorem rhsTile5_apply (c : Dev nD) (t : Fin cfg5.N) (l q : Fin 1024) (k : Fin 4096) (cc : Fin 1024)
    (hk : k.val = 1024 * (t.val % 4) + l.val) (hc : cc.val = q.val) :
    rhsTile5 V c t (ix2 l q) = rhs5 V c (ix2 k cc) := by
  unfold rhsTile5 tile5
  rw [View.read_apply]
  show V c (Pipeline.arrRef spec5 1) _ = V c (Pipeline.arrRef spec5 1) _
  refine congrArg _ (funext fun a => Fin.ext ?_)
  obtain ⟨-, -, e0, e1, -⟩ := maps5 t
  match a with
  | ⟨0, _⟩ => show win5_1.index t (0 : Fin 2) * 1024 + 1 * l.val = k.val; rw [e0, hk]; omega
  | ⟨1, _⟩ => show win5_1.index t (1 : Fin 2) * 1024 + 1 * q.val = cc.val; rw [e1, hc]; omega

theorem biasTile5_apply (c : Dev nD) (t : Fin cfg5.N) (q cc : Fin 1024)
    (hc : cc.val = q.val) :
    biasTile5 V c t (ix2 0 q) = bias5 V c (ix2 0 cc) := by
  unfold biasTile5 tile5
  rw [View.read_apply]
  show V c (Pipeline.arrRef spec5 2) _ = V c (Pipeline.arrRef spec5 2) _
  refine congrArg _ (funext fun a => Fin.ext ?_)
  obtain ⟨-, -, -, -, e0, e1, -⟩ := maps5 t
  match a with
  | ⟨0, _⟩ => show win5_2.index t (0 : Fin 2) * 1 + 1 * 0 = 0; rw [e0]
  | ⟨1, _⟩ => show win5_2.index t (1 : Fin 2) * 1024 + 1 * q.val = cc.val; rw [e1, hc]; omega

abbrev term5 (c : Dev nD) (r : Fin 4096) (cc : Fin 1024) : Fin 4096 → EReal := fun m => lhs5 V c (ix2 r m) * rhs5 V c (ix2 m cc)

theorem step_at5 (c : Dev nD) (t : Fin cfg5.N) (a : Vec Ideal S1024x1024 .f32) (p q : Fin 1024) (r : Fin 4096) (cc : Fin 1024)
    (hr : r.val = 1024 * (t.val / 4) + p.val) (hc : cc.val = q.val) :
    k5_pay2 (F := Ideal) (lhsTile5 V c t) (rhsTile5 V c t) a (ix2 p q)
      = a (ix2 p q) + GroupedSum.group (term5 V c r cc) (t.val % 4) := by
  refine (step5_apply (lhsTile5 V c t) (rhsTile5 V c t) a p q).trans ?_
  rw [GroupedSum.group_eq _ _ (Nat.mod_lt _ (by decide))]
  refine congrArg (a (ix2 p q) + ·) (Finset.sum_congr rfl fun l _ => ?_)
  have hb : 1024 * (t.val % 4) + l.val < 4096 := by have := l.isLt; omega
  rw [lhsTile5_apply V c t p l r ⟨1024 * (t.val % 4) + l.val, hb⟩ hr rfl,
    rhsTile5_apply V c t l q ⟨1024 * (t.val % 4) + l.val, hb⟩ cc rfl hc]

theorem closed5 (c : Dev nD) (t : Fin cfg5.N) (h3 : t.val % 4 = 3) (p q : Fin 1024) (r : Fin 4096) (cc : Fin 1024)
    (hr : r.val = 1024 * (t.val / 4) + p.val) (hc : cc.val = q.val) :
    sumAt5 V c t.val t.isLt (ix2 p q) = ∑ l : Fin 4096, lhs5 V c (ix2 r l) * rhs5 V c (ix2 l cc) := by
  refine (Cert.Linear.sumAt_groups (M := EReal) _ _ _ _ (ix2 p q) (GroupedSum.group (term5 V c r cc)) (cleared5_apply p q) t.val t.isLt
    fun k hk hg a => step_at5 V c ⟨k, hk⟩ a p q r cc (by dsimp only; omega) hc).trans ?_
  rw [h3]
  exact (GroupedSum.sum_eq_groups (term5 V c r cc)).symm

theorem flushed5_eq (c : Dev nD) (t : Fin cfg5.N) (hf : (cfg5.win 3).flush t = true) :
    (dat5 (F := Ideal) V c).flushed 3 t
      = ((cfg5.win 3).blk t).view.read (Elt Ideal) (Coupling.affine (lhs5 V c) (rhs5 V c) (bias5 V c)) := by
  have h3 : t.val % 4 = 3 := (flush5_3 t).mp hf
  have hN : t.val < 16 := lt_of_lt_of_eq t.isLt N_5
  show (cfg5.win 3).cut (grid5.coords t) ((dat5 V c).after 3 t) = _
  rw [after5_3]
  funext j
  obtain ⟨p, q, rfl⟩ : ∃ (p q : Fin 1024), j = ix2 p q := ⟨j 0, j 1, eq_ix2 j⟩
  rw [View.read_apply]
  obtain ⟨-, -, -, -, -, -, e0, e1⟩ := maps5 t
  obtain ⟨r, hr⟩ : ∃ r : Fin 4096, r.val = 1024 * (t.val / 4) + p.val := ⟨⟨_, by have := p.isLt; omega⟩, rfl⟩
  obtain ⟨cc, hc⟩ : ∃ cc : Fin 1024, cc.val = q.val := ⟨q, rfl⟩
  have he : ((cfg5.win 3).blk t).view.emb (ix2 p q) = ix2 r cc :=
    funext fun a => Fin.ext (by
      match a with
      | ⟨0, _⟩ => show win5_3.index t (0 : Fin 2) * 1024 + 1 * p.val = r.val; rw [e0, hr]; omega
      | ⟨1, _⟩ => show win5_3.index t (1 : Fin 2) * 1024 + 1 * q.val = cc.val; rw [e1, hc]; omega)
  show outAt5 V c t (ix2 p q) = Coupling.affine (lhs5 V c) (rhs5 V c) (bias5 V c) (((cfg5.win 3).blk t).view.emb (ix2 p q))
  rw [he, Coupling.affine_apply]
  unfold outAt5
  refine (close5_apply (sumAt5 V c t.val t.isLt) (biasTile5 V c t) p q).trans ?_
  rw [closed5 V c t h3 p q r cc hr hc, biasTile5_apply V c t q cc hc]

theorem cover5 (c : Dev nD) (i : ((cfg5.win 3).arr.view.loc (c.tc : Thread nD τ)).2.ty.Idx) :
    ∃ t : Fin cfg5.N, (cfg5.win 3).flush t = true ∧ i ∈ ((cfg5.win 3).blk t).view.set := by
  have h0 : (i 0).val < 4096 := (i 0).isLt
  have h1 : (i 1).val < 1024 := (i 1).isLt
  have hb : 4 * ((i 0).val / 1024) + 3 < cfg5.N := by
    rw [show cfg5.N = 16 from N_5]; omega
  refine ⟨⟨4 * ((i 0).val / 1024) + 3, hb⟩, (flush5_3 _).mpr (by dsimp only; omega), ?_⟩
  obtain ⟨-, -, -, -, -, -, e0, e1⟩ := maps5 ⟨4 * ((i 0).val / 1024) + 3, hb⟩
  dsimp only at e0 e1
  show i ∈ ((View.whole (Pipeline.arrRef spec5 3)).slice (win5_3.rect ⟨4 * ((i 0).val / 1024) + 3, hb⟩)).set
  rw [View.set_slice_whole, Rect.mem_set_unit]
  intro a
  match a with
  | ⟨0, _⟩ =>
    show win5_3.index _ (0 : Fin 2) * 1024 ≤ (i 0).val ∧ (i 0).val < win5_3.index _ (0 : Fin 2) * 1024 + 1024
    rw [e0]; omega
  | ⟨1, _⟩ =>
    show win5_3.index _ (1 : Fin 2) * 1024 ≤ (i 1).val ∧ (i 1).val < win5_3.index _ (1 : Fin 2) * 1024 + 1024
    rw [e1]; omega

theorem layer5_array (c : Dev nD) :
    (dat5 (F := Ideal) V c).arrAt 3 cfg5.N
      = Coupling.affine (m := 4096) (k := 4096) (n := 1024) (V c (Pipeline.arrRef spec5 0)) (V c (Pipeline.arrRef spec5 1)) (V c (Pipeline.arrRef spec5 2)) :=
  (dat5 (F := Ideal) V c).arrAt_eq_of_cover 3 (Coupling.affine (lhs5 V c) (rhs5 V c) (bias5 V c)) (flushed5_eq V c) (cover5 c)

end Cert.KernelIdeal.Linear

end
-- ==== Proof.ReferenceSide.lean ====
import proofs.«134883_j40123584479654_1_alg».proof.Proof.Gen.ReferenceIdeal.Run
import proofs.«134883_j40123584479654_1_alg».proof.Proof.Gen.ReferenceIdeal.Read
-- ==== Proof.ReferenceLayers.lean ====
import proofs.«134883_j40123584479654_1_alg».proof.Proof.ReferenceSide
import proofs.«134883_j40123584479654_1_alg».proof.Proof.Coupling
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

set_option maxRecDepth 16384

noncomputable section

namespace Cert.ReferenceIdeal.Layers

open Cert.ReferenceIdeal Cert.ReferenceIdeal.Gen
open Idealize.ShloMosaic Idealize.ShloMosaic.ValueIdx

theorem vecRow_apply {α : Type} {n : ℕ} (h : (⟨1, ![n]⟩ : Shape).BroadcastsInDim ⟨2, ![1, n]⟩ ![1])
    (v : (⟨1, ![n]⟩ : Shape).Idx → α) (t : Fin n) :
    broadcastInDim ⟨2, ![1, n]⟩ ![1] h v (ix2 (0 : Fin 1) t) = v (ix1 t) := by
  refine broadcastInDim_apply ![1] h v (ix2 (0 : Fin 1) t) (ix1 t) fun a => ?_
  match a with
  | ⟨0, _⟩ =>
    show t.val = if n = 1 then 0 else t.val
    by_cases hn : n = 1
    · rw [if_pos hn]; have := t.isLt; omega
    · rw [if_neg hn]

theorem bias_apply {α : Type} {m n : ℕ} (h1 : (⟨1, ![n]⟩ : Shape).BroadcastsInDim ⟨2, ![1, n]⟩ ![1])
    (h2 : (⟨2, ![1, n]⟩ : Shape).BroadcastsInDim ⟨2, ![m, n]⟩ ![0, 1])
    (v : (⟨1, ![n]⟩ : Shape).Idx → α) (r : Fin m) (t : Fin n) :
    broadcastInDim ⟨2, ![m, n]⟩ ![0, 1] h2 (broadcastInDim ⟨2, ![1, n]⟩ ![1] h1 v) (ix2 r t) = v (ix1 t) :=
  (broadcastInDim_oneRow_apply h2 _ r t).trans (vecRow_apply h1 v t)

theorem zeros_apply {s : Shape} (h : S_.BroadcastsInDim s ![]) (i : s.Idx) :
    broadcastInDim s ![] h (constant (F := Ideal) S_ .f32 0x00000000#32) i = (0 : EReal) := by
  rw [broadcastInDim_apply ![] h _ i ix0 (fun a => a.elim0), constant_apply]
  exact Ideal.ofBits_zero_f32

theorem dot_in_apply (X : FVec Ideal S4096x1024 .f32) (W : FVec Ideal S1024x4096 .f32) (r j : Fin 4096) :
    Host.dotGeneral dot_S4096x1024_S1024x4096_S4096x4096_1_0_0_1_n_n none X W (ix2 r j)
      = ∑ l : Fin 1024, X (ix2 r l) * W (ix2 l j) := by
  simp only [Host.dotGeneral]
  rw [Ideal.dotGeneral_apply,
    ← Equiv.sum_comp (contrEquiv1 dot_S4096x1024_S1024x4096_S4096x4096_1_0_0_1_n_n 1024 rfl rfl).symm]
  refine Finset.sum_congr rfl fun l _ => ?_
  have hl := contrEquiv1_symm_val dot_S4096x1024_S1024x4096_S4096x4096_1_0_0_1_n_n 1024 rfl rfl l
  have eL : dot_S4096x1024_S1024x4096_S4096x4096_1_0_0_1_n_n.lhsIdx (ix2 r j)
      ((contrEquiv1 dot_S4096x1024_S1024x4096_S4096x4096_1_0_0_1_n_n 1024 rfl rfl).symm l) = ix2 r l :=
    funext fun a => Fin.ext (by
      match a with
      | ⟨0, _⟩ => exact Read.lhs_main_v5_0 _ _
      | ⟨1, _⟩ => exact (Read.lhs_main_v5_1 _ _).trans hl)
  have eR : dot_S4096x1024_S1024x4096_S4096x4096_1_0_0_1_n_n.rhsIdx (ix2 r j)
      ((contrEquiv1 dot_S4096x1024_S1024x4096_S4096x4096_1_0_0_1_n_n 1024 rfl rfl).symm l) = ix2 l j :=
    funext fun a => Fin.ext (by
      match a with
      | ⟨0, _⟩ => exact (Read.rhs_main_v5_0 _ _).trans hl
      | ⟨1, _⟩ => exact Read.rhs_main_v5_1 _ _)
  rw [eL, eR]

theorem dot_mid_apply (X : FVec Ideal S4096x4096 .f32) (W : FVec Ideal S4096x4096 .f32) (r j : Fin 4096) :
    Host.dotGeneral dot_S4096x4096_S4096x4096_S4096x4096_1_0_0_1_n_n none X W (ix2 r j)
      = ∑ l : Fin 4096, X (ix2 r l) * W (ix2 l j) := by
  simp only [Host.dotGeneral]
  rw [Ideal.dotGeneral_apply,
    ← Equiv.sum_comp (contrEquiv1 dot_S4096x4096_S4096x4096_S4096x4096_1_0_0_1_n_n 4096 rfl rfl).symm]
  refine Finset.sum_congr rfl fun l _ => ?_
  have hl := contrEquiv1_symm_val dot_S4096x4096_S4096x4096_S4096x4096_1_0_0_1_n_n 4096 rfl rfl l
  have eL : dot_S4096x4096_S4096x4096_S4096x4096_1_0_0_1_n_n.lhsIdx (ix2 r j)
      ((contrEquiv1 dot_S4096x4096_S4096x4096_S4096x4096_1_0_0_1_n_n 4096 rfl rfl).symm l) = ix2 r l :=
    funext fun a => Fin.ext (by
      match a with
      | ⟨0, _⟩ => exact Read.lhs_main_v12_0 _ _
      | ⟨1, _⟩ => exact (Read.lhs_main_v12_1 _ _).trans hl)
  have eR : dot_S4096x4096_S4096x4096_S4096x4096_1_0_0_1_n_n.rhsIdx (ix2 r j)
      ((contrEquiv1 dot_S4096x4096_S4096x4096_S4096x4096_1_0_0_1_n_n 4096 rfl rfl).symm l) = ix2 l j :=
    funext fun a => Fin.ext (by
      match a with
      | ⟨0, _⟩ => exact (Read.rhs_main_v12_0 _ _).trans hl
      | ⟨1, _⟩ => exact Read.rhs_main_v12_1 _ _)
  rw [eL, eR]

theorem dot_out_apply (X : FVec Ideal S4096x4096 .f32) (W : FVec Ideal S4096x1024 .f32) (r : Fin 4096) (j : Fin 1024) :
    Host.dotGeneral dot_S4096x4096_S4096x1024_S4096x1024_1_0_0_1_n_n none X W (ix2 r j)
      = ∑ l : Fin 4096, X (ix2 r l) * W (ix2 l j) := by
  simp only [Host.dotGeneral]
  rw [Ideal.dotGeneral_apply,
    ← Equiv.sum_comp (contrEquiv1 dot_S4096x4096_S4096x1024_S4096x1024_1_0_0_1_n_n 4096 rfl rfl).symm]
  refine Finset.sum_congr rfl fun l _ => ?_
  have hl := contrEquiv1_symm_val dot_S4096x4096_S4096x1024_S4096x1024_1_0_0_1_n_n 4096 rfl rfl l
  have eL : dot_S4096x4096_S4096x1024_S4096x1024_1_0_0_1_n_n.lhsIdx (ix2 r j)
      ((contrEquiv1 dot_S4096x4096_S4096x1024_S4096x1024_1_0_0_1_n_n 4096 rfl rfl).symm l) = ix2 r l :=
    funext fun a => Fin.ext (by
      match a with
      | ⟨0, _⟩ => exact Read.lhs_main_v46_0 _ _
      | ⟨1, _⟩ => exact (Read.lhs_main_v46_1 _ _).trans hl)
  have eR : dot_S4096x4096_S4096x1024_S4096x1024_1_0_0_1_n_n.rhsIdx (ix2 r j)
      ((contrEquiv1 dot_S4096x4096_S4096x1024_S4096x1024_1_0_0_1_n_n 4096 rfl rfl).symm l) = ix2 l j :=
    funext fun a => Fin.ext (by
      match a with
      | ⟨0, _⟩ => exact (Read.rhs_main_v46_0 _ _).trans hl
      | ⟨1, _⟩ => exact Read.rhs_main_v46_1 _ _)
  rw [eL, eR]

theorem hidden_in (X : FVec Ideal S4096x1024 .f32) (W : FVec Ideal S1024x4096 .f32) (b : FVec Ideal S4096 .f32) :
    maximumf (addf (Host.dotGeneral dot_S4096x1024_S1024x4096_S4096x4096_1_0_0_1_n_n none X W)
        (broadcastInDim S4096x4096 ![0, 1] bcast_S1x4096_S4096x4096_0_1 (broadcastInDim S1x4096 ![1] bcast_S4096_S1x4096_1 b)))
      (broadcastInDim S4096x4096 ![] bcast_S_S4096x4096 (constant (F := Ideal) S_ .f32 0x00000000#32))
    = Coupling.hidden (m := 4096) (k := 1024) (n := 4096) X W (Coupling.asRow b) := by
  funext i
  obtain ⟨r, j, rfl⟩ : ∃ (r : Fin 4096) (j : Fin 4096), i = ix2 r j := ⟨i 0, i 1, eq_ix2 i⟩
  rw [Coupling.hidden_apply, maximumf_apply, addf_apply, dot_in_apply, zeros_apply]
  rw [bias_apply bcast_S4096_S1x4096_1 bcast_S1x4096_S4096x4096_0_1 b r j]
  rfl

theorem hidden_mid (X : FVec Ideal S4096x4096 .f32) (W : FVec Ideal S4096x4096 .f32) (b : FVec Ideal S4096 .f32) :
    maximumf (addf (Host.dotGeneral dot_S4096x4096_S4096x4096_S4096x4096_1_0_0_1_n_n none X W)
        (broadcastInDim S4096x4096 ![0, 1] bcast_S1x4096_S4096x4096_0_1 (broadcastInDim S1x4096 ![1] bcast_S4096_S1x4096_1 b)))
      (broadcastInDim S4096x4096 ![] bcast_S_S4096x4096 (constant (F := Ideal) S_ .f32 0x00000000#32))
    = Coupling.hidden (m := 4096) (k := 4096) (n := 4096) X W (Coupling.asRow b) := by
  funext i
  obtain ⟨r, j, rfl⟩ : ∃ (r : Fin 4096) (j : Fin 4096), i = ix2 r j := ⟨i 0, i 1, eq_ix2 i⟩
  rw [Coupling.hidden_apply, maximumf_apply, addf_apply, dot_mid_apply, zeros_apply]
  rw [bias_apply bcast_S4096_S1x4096_1 bcast_S1x4096_S4096x4096_0_1 b r j]
  rfl

theorem affine_out (X : FVec Ideal S4096x4096 .f32) (W : FVec Ideal S4096x1024 .f32) (b : FVec Ideal S1024 .f32) :
    addf (Host.dotGeneral dot_S4096x4096_S4096x1024_S4096x1024_1_0_0_1_n_n none X W)
        (broadcastInDim S4096x1024 ![0, 1] bcast_S1x1024_S4096x1024_0_1 (broadcastInDim S1x1024 ![1] bcast_S1024_S1x1024_1 b))
    = Coupling.affine (m := 4096) (k := 4096) (n := 1024) X W (Coupling.asRow b) := by
  funext i
  obtain ⟨r, j, rfl⟩ : ∃ (r : Fin 4096) (j : Fin 1024), i = ix2 r j := ⟨i 0, i 1, eq_ix2 i⟩
  rw [Coupling.affine_apply, addf_apply, dot_out_apply]
  rw [bias_apply bcast_S1024_S1x1024_1 bcast_S1x1024_S4096x1024_0_1 b r j]
  rfl

end Cert.ReferenceIdeal.Layers

namespace Coupling

open Idealize.ShloMosaic Idealize.ShloMosaic.ValueIdx

theorem shapeCast_asRow {n : ℕ} (v : Row n) (h : (⟨1, ![n]⟩ : Shape).ShapeCasts (⟨2, ![1, n]⟩ : Shape)) :
    shapeCast (⟨2, ![1, n]⟩ : Shape) v h = asRow v := by
  funext i
  obtain ⟨z, t, rfl⟩ : ∃ (z : Fin 1) (t : Fin n), i = ix2 z t := ⟨i 0, i 1, eq_ix2 i⟩
  refine shapeCast_apply v h (ix2 z t) (ix1 t) ?_
  rw [Shape.rowMajor_val_one, Shape.rowMajor_val_two]
  show t.val = z.val * n + t.val
  have hz : z.val = 0 := by have := z.isLt; omega
  rw [hz, Nat.zero_mul, Nat.zero_add]

end Coupling

end
-- ==== Proof.Bridge.lean ====
import proofs.«134883_j40123584479654_1_alg».proof.Proof.KernelIdeal.Flow.Run
import proofs.«134883_j40123584479654_1_alg».proof.Proof.KernelIdeal.Layer0.Value
import proofs.«134883_j40123584479654_1_alg».proof.Proof.KernelIdeal.Layer1.Value
import proofs.«134883_j40123584479654_1_alg».proof.Proof.KernelIdeal.Layer2.Value
import proofs.«134883_j40123584479654_1_alg».proof.Proof.KernelIdeal.Layer3.Value
import proofs.«134883_j40123584479654_1_alg».proof.Proof.KernelIdeal.Layer4.Value
import proofs.«134883_j40123584479654_1_alg».proof.Proof.KernelIdeal.Layer5.Value
import proofs.«134883_j40123584479654_1_alg».proof.Proof.ReferenceLayers
import Idealize.ShloMosaic.Lib.StableHlo.Run

set_option maxRecDepth 16384

noncomputable section

namespace Cert.Bridge

open Idealize.ShloMosaic Idealize.ShloMosaic.TcCoe Idealize.SL.Sem

section Glue
open Cert.KernelIdeal Cert.KernelIdeal.Gen

def evens (x : FVec Ideal S4096x2048 .f32) : FVec Ideal S4096x1024 .f32 :=
  shapeCast S4096x1024 (extractStridedSlice S4096x1024x1 ![0, 0, 0] (shapeCast S4096x1024x2 x shapeCasts_S4096x2048_S4096x1024x2)
    slices_S4096x1024x2_S4096x1024x1_0_0_0) shapeCasts_S4096x1024x1_S4096x1024

def odds (x : FVec Ideal S4096x2048 .f32) : FVec Ideal S4096x1024 .f32 :=
  shapeCast S4096x1024 (extractStridedSlice S4096x1024x1 ![0, 0, 1] (shapeCast S4096x1024x2 x shapeCasts_S4096x2048_S4096x1024x2)
    slices_S4096x1024x2_S4096x1024x1_0_0_1) shapeCasts_S4096x1024x1_S4096x1024

def weave (a b : FVec Ideal S4096x1024 .f32) : FVec Ideal S4096x2048 .f32 :=
  shapeCast S4096x2048 (concatenate S4096x1024x2 2
    [⟨S4096x1024x1, broadcastInDim S4096x1024x1 ![0, 1] bcast_S4096x1024_S4096x1024x1_0_1 a⟩,
     ⟨S4096x1024x1, broadcastInDim S4096x1024x1 ![0, 1] bcast_S4096x1024_S4096x1024x1_0_1 b⟩]
    concatenates_S4096x1024x1_S4096x1024x1_S4096x1024x2_d2) shapeCasts_S4096x1024x2_S4096x2048

def weight0 (w : FVec Ideal S4x4096x4096 .f32) : FVec Ideal S4096x4096 .f32 :=
  shapeCast S4096x4096 (extractStridedSlice S1x4096x4096 ![0, 0, 0] w slices_S4x4096x4096_S1x4096x4096_0_0_0) shapeCasts_S1x4096x4096_S4096x4096
def weight1 (w : FVec Ideal S4x4096x4096 .f32) : FVec Ideal S4096x4096 .f32 :=
  shapeCast S4096x4096 (extractStridedSlice S1x4096x4096 ![1, 0, 0] w slices_S4x4096x4096_S1x4096x4096_1_0_0) shapeCasts_S1x4096x4096_S4096x4096
def weight2 (w : FVec Ideal S4x4096x4096 .f32) : FVec Ideal S4096x4096 .f32 :=
  shapeCast S4096x4096 (extractStridedSlice S1x4096x4096 ![2, 0, 0] w slices_S4x4096x4096_S1x4096x4096_2_0_0) shapeCasts_S1x4096x4096_S4096x4096
def weight3 (w : FVec Ideal S4x4096x4096 .f32) : FVec Ideal S4096x4096 .f32 :=
  shapeCast S4096x4096 (extractStridedSlice S1x4096x4096 ![3, 0, 0] w slices_S4x4096x4096_S1x4096x4096_3_0_0) shapeCasts_S1x4096x4096_S4096x4096

def bias0 (b : FVec Ideal S4x4096 .f32) : FVec Ideal S4096 .f32 :=
  shapeCast S4096 (extractStridedSlice S1x4096 ![0, 0] b slices_S4x4096_S1x4096_0_0) shapeCasts_S1x4096_S4096
def bias1 (b : FVec Ideal S4x4096 .f32) : FVec Ideal S4096 .f32 :=
  shapeCast S4096 (extractStridedSlice S1x4096 ![1, 0] b slices_S4x4096_S1x4096_1_0) shapeCasts_S1x4096_S4096
def bias2 (b : FVec Ideal S4x4096 .f32) : FVec Ideal S4096 .f32 :=
  shapeCast S4096 (extractStridedSlice S1x4096 ![2, 0] b slices_S4x4096_S1x4096_2_0) shapeCasts_S1x4096_S4096
def bias3 (b : FVec Ideal S4x4096 .f32) : FVec Ideal S4096 .f32 :=
  shapeCast S4096 (extractStridedSlice S1x4096 ![3, 0] b slices_S4x4096_S1x4096_3_0) shapeCasts_S1x4096_S4096

def result (a0 : FVec Ideal S4096x2048 .f32) (a2 : FVec Ideal S1024x4096 .f32) (a3 : FVec Ideal S4096 .f32)
    (a4 : FVec Ideal S4x4096x4096 .f32) (a5 : FVec Ideal S4x4096 .f32) (a6 : FVec Ideal S4096x1024 .f32)
    (a7 : FVec Ideal S1024 .f32) : FVec Ideal S4096x2048 .f32 :=
  weave (addf (evens a0) (Coupling.net (odds a0) a2 (Coupling.asRow a3)
      (weight0 a4) (weight1 a4) (weight2 a4) (weight3 a4)
      (Coupling.asRow (bias0 a5)) (Coupling.asRow (bias1 a5)) (Coupling.asRow (bias2 a5)) (Coupling.asRow (bias3 a5))
      a6 (Coupling.asRow a7))) (odds a0)

def act0 (a0 : FVec Ideal S4096x2048 .f32) (a2 : FVec Ideal S1024x4096 .f32) (a3 : FVec Ideal S4096 .f32) : FVec Ideal S4096x4096 .f32 :=
  Coupling.hidden (m := 4096) (k := 1024) (n := 4096) (odds a0) a2 (Coupling.asRow a3)
def act1 (a0 : FVec Ideal S4096x2048 .f32) (a2 : FVec Ideal S1024x4096 .f32) (a3 : FVec Ideal S4096 .f32)
    (a4 : FVec Ideal S4x4096x4096 .f32) (a5 : FVec Ideal S4x4096 .f32) : FVec Ideal S4096x4096 .f32 :=
  Coupling.hidden (m := 4096) (k := 4096) (n := 4096) (act0 a0 a2 a3) (weight0 a4) (Coupling.asRow (bias0 a5))
def act2 (a0 : FVec Ideal S4096x2048 .f32) (a2 : FVec Ideal S1024x4096 .f32) (a3 : FVec Ideal S4096 .f32)
    (a4 : FVec Ideal S4x4096x4096 .f32) (a5 : FVec Ideal S4x4096 .f32) : FVec Ideal S4096x4096 .f32 :=
  Coupling.hidden (m := 4096) (k := 4096) (n := 4096) (act1 a0 a2 a3 a4 a5) (weight1 a4) (Coupling.asRow (bias1 a5))
def act3 (a0 : FVec Ideal S4096x2048 .f32) (a2 : FVec Ideal S1024x4096 .f32) (a3 : FVec Ideal S4096 .f32)
    (a4 : FVec Ideal S4x4096x4096 .f32) (a5 : FVec Ideal S4x4096 .f32) : FVec Ideal S4096x4096 .f32 :=
  Coupling.hidden (m := 4096) (k := 4096) (n := 4096) (act2 a0 a2 a3 a4 a5) (weight2 a4) (Coupling.asRow (bias2 a5))
def act4 (a0 : FVec Ideal S4096x2048 .f32) (a2 : FVec Ideal S1024x4096 .f32) (a3 : FVec Ideal S4096 .f32)
    (a4 : FVec Ideal S4x4096x4096 .f32) (a5 : FVec Ideal S4x4096 .f32) : FVec Ideal S4096x4096 .f32 :=
  Coupling.hidden (m := 4096) (k := 4096) (n := 4096) (act3 a0 a2 a3 a4 a5) (weight3 a4) (Coupling.asRow (bias3 a5))

theorem net_eq (a0 : FVec Ideal S4096x2048 .f32) (a2 : FVec Ideal S1024x4096 .f32) (a3 : FVec Ideal S4096 .f32)
    (a4 : FVec Ideal S4x4096x4096 .f32) (a5 : FVec Ideal S4x4096 .f32) (a6 : FVec Ideal S4096x1024 .f32)
    (a7 : FVec Ideal S1024 .f32) :
    Coupling.net (odds a0) a2 (Coupling.asRow a3) (weight0 a4) (weight1 a4) (weight2 a4) (weight3 a4)
      (Coupling.asRow (bias0 a5)) (Coupling.asRow (bias1 a5)) (Coupling.asRow (bias2 a5)) (Coupling.asRow (bias3 a5))
      a6 (Coupling.asRow a7)
    = Coupling.affine (m := 4096) (k := 4096) (n := 1024) (act4 a0 a2 a3 a4 a5) a6 (Coupling.asRow a7) := rfl

end Glue

section KernelSide
open Cert.KernelIdeal Cert.KernelIdeal.Gen Cert.KernelIdeal.Linear

variable (m : (ℓ : Loc nD τ sig) → Buf (Elt Ideal) ℓ) (c : Dev nD)

abbrev Spared0 (r : Ref sig .tc) : Prop := r ∉ hostOps0_W ∧ ∀ w, Pipeline.arrRef spec0 w = r → (cfg0.win w).isOut = false
abbrev Spared1 (r : Ref sig .tc) : Prop := r ∉ hostOps1_W ∧ ∀ w, Pipeline.arrRef spec1 w = r → (cfg1.win w).isOut = false
abbrev Spared2 (r : Ref sig .tc) : Prop := r ∉ hostOps2_W ∧ ∀ w, Pipeline.arrRef spec2 w = r → (cfg2.win w).isOut = false
abbrev Spared3 (r : Ref sig .tc) : Prop := r ∉ hostOps3_W ∧ ∀ w, Pipeline.arrRef spec3 w = r → (cfg3.win w).isOut = false
abbrev Spared4 (r : Ref sig .tc) : Prop := r ∉ hostOps4_W ∧ ∀ w, Pipeline.arrRef spec4 w = r → (cfg4.win w).isOut = false
abbrev Spared5 (r : Ref sig .tc) : Prop := r ∉ hostOps5_W ∧ ∀ w, Pipeline.arrRef spec5 w = r → (cfg5.win w).isOut = false

theorem keep0 (r : Ref sig .tc) (h : Spared0 r) : past0 m c r = m ((c.tc : Thread nD τ).loc r) :=
  (past0_keeps m c r h.2).trans (into0_keeps m c r h.1)
theorem keep1 (r : Ref sig .tc) (h : Spared1 r) : past1 m c r = past0 m c r :=
  (past1_keeps m c r h.2).trans (into1_keeps m c r h.1)
theorem keep2 (r : Ref sig .tc) (h : Spared2 r) : past2 m c r = past1 m c r :=
  (past2_keeps m c r h.2).trans (into2_keeps m c r h.1)
theorem keep3 (r : Ref sig .tc) (h : Spared3 r) : past3 m c r = past2 m c r :=
  (past3_keeps m c r h.2).trans (into3_keeps m c r h.1)
theorem keep4 (r : Ref sig .tc) (h : Spared4 r) : past4 m c r = past3 m c r :=
  (past4_keeps m c r h.2).trans (into4_keeps m c r h.1)
theorem keep5 (r : Ref sig .tc) (h : Spared5 r) : past5 m c r = past4 m c r :=
  (past5_keeps m c r h.2).trans (into5_keeps m c r h.1)

theorem held0 (r : Ref sig .tc) (h0 : Spared0 r) : past0 m c r = m ((c.tc : Thread nD τ).loc r) := keep0 m c r h0
theorem held1 (r : Ref sig .tc) (h0 : Spared0 r) (h1 : Spared1 r) : past1 m c r = m ((c.tc : Thread nD τ).loc r) :=
  (keep1 m c r h1).trans (held0 m c r h0)
theorem held2 (r : Ref sig .tc) (h0 : Spared0 r) (h1 : Spared1 r) (h2 : Spared2 r) : past2 m c r = m ((c.tc : Thread nD τ).loc r) :=
  (keep2 m c r h2).trans (held1 m c r h0 h1)
theorem held3 (r : Ref sig .tc) (h0 : Spared0 r) (h1 : Spared1 r) (h2 : Spared2 r) (h3 : Spared3 r) :
    past3 m c r = m ((c.tc : Thread nD τ).loc r) :=
  (keep3 m c r h3).trans (held2 m c r h0 h1 h2)
theorem held4 (r : Ref sig .tc) (h0 : Spared0 r) (h1 : Spared1 r) (h2 : Spared2 r) (h3 : Spared3 r) (h4 : Spared4 r) :
    past4 m c r = m ((c.tc : Thread nD τ).loc r) :=
  (keep4 m c r h4).trans (held3 m c r h0 h1 h2 h3)

theorem in0_even : into0 m c main_v2 = evens (m ((c.tc : Thread nD τ).loc main_arg0)) := by
  show StableHlo.after hostOps0 (atLaunch m c) (Proc.devRef .tc main_v2) = _
  after_results
  rfl
theorem in0_x : into0 m c main_v4 = odds (m ((c.tc : Thread nD τ).loc main_arg0)) := by
  show StableHlo.after hostOps0 (atLaunch m c) (Proc.devRef .tc main_v4) = _
  after_results
  rfl
theorem in0_w : into0 m c main_arg2 = m ((c.tc : Thread nD τ).loc main_arg2) := into0_keeps m c main_arg2 (by decide)
theorem in0_b : into0 m c main_v5 = Coupling.asRow (m ((c.tc : Thread nD τ).loc main_arg3)) := by
  show StableHlo.after hostOps0 (atLaunch m c) (Proc.devRef .tc main_v5) = _
  after_results
  exact Coupling.shapeCast_asRow (n := 4096) (m ((c.tc : Thread nD τ).loc main_arg3)) _
theorem call0 : past0 m c main_v6
    = Coupling.hidden (m := 4096) (k := 1024) (n := 4096) (into0 m c main_v4) (into0 m c main_arg2) (into0 m c main_v5) :=
  (past0_arr m c 3).trans (layer0_array (entry0 m) c)
theorem out0 : past0 m c main_v6 = act0 (m ((c.tc : Thread nD τ).loc main_arg0)) (m ((c.tc : Thread nD τ).loc main_arg2))
    (m ((c.tc : Thread nD τ).loc main_arg3)) := by
  rw [call0, in0_x, in0_w, in0_b]
  rfl

theorem in1_x : into1 m c main_v6 = past0 m c main_v6 := into1_keeps m c main_v6 (by decide)
theorem in1_w : into1 m c main_v8 = weight0 (m ((c.tc : Thread nD τ).loc main_arg4)) := by
  show StableHlo.after hostOps1 (past0 m c) (Proc.devRef .tc main_v8) = _
  after_results
  rw [held0 m c main_arg4 (by decide)]
  rfl
theorem in1_b : into1 m c main_v11 = Coupling.asRow (bias0 (m ((c.tc : Thread nD τ).loc main_arg5))) := by
  show StableHlo.after hostOps1 (past0 m c) (Proc.devRef .tc main_v11) = _
  after_results
  rw [held0 m c main_arg5 (by decide)]
  exact Coupling.shapeCast_asRow (bias0 (m ((c.tc : Thread nD τ).loc main_arg5))) _
theorem call1 : past1 m c main_v12
    = Coupling.hidden (m := 4096) (k := 4096) (n := 4096) (into1 m c main_v6) (into1 m c main_v8) (into1 m c main_v11) :=
  (past1_arr m c 3).trans (layer1_array (entry1 m) c)
theorem out1 : past1 m c main_v12 = act1 (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5)) := by
  rw [call1, in1_x, in1_w, in1_b, out0]
  rfl

theorem in2_x : into2 m c main_v12 = past1 m c main_v12 := into2_keeps m c main_v12 (by decide)
theorem in2_w : into2 m c main_v14 = weight1 (m ((c.tc : Thread nD τ).loc main_arg4)) := by
  show StableHlo.after hostOps2 (past1 m c) (Proc.devRef .tc main_v14) = _
  after_results
  rw [held1 m c main_arg4 (by decide) (by decide)]
  rfl
theorem in2_b : into2 m c main_v17 = Coupling.asRow (bias1 (m ((c.tc : Thread nD τ).loc main_arg5))) := by
  show StableHlo.after hostOps2 (past1 m c) (Proc.devRef .tc main_v17) = _
  after_results
  rw [held1 m c main_arg5 (by decide) (by decide)]
  exact Coupling.shapeCast_asRow (bias1 (m ((c.tc : Thread nD τ).loc main_arg5))) _
theorem call2 : past2 m c main_v18
    = Coupling.hidden (m := 4096) (k := 4096) (n := 4096) (into2 m c main_v12) (into2 m c main_v14) (into2 m c main_v17) :=
  (past2_arr m c 3).trans (layer2_array (entry2 m) c)
theorem out2 : past2 m c main_v18 = act2 (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5)) := by
  rw [call2, in2_x, in2_w, in2_b, out1]
  rfl

theorem in3_x : into3 m c main_v18 = past2 m c main_v18 := into3_keeps m c main_v18 (by decide)
theorem in3_w : into3 m c main_v20 = weight2 (m ((c.tc : Thread nD τ).loc main_arg4)) := by
  show StableHlo.after hostOps3 (past2 m c) (Proc.devRef .tc main_v20) = _
  after_results
  rw [held2 m c main_arg4 (by decide) (by decide) (by decide)]
  rfl
theorem in3_b : into3 m c main_v23 = Coupling.asRow (bias2 (m ((c.tc : Thread nD τ).loc main_arg5))) := by
  show StableHlo.after hostOps3 (past2 m c) (Proc.devRef .tc main_v23) = _
  after_results
  rw [held2 m c main_arg5 (by decide) (by decide) (by decide)]
  exact Coupling.shapeCast_asRow (bias2 (m ((c.tc : Thread nD τ).loc main_arg5))) _
theorem call3 : past3 m c main_v24
    = Coupling.hidden (m := 4096) (k := 4096) (n := 4096) (into3 m c main_v18) (into3 m c main_v20) (into3 m c main_v23) :=
  (past3_arr m c 3).trans (layer3_array (entry3 m) c)
theorem out3 : past3 m c main_v24 = act3 (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5)) := by
  rw [call3, in3_x, in3_w, in3_b, out2]
  rfl

theorem in4_x : into4 m c main_v24 = past3 m c main_v24 := into4_keeps m c main_v24 (by decide)
theorem in4_w : into4 m c main_v26 = weight3 (m ((c.tc : Thread nD τ).loc main_arg4)) := by
  show StableHlo.after hostOps4 (past3 m c) (Proc.devRef .tc main_v26) = _
  after_results
  rw [held3 m c main_arg4 (by decide) (by decide) (by decide) (by decide)]
  rfl
theorem in4_b : into4 m c main_v29 = Coupling.asRow (bias3 (m ((c.tc : Thread nD τ).loc main_arg5))) := by
  show StableHlo.after hostOps4 (past3 m c) (Proc.devRef .tc main_v29) = _
  after_results
  rw [held3 m c main_arg5 (by decide) (by decide) (by decide) (by decide)]
  exact Coupling.shapeCast_asRow (bias3 (m ((c.tc : Thread nD τ).loc main_arg5))) _
theorem call4 : past4 m c main_v30
    = Coupling.hidden (m := 4096) (k := 4096) (n := 4096) (into4 m c main_v24) (into4 m c main_v26) (into4 m c main_v29) :=
  (past4_arr m c 3).trans (layer4_array (entry4 m) c)
theorem out4 : past4 m c main_v30 = act4 (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5)) := by
  rw [call4, in4_x, in4_w, in4_b, out3]
  rfl

theorem in5_x : into5 m c main_v30 = past4 m c main_v30 := into5_keeps m c main_v30 (by decide)
theorem in5_w : into5 m c main_arg6 = m ((c.tc : Thread nD τ).loc main_arg6) :=
  (into5_keeps m c main_arg6 (by decide)).trans (held4 m c main_arg6 (by decide) (by decide) (by decide) (by decide) (by decide))
theorem in5_b : into5 m c main_v31 = Coupling.asRow (m ((c.tc : Thread nD τ).loc main_arg7)) := by
  show StableHlo.after hostOps5 (past4 m c) (Proc.devRef .tc main_v31) = _
  after_results
  rw [held4 m c main_arg7 (by decide) (by decide) (by decide) (by decide) (by decide)]
  exact Coupling.shapeCast_asRow (n := 1024) (m ((c.tc : Thread nD τ).loc main_arg7)) _
theorem call5 : past5 m c main_v32
    = Coupling.affine (m := 4096) (k := 4096) (n := 1024) (into5 m c main_v30) (into5 m c main_arg6) (into5 m c main_v31) :=
  (past5_arr m c 3).trans (layer5_array (entry5 m) c)
theorem out5 : past5 m c main_v32 = Coupling.affine (m := 4096) (k := 4096) (n := 1024)
    (act4 (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5)))
    (m ((c.tc : Thread nD τ).loc main_arg6)) (Coupling.asRow (m ((c.tc : Thread nD τ).loc main_arg7))) := by
  rw [call5, in5_x, in5_w, in5_b, out4]

theorem end_even : past5 m c main_v2 = evens (m ((c.tc : Thread nD τ).loc main_arg0)) :=
  (keep5 m c main_v2 (by decide)).trans ((keep4 m c main_v2 (by decide)).trans ((keep3 m c main_v2 (by decide)).trans
    ((keep2 m c main_v2 (by decide)).trans ((keep1 m c main_v2 (by decide)).trans
      ((past0_keeps m c main_v2 (by decide)).trans (in0_even m c))))))
theorem end_odd : past5 m c main_v4 = odds (m ((c.tc : Thread nD τ).loc main_arg0)) :=
  (keep5 m c main_v4 (by decide)).trans ((keep4 m c main_v4 (by decide)).trans ((keep3 m c main_v4 (by decide)).trans
    ((keep2 m c main_v4 (by decide)).trans ((keep1 m c main_v4 (by decide)).trans
      ((past0_keeps m c main_v4 (by decide)).trans (in0_x m c))))))

theorem end_v37 : atEnd m c main_v37 = weave (addf (past5 m c main_v2) (past5 m c main_v32)) (past5 m c main_v4) := by
  show StableHlo.after hostOps6 (past5 m c) (Proc.devRef .tc main_v37) = _
  after_results
  rfl

theorem kernel_result : atEnd m c main_v37
    = result (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) := by
  rw [end_v37, end_even, end_odd, out5, result, net_eq]

end KernelSide

section ReferenceSide
open Cert.ReferenceIdeal Cert.ReferenceIdeal.Gen

variable (m' : (ℓ : Loc nD τ sig) → Buf (Elt Ideal) ℓ) (c : Dev nD)

theorem reference_result : Value.res_main_v54 (F := Ideal) m' c
    = result (m' ((c.tc : Thread nD τ).loc main_arg0)) (m' ((c.tc : Thread nD τ).loc main_arg2)) (m' ((c.tc : Thread nD τ).loc main_arg3))
        (m' ((c.tc : Thread nD τ).loc main_arg4)) (m' ((c.tc : Thread nD τ).loc main_arg5)) (m' ((c.tc : Thread nD τ).loc main_arg6))
        (m' ((c.tc : Thread nD τ).loc main_arg7)) := by
  unfold Value.res_main_v54
  rw [Layers.hidden_in, Layers.hidden_mid, Layers.hidden_mid, Layers.hidden_mid, Layers.hidden_mid, Layers.affine_out]
  rfl

end ReferenceSide

theorem reference_eq_kernel
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v54 (F := Ideal) m' c
      = Cert.KernelIdeal.Linear.atEnd (F := Ideal) m c (Proc.devRef .tc Cert.KernelIdeal.main_v37) := by
  rw [reference_result m' c, kernel_result m c, h0, h2, h3, h4, h5, h6, h7]

end Cert.Bridge

end
-- ==== Proof.lean ====
import proofs.«134883_j40123584479654_1_alg».proof.Defs
import proofs.«134883_j40123584479654_1_alg».proof.Proof.Gen.Kernel
import proofs.«134883_j40123584479654_1_alg».proof.Proof.Gen.KernelIdeal
import proofs.«134883_j40123584479654_1_alg».proof.Proof.Gen.ReferenceIdeal
import proofs.«134883_j40123584479654_1_alg».proof.Proof.Gen.Pre_finite_inputs
import proofs.«134883_j40123584479654_1_alg».proof.Proof.Kernel.Flow.Run
import proofs.«134883_j40123584479654_1_alg».proof.Proof.KernelIdeal.Flow.Run
import proofs.«134883_j40123584479654_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Linear.frame (F := Bits) m ρ

theorem frame_ideal : Cert.frame_KernelIdeal := fun m ρ _ => Cert.KernelIdeal.Linear.frame (F := Ideal) m ρ

theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Linear.atEnd (F := Ideal) m c (Proc.devRef .tc Cert.KernelIdeal.main_v37),
    fun c => m ((c.tc : Thread Cert.KernelIdeal.nD Cert.KernelIdeal.τ).loc Cert.KernelIdeal.main_arg1), ?_, ?_⟩
  · refine (θ_run (Cert.KernelIdeal.defs (F := Ideal)) _ _).mono (fun r h c => ?_) (Cert.KernelIdeal.Linear.run_to_end (F := Ideal) m ρ)
    have harg : ∀ (a : Ref Cert.KernelIdeal.sig .tc) (hu : ¬ (Proc.devRef .tc a : DevRef Cert.KernelIdeal.τ Cert.KernelIdeal.sig).isScoped)
        (ha : Cert.KernelIdeal.Linear.Untouched a),
        r.2.mem ((c.tc : Thread Cert.KernelIdeal.nD Cert.KernelIdeal.τ).loc a) = m ((c.tc : Thread Cert.KernelIdeal.nD Cert.KernelIdeal.τ).loc a) :=
      fun a hu ha => (h c _ (Cert.KernelIdeal.Linear.mem_uc a hu)).trans (Cert.KernelIdeal.Linear.atEnd_of_untouched m c a ha)
    exact ⟨h c _ (Cert.KernelIdeal.Linear.mem_uc Cert.KernelIdeal.main_v37 (by decide)),
      harg Cert.KernelIdeal.main_arg1 (by decide) (by unfold Cert.KernelIdeal.Linear.Untouched; decide),
      harg Cert.KernelIdeal.main_arg0 (by decide) (by unfold Cert.KernelIdeal.Linear.Untouched; decide),
      harg Cert.KernelIdeal.main_arg1 (by decide) (by unfold Cert.KernelIdeal.Linear.Untouched; decide),
      harg Cert.KernelIdeal.main_arg2 (by decide) (by unfold Cert.KernelIdeal.Linear.Untouched; decide),
      harg Cert.KernelIdeal.main_arg3 (by decide) (by unfold Cert.KernelIdeal.Linear.Untouched; decide),
      harg Cert.KernelIdeal.main_arg4 (by decide) (by unfold Cert.KernelIdeal.Linear.Untouched; decide),
      harg Cert.KernelIdeal.main_arg5 (by decide) (by unfold Cert.KernelIdeal.Linear.Untouched; decide),
      harg Cert.KernelIdeal.main_arg6 (by decide) (by unfold Cert.KernelIdeal.Linear.Untouched; decide),
      harg Cert.KernelIdeal.main_arg7 (by decide) (by unfold Cert.KernelIdeal.Linear.Untouched; decide)⟩
  · refine (θ_run (Cert.ReferenceIdeal.defs (F := Ideal)) _ _).mono (fun r h c => ?_) (Cert.ReferenceIdeal.Value.run (F := Ideal) m' ρ')
    obtain ⟨a0, a1, a2, a3, a4, a5, a6, a7⟩ := hagree c
    exact ⟨(h c).1.trans (Cert.Bridge.reference_eq_kernel m m' c a0 a2 a3 a4 a5 a6 a7), (h c).2.1.trans a1, (h c).2.2⟩

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
